-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_1000000" .f32 0x358637BD#32 ((1 / 1000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1000000 : Shape := ⟨2, ![2, 1000000]⟩
abbrev S1000000 : Shape := ⟨1, ![1000000]⟩
abbrev S1024x64 : Shape := ⟨2, ![1024, 64]⟩
abbrev S1024x1024 : Shape := ⟨2, ![1024, 1024]⟩
abbrev S50000x1024 : Shape := ⟨2, ![50000, 1024]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S1x1000000 : Shape := ⟨2, ![1, 1000000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S50000x1024 : S_.BroadcastsInDim S50000x1024 (![] : Fin 0 → Fin S50000x1024.rank)
  reducesTo_S50000x1024_S_d0_1 : S50000x1024.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  slices_S2x1000000_S1x1000000_0_0 : S2x1000000.Slices ![0, 0] S1x1000000
  shapeCasts_S1x1000000_S1000000 : S1x1000000.ShapeCasts S1000000

variable [Facts]

def fn_part5 {F : FTy → Type} [FloatOps F] (main_v78 : IVec S_ 1) (main_v82 : IVec S1000000 1) (main_v84 : IVec S1000000 32) (main_v85 : IVec S1000000 32) : IVec S_ 1 :=
  let main_v86 : IVec S1000000 1 := cmpi .slt main_v84 main_v85
  let main_v87 : IVec S1000000 1 := andi main_v82 main_v86
  let main_c_32 : IVec S_ 1 := constantI S_ 1 1#1
  let main_v88 : IVec S_ 1 := (fun x v => Host.reduce IntOp.andi x v reducesTo_S1000000_S_d0 h_S_) main_v87 main_c_32
  let main_v89 : IVec S_ 1 := andi main_v78 main_v88
  main_v89

def fn_part4 {F : FTy → Type} [FloatOps F] (main_arg1 : IVec S2x1000000 32) (main_arg15 : FVec F S32x2 .f32) (main_arg16 : FVec F S2 .f32) (main_v63 : IVec S_ 1) (main_v67 : IVec S_ 1) : IVec S_ 1 :=
  let main_v68 : IVec S_ 1 := andi main_v63 main_v67
  let main_v69 : FVec F S32x2 .f32 := Host.absf main_arg15
  let main_cst_26 : FVec F S_ .f32 := constant S_ .f32 0x7F800000#32
  let main_v70 : FVec F S32x2 .f32 := broadcastInDim S32x2 ![] bcast_S_S32x2 main_cst_26
  let main_v71 : IVec S32x2 1 := cmpf .olt main_v69 main_v70
  let main_c_27 : IVec S_ 1 := constantI S_ 1 1#1
  let main_v72 : IVec S_ 1 := (fun x v => Host.reduce IntOp.andi x v reducesTo_S32x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : IVec S1x1000000 32 := (extractStridedSlice S1x1000000 ![0, 0] · slices_S2x1000000_S1x1000000_0_0) main_arg1
  let main_v80 : IVec S1000000 32 := shapeCast S1000000 main_v79 shapeCasts_S1x1000000_S1000000
  let main_c_30 : IVec S_ 32 := constantI S_ 32 0#32
  let main_v81 : IVec S1000000 32 := broadcastInDim S1000000 ![] bcast_S_S1000000 main_c_30
  let main_v82 : IVec S1000000 1 := cmpi .sge main_v80 main_v81
  let main_v83 : IVec S1x1000000 32 := (extractStridedSlice S1x1000000 ![0, 0] · slices_S2x1000000_S1x1000000_0_0) main_arg1
  let main_v84 : IVec S1000000 32 := shapeCast S1000000 main_v83 shapeCasts_S1x1000000_S1000000
  let main_c_31 : IVec S_ 32 := constantI S_ 32 50000#32
  let main_v85 : IVec S1000000 32 := broadcastInDim S1000000 ![] bcast_S_S1000000 main_c_31
  fn_part5 (F := F) main_v78 main_v82 main_v84 main_v85

def fn_part3 {F : FTy → Type} [FloatOps F] (main_arg1 : IVec S2x1000000 32) (main_arg12 : FVec F S32 .f32) (main_arg13 : FVec F S32x32 .f32) (main_arg14 : FVec F S32 .f32) (main_arg15 : FVec F S32x2 .f32) (main_arg16 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg15 main_arg16 main_v63 main_v67

def fn_part2 {F : FTy → Type} [FloatOps F] (main_arg1 : IVec S2x1000000 32) (main_arg8 : FVec F S64x32 .f32) (main_arg9 : FVec F S32 .f32) (main_arg10 : FVec F S32x32 .f32) (main_arg11 : FVec F S64x32 .f32) (main_arg12 : FVec F S32 .f32) (main_arg13 : FVec F S32x32 .f32) (main_arg14 : FVec F S32 .f32) (main_arg15 : FVec F S32x2 .f32) (main_arg16 : FVec F S2 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg1 main_arg12 main_arg13 main_arg14 main_arg15 main_arg16 main_v48 main_v49 main_v50

def fn_part1 {F : FTy → Type} [FloatOps F] (main_arg1 : IVec S2x1000000 32) (main_arg5 : FVec F S50000x1024 .f32) (main_arg6 : FVec F S128x64 .f32) (main_arg7 : FVec F S64 .f32) (main_arg8 : FVec F S64x32 .f32) (main_arg9 : FVec F S32 .f32) (main_arg10 : FVec F S32x32 .f32) (main_arg11 : FVec F S64x32 .f32) (main_arg12 : FVec F S32 .f32) (main_arg13 : FVec F S32x32 .f32) (main_arg14 : FVec F S32 .f32) (main_arg15 : FVec F S32x2 .f32) (main_arg16 : FVec F S2 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S50000x1024 .f32 := Host.absf main_arg5
  let main_cst_6 : FVec F S_ .f32 := constant S_ .f32 0x7F800000#32
  let main_v20 : FVec F S50000x1024 .f32 := broadcastInDim S50000x1024 ![] bcast_S_S50000x1024 main_cst_6
  let main_v21 : IVec S50000x1024 1 := cmpf .olt main_v19 main_v20
  let main_c_7 : IVec S_ 1 := constantI S_ 1 1#1
  let main_v22 : IVec S_ 1 := (fun x v => Host.reduce IntOp.andi x v reducesTo_S50000x1024_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x1000000 32) (main_arg2 : FVec F S1000000 .f32) (main_arg3 : FVec F S1024x64 .f32) (main_arg4 : FVec F S1024x1024 .f32) (main_arg5 : FVec F S50000x1024 .f32) (main_arg6 : FVec F S128x64 .f32) (main_arg7 : FVec F S64 .f32) (main_arg8 : FVec F S64x32 .f32) (main_arg9 : FVec F S32 .f32) (main_arg10 : FVec F S32x32 .f32) (main_arg11 : FVec F S64x32 .f32) (main_arg12 : FVec F S32 .f32) (main_arg13 : FVec F S32x32 .f32) (main_arg14 : FVec F S32 .f32) (main_arg15 : FVec F S32x2 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x1000000 : Shape := ⟨2, ![2, 1000000]⟩
abbrev S1000000 : Shape := ⟨1, ![1000000]⟩
abbrev S1024x64 : Shape := ⟨2, ![1024, 64]⟩
abbrev S1024x1024 : Shape := ⟨2, ![1024, 1024]⟩
abbrev S50000x1024 : Shape := ⟨2, ![50000, 1024]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1000000 : Shape := ⟨2, ![1, 1000000]⟩
abbrev S50000x64 : Shape := ⟨2, ![50000, 64]⟩
abbrev S1x64 : Shape := ⟨2, ![1, 64]⟩
abbrev S_ : Shape := ⟨0, ![]⟩
abbrev S1007616 : Shape := ⟨1, ![1007616]⟩
abbrev S1007616x1 : Shape := ⟨2, ![1007616, 1]⟩
abbrev S1x1007616 : Shape := ⟨2, ![1, 1007616]⟩
abbrev S50176x64 : Shape := ⟨2, ![50176, 64]⟩
abbrev S1007616x64 : Shape := ⟨2, ![1007616, 64]⟩
abbrev S8192x1 : Shape := ⟨2, ![8192, 1]⟩
abbrev S8192x64 : Shape := ⟨2, ![8192, 64]⟩
abbrev S8192x1024 : Shape := ⟨2, ![8192, 1024]⟩
abbrev S1x8192 : Shape := ⟨2, ![1, 8192]⟩
abbrev S1024x8192 : Shape := ⟨2, ![1024, 8192]⟩
abbrev S50000x32 : Shape := ⟨2, ![50000, 32]⟩
abbrev S1x32 : Shape := ⟨2, ![1, 32]⟩
abbrev S50176x32 : Shape := ⟨2, ![50176, 32]⟩
abbrev S1007616x32 : Shape := ⟨2, ![1007616, 32]⟩
abbrev S1024x32 : Shape := ⟨2, ![1024, 32]⟩
abbrev S8192x32 : Shape := ⟨2, ![8192, 32]⟩
abbrev S1x2 : Shape := ⟨2, ![1, 2]⟩
abbrev S50000x2 : Shape := ⟨2, ![50000, 2]⟩
abbrev S2000x1024 : Shape := ⟨2, ![2000, 1024]⟩
abbrev S2000x32 : Shape := ⟨2, ![2000, 32]⟩
abbrev S2000x2 : Shape := ⟨2, ![2000, 2]⟩
abbrev S2000 : Shape := ⟨1, ![2000]⟩
abbrev S2000x1 : Shape := ⟨2, ![2000, 1]⟩

abbrev nBuf : Space → Nat
  | .hbm => 87
  | .vmem => 61
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000, .f32⟩
  | .hbm, ⟨3, _⟩ => ⟨S1024x64, .f32⟩
  | .hbm, ⟨4, _⟩ => ⟨S1024x1024, .f32⟩
  | .hbm, ⟨5, _⟩ => ⟨S50000x1024, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x32, .f32⟩
  | .hbm, ⟨11, _⟩ => ⟨S64x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x2, .f32⟩
  | .hbm, ⟨16, _⟩ => ⟨S2, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S_, .i32⟩
  | .hbm, ⟨27, _⟩ => ⟨S1007616, .i32⟩
  | .hbm, ⟨28, _⟩ => ⟨S1007616x1, .i32⟩
  | .hbm, ⟨29, _⟩ => ⟨S_, .i32⟩
  | .hbm, ⟨30, _⟩ => ⟨S_, .i32⟩
  | .hbm, ⟨31, _⟩ => ⟨S1007616, .i32⟩
  | .hbm, ⟨32, _⟩ => ⟨S1x1007616, .i32⟩
  | .hbm, ⟨33, _⟩ => ⟨S_, .f32⟩
  | .hbm, ⟨34, _⟩ => ⟨S_, .f32⟩
  | .hbm, ⟨35, _⟩ => ⟨S1007616, .f32⟩
  | .hbm, ⟨36, _⟩ => ⟨S1007616x1, .f32⟩
  | .hbm, ⟨37, _⟩ => ⟨S_, .i32⟩
  | .hbm, ⟨38, _⟩ => ⟨S_, .f32⟩
  | .hbm, ⟨39, _⟩ => ⟨S50176x64, .f32⟩
  | .hbm, ⟨40, _⟩ => ⟨S1007616x64, .f32⟩
  | .hbm, ⟨41, _⟩ => ⟨S50176x64, .f32⟩
  | .hbm, ⟨42, _⟩ => ⟨S50000x64, .f32⟩
  | .hbm, ⟨43, _⟩ => ⟨S50000x32, .f32⟩
  | .hbm, ⟨44, _⟩ => ⟨S1x32, .f32⟩
  | .hbm, ⟨45, _⟩ => ⟨S50000x32, .f32⟩
  | .hbm, ⟨46, _⟩ => ⟨S50000x32, .f32⟩
  | .hbm, ⟨47, _⟩ => ⟨S_, .i32⟩
  | .hbm, ⟨48, _⟩ => ⟨S_, .i32⟩
  | .hbm, ⟨49, _⟩ => ⟨S1007616, .i32⟩
  | .hbm, ⟨50, _⟩ => ⟨S1007616x1, .i32⟩
  | .hbm, ⟨51, _⟩ => ⟨S_, .i32⟩
  | .hbm, ⟨52, _⟩ => ⟨S_, .i32⟩
  | .hbm, ⟨53, _⟩ => ⟨S1007616, .i32⟩
  | .hbm, ⟨54, _⟩ => ⟨S1x1007616, .i32⟩
  | .hbm, ⟨55, _⟩ => ⟨S_, .f32⟩
  | .hbm, ⟨56, _⟩ => ⟨S_, .f32⟩
  | .hbm, ⟨57, _⟩ => ⟨S1007616, .f32⟩
  | .hbm, ⟨58, _⟩ => ⟨S1007616x1, .f32⟩
  | .hbm, ⟨59, _⟩ => ⟨S_, .i32⟩
  | .hbm, ⟨60, _⟩ => ⟨S_, .f32⟩
  | .hbm, ⟨61, _⟩ => ⟨S50176x32, .f32⟩
  | .hbm, ⟨62, _⟩ => ⟨S1007616x32, .f32⟩
  | .hbm, ⟨63, _⟩ => ⟨S50176x32, .f32⟩
  | .hbm, ⟨64, _⟩ => ⟨S50000x32, .f32⟩
  | .hbm, ⟨65, _⟩ => ⟨S_, .i32⟩
  | .hbm, ⟨66, _⟩ => ⟨S_, .i32⟩
  | .hbm, ⟨67, _⟩ => ⟨S1007616, .i32⟩
  | .hbm, ⟨68, _⟩ => ⟨S1007616x1, .i32⟩
  | .hbm, ⟨69, _⟩ => ⟨S_, .i32⟩
  | .hbm, ⟨70, _⟩ => ⟨S_, .i32⟩
  | .hbm, ⟨71, _⟩ => ⟨S1007616, .i32⟩
  | .hbm, ⟨72, _⟩ => ⟨S1x1007616, .i32⟩
  | .hbm, ⟨73, _⟩ => ⟨S_, .f32⟩
  | .hbm, ⟨74, _⟩ => ⟨S1007616x1, .f32⟩
  | .hbm, ⟨75, _⟩ => ⟨S_, .i32⟩
  | .hbm, ⟨76, _⟩ => ⟨S_, .f32⟩
  | .hbm, ⟨77, _⟩ => ⟨S50176x32, .f32⟩
  | .hbm, ⟨78, _⟩ => ⟨S1007616x32, .f32⟩
  | .hbm, ⟨79, _⟩ => ⟨S50176x32, .f32⟩
  | .hbm, ⟨80, _⟩ => ⟨S50000x32, .f32⟩
  | .hbm, ⟨81, _⟩ => ⟨S1024x32, .f32⟩
  | .hbm, ⟨82, _⟩ => ⟨S1024x32, .f32⟩
  | .hbm, ⟨83, _⟩ => ⟨S1x32, .f32⟩
  | .hbm, ⟨84, _⟩ => ⟨S1x32, .f32⟩
  | .hbm, ⟨85, _⟩ => ⟨S1x2, .f32⟩
  | .hbm, ⟨86, _⟩ => ⟨S50000x2, .f32⟩
  | .local _ .vmem, ⟨0, _⟩ => ⟨S8192x1, .i32⟩
  | .local _ .vmem, ⟨1, _⟩ => ⟨S8192x1, .i32⟩
  | .local _ .vmem, ⟨2, _⟩ => ⟨S8192x1, .f32⟩
  | .local _ .vmem, ⟨3, _⟩ => ⟨S8192x1, .f32⟩
  | .local _ .vmem, ⟨4, _⟩ => ⟨S1024x64, .f32⟩
  | .local _ .vmem, ⟨5, _⟩ => ⟨S1024x64, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S1x8192, .i32⟩
  | .local _ .vmem, ⟨10, _⟩ => ⟨S1x8192, .i32⟩
  | .local _ .vmem, ⟨11, _⟩ => ⟨S8192x64, .f32⟩
  | .local _ .vmem, ⟨12, _⟩ => ⟨S8192x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S8192x1, .i32⟩
  | .local _ .vmem, ⟨17, _⟩ => ⟨S8192x1, .i32⟩
  | .local _ .vmem, ⟨18, _⟩ => ⟨S8192x1, .f32⟩
  | .local _ .vmem, ⟨19, _⟩ => ⟨S8192x1, .f32⟩
  | .local _ .vmem, ⟨20, _⟩ => ⟨S1024x32, .f32⟩
  | .local _ .vmem, ⟨21, _⟩ => ⟨S1024x32, .f32⟩
  | .local _ .vmem, ⟨22, _⟩ => ⟨S8192x32, .f32⟩
  | .local _ .vmem, ⟨23, _⟩ => ⟨S8192x32, .f32⟩
  | .local _ .vmem, ⟨24, _⟩ => ⟨S8192x32, .f32⟩
  | .local _ .vmem, ⟨25, _⟩ => ⟨S1x8192, .i32⟩
  | .local _ .vmem, ⟨26, _⟩ => ⟨S1x8192, .i32⟩
  | .local _ .vmem, ⟨27, _⟩ => ⟨S8192x32, .f32⟩
  | .local _ .vmem, ⟨28, _⟩ => ⟨S8192x32, .f32⟩
  | .local _ .vmem, ⟨29, _⟩ => ⟨S1024x32, .f32⟩
  | .local _ .vmem, ⟨30, _⟩ => ⟨S1024x32, .f32⟩
  | .local _ .vmem, ⟨31, _⟩ => ⟨S1024x32, .f32⟩
  | .local _ .vmem, ⟨32, _⟩ => ⟨S8192x1, .i32⟩
  | .local _ .vmem, ⟨33, _⟩ => ⟨S8192x1, .i32⟩
  | .local _ .vmem, ⟨34, _⟩ => ⟨S8192x1, .f32⟩
  | .local _ .vmem, ⟨35, _⟩ => ⟨S8192x1, .f32⟩
  | .local _ .vmem, ⟨36, _⟩ => ⟨S1024x32, .f32⟩
  | .local _ .vmem, ⟨37, _⟩ => ⟨S1024x32, .f32⟩
  | .local _ .vmem, ⟨38, _⟩ => ⟨S8192x32, .f32⟩
  | .local _ .vmem, ⟨39, _⟩ => ⟨S8192x32, .f32⟩
  | .local _ .vmem, ⟨40, _⟩ => ⟨S8192x32, .f32⟩
  | .local _ .vmem, ⟨41, _⟩ => ⟨S1x8192, .i32⟩
  | .local _ .vmem, ⟨42, _⟩ => ⟨S1x8192, .i32⟩
  | .local _ .vmem, ⟨43, _⟩ => ⟨S8192x32, .f32⟩
  | .local _ .vmem, ⟨44, _⟩ => ⟨S8192x32, .f32⟩
  | .local _ .vmem, ⟨45, _⟩ => ⟨S1024x32, .f32⟩
  | .local _ .vmem, ⟨46, _⟩ => ⟨S1024x32, .f32⟩
  | .local _ .vmem, ⟨47, _⟩ => ⟨S1024x32, .f32⟩
  | .local _ .vmem, ⟨48, _⟩ => ⟨S2000x1024, .f32⟩
  | .local _ .vmem, ⟨49, _⟩ => ⟨S2000x1024, .f32⟩
  | .local _ .vmem, ⟨50, _⟩ => ⟨S2000x32, .f32⟩
  | .local _ .vmem, ⟨51, _⟩ => ⟨S2000x32, .f32⟩
  | .local _ .vmem, ⟨52, _⟩ => ⟨S1024x32, .f32⟩
  | .local _ .vmem, ⟨53, _⟩ => ⟨S32x32, .f32⟩
  | .local _ .vmem, ⟨54, _⟩ => ⟨S1x32, .f32⟩
  | .local _ .vmem, ⟨55, _⟩ => ⟨S32x32, .f32⟩
  | .local _ .vmem, ⟨56, _⟩ => ⟨S1x32, .f32⟩
  | .local _ .vmem, ⟨57, _⟩ => ⟨S32x2, .f32⟩
  | .local _ .vmem, ⟨58, _⟩ => ⟨S1x2, .f32⟩
  | .local _ .vmem, ⟨59, _⟩ => ⟨S2000x2, .f32⟩
  | .local _ .vmem, ⟨60, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_call1_v0 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_call2_v0 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_call3_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_call4_v0 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_call5_v0 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_call6_v0 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_call7_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_call8_v0 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_call9_v0 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_c_9 : Ref sig .tc := ⟨.hbm, 75, rfl⟩
abbrev main_call10_v0 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg7_0 : Ref sig .tc := ⟨.vmem, 57, rfl⟩
abbrev cc6_stg8_0 : Ref sig .tc := ⟨.vmem, 58, rfl⟩
abbrev cc6_stg9_0 : Ref sig .tc := ⟨.vmem, 59, rfl⟩
abbrev cc6_stg9_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem7_0 : DmaSem sig := 51
abbrev cc6_sem8_0 : DmaSem sig := 52
abbrev cc6_sem9_0 : DmaSem sig := 53
abbrev cc6_sem9_1 : DmaSem sig := 54

abbrev nD : Nat := 1
abbrev τ : Topo := Topo.v7x

variable {F : FTy → Type} [FloatOps F]

abbrev grid0 : Pipeline.Grid := ⟨2, ![123, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 123], ![false, false]⟩

def k1_cond2 (i : grid1.Coords) : BitVec 1 :=
  let arg1 : BitVec 32 := BitVec.ofNat 32 (i 1).val
  let c122_i32 : BitVec 32 := 122#32
  let v23 : BitVec 1 := Scalar.cmpi .eq arg1 c122_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![123, 49], ![false, false]⟩

def k2_cond2 (i : grid2.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8192x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![49, 123], ![false, false]⟩

def k3_cond2 (i : grid3.Coords) : BitVec 1 :=
  let arg1 : BitVec 32 := BitVec.ofNat 32 (i 1).val
  let c122_i32 : BitVec 32 := 122#32
  let v23 : BitVec 1 := Scalar.cmpi .eq arg1 c122_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x8192 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S8192x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![123, 49], ![false, false]⟩

def k4_cond2 (i : grid4.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8192x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8192x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 123], ![false, false]⟩

def k5_cond2 (i : grid5.Coords) : BitVec 1 :=
  let arg1 : BitVec 32 := BitVec.ofNat 32 (i 1).val
  let c122_i32 : BitVec 32 := 122#32
  let v23 : BitVec 1 := Scalar.cmpi .eq arg1 c122_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x8192 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8192x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x2 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x2 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x2 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  pads_S1000000_S1007616_076160 : S1000000.Pads (![0] : Fin 1 → Nat) ![7616] ![0] S1007616
  h_S_ : 0 < S_.numel
  shapeCasts_S1007616_S1007616x1 : S1007616.ShapeCasts S1007616x1
  shapeCasts_S1007616_S1x1007616 : S1007616.ShapeCasts S1x1007616
  pads_S50000x64_S50176x64_01760_000 : S50000x64.Pads (![0, 0] : Fin 2 → Nat) ![176, 0] ![0, 0] S50176x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  iota_S8192x1024_d1_w32 : S8192x1024.Iotas .tc 32 [1]
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x1024 : S8192x1.Broadcasts S8192x1024
  natLt_1_32 : 1 < 32
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S8192x1_S8192x64 : S8192x1.Broadcasts S8192x64
  iota_S1024x8192_d0_w32 : S1024x8192.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S1024x8192 : S1x8192.Broadcasts S1024x8192
  slices_S50176x64_S50000x64_0_0 : S50176x64.Slices ![0, 0] S50000x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  pads_S50000x32_S50176x32_01760_000 : S50000x32.Pads (![0, 0] : Fin 2 → Nat) ![176, 0] ![0, 0] S50176x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  broadcasts_S8192x1_S8192x32 : S8192x1.Broadcasts S8192x32
  slices_S50176x32_S50000x32_0_0 : S50176x32.Slices ![0, 0] S50000x32
  bcast_S_S1007616x1 : S_.BroadcastsInDim S1007616x1 (![] : Fin 0 → Fin S1007616x1.rank)
  shapeCasts_S32_S1x32 : S32.ShapeCasts S1x32
  shapeCasts_S2_S1x2 : S2.ShapeCasts S1x2
  inb_S2000x1024_S2000x1024_0_0 : ∀ a, (![0, 0] : Fin 2 → Nat) a + S2000x1024.size a ≤ S2000x1024.size a
  h_S2000x1024 : 0 < S2000x1024.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  dot_S50000x128_S128x64_S50000x64_1_0_0_1_n_n_wf : DotDims.WF S50000x128 S128x64 S50000x64 [1] [0] [0] [1] [] []
  dot_S8192x1024_S1024x64_S8192x64_1_0_0_1_n_n_wf : DotDims.WF S8192x1024 S1024x64 S8192x64 [1] [0] [0] [1] [] []
  dot_S1024x8192_S8192x64_S1024x64_1_0_0_1_n_n_wf : DotDims.WF S1024x8192 S8192x64 S1024x64 [1] [0] [0] [1] [] []
  dot_S50000x64_S64x32_S50000x32_1_0_0_1_n_n_wf : DotDims.WF S50000x64 S64x32 S50000x32 [1] [0] [0] [1] [] []
  dot_S8192x1024_S1024x32_S8192x32_1_0_0_1_n_n_wf : DotDims.WF S8192x1024 S1024x32 S8192x32 [1] [0] [0] [1] [] []
  dot_S1024x8192_S8192x32_S1024x32_1_0_0_1_n_n_wf : DotDims.WF S1024x8192 S8192x32 S1024x32 [1] [0] [0] [1] [] []
  dot_S1024x64_S64x32_S1024x32_1_0_0_1_n_n_wf : DotDims.WF S1024x64 S64x32 S1024x32 [1] [0] [0] [1] [] []
  dot_S1024x1024_S1024x32_S1024x32_1_0_0_1_n_n_wf : DotDims.WF S1024x1024 S1024x32 S1024x32 [1] [0] [0] [1] [] []
  dot_S2000x1024_S1024x32_S2000x32_1_0_0_1_n_n_wf : DotDims.WF S2000x1024 S1024x32 S2000x32 [1] [0] [0] [1] [] []
  dot_S2000x32_S32x32_S2000x32_1_0_0_1_n_n_wf : DotDims.WF S2000x32 S32x32 S2000x32 [1] [0] [0] [1] [] []
  dot_S2000x32_S32x2_S2000x2_1_0_0_1_n_n_wf : DotDims.WF S2000x32 S32x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1007616x1.size a
  hwx0_0 : ∀ i : grid0.Coords, EltTy.bits .i32 = 32 ∨ (Rect.block (s := S1007616x1) S8192x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1007616x1.size a
  hwx0_1 : ∀ i : grid0.Coords, EltTy.bits .f32 = 32 ∨ (Rect.block (s := S1007616x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S50176x64.size a
  hwx0_2 : ∀ i : grid0.Coords, EltTy.bits .f32 = 32 ∨ (Rect.block (s := S50176x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S1007616x64.size a
  hwx0_3 : ∀ i : grid0.Coords, EltTy.bits .f32 = 32 ∨ (Rect.block (s := S1007616x64) S8192x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x1007616.size a
  hwx1_0 : ∀ i : grid1.Coords, EltTy.bits .i32 = 32 ∨ (Rect.block (s := S1x1007616) S1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1007616x64.size a
  hwx1_1 : ∀ i : grid1.Coords, EltTy.bits .f32 = 32 ∨ (Rect.block (s := S1007616x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .f32 = 32 ∨ (Rect.block (s := S50176x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S1007616x1.size a
  hwx2_0 : ∀ i : grid2.Coords, EltTy.bits .i32 = 32 ∨ (Rect.block (s := S1007616x1) S8192x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S1007616x1.size a
  hwx2_1 : ∀ i : grid2.Coords, EltTy.bits .f32 = 32 ∨ (Rect.block (s := S1007616x1) S8192x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S50176x32.size a
  hwx2_2 : ∀ i : grid2.Coords, EltTy.bits .f32 = 32 ∨ (Rect.block (s := S50176x32) S1024x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S1007616x32.size a
  hwx2_3 : ∀ i : grid2.Coords, EltTy.bits .f32 = 32 ∨ (Rect.block (s := S1007616x32) S8192x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8192.size a ≤ S1x1007616.size a
  hwx3_0 : ∀ i : grid3.Coords, EltTy.bits .i32 = 32 ∨ (Rect.block (s := S1x1007616) S1x8192.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x32.size a ≤ S1007616x32.size a
  hwx3_1 : ∀ i : grid3.Coords, EltTy.bits .f32 = 32 ∨ (Rect.block (s := S1007616x32) S8192x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x32.size a ≤ S50176x32.size a
  hwx3_2 : ∀ i : grid3.Coords, EltTy.bits .f32 = 32 ∨ (Rect.block (s := S50176x32) S1024x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x1.size a ≤ S1007616x1.size a
  hwx4_0 : ∀ i : grid4.Coords, EltTy.bits .i32 = 32 ∨ (Rect.block (s := S1007616x1) S8192x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1007616x1.size a
  hwx4_1 : ∀ i : grid4.Coords, EltTy.bits .f32 = 32 ∨ (Rect.block (s := S1007616x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x32.size a ≤ S50176x32.size a
  hwx4_2 : ∀ i : grid4.Coords, EltTy.bits .f32 = 32 ∨ (Rect.block (s := S50176x32) S1024x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x32.size a ≤ S1007616x32.size a
  hwx4_3 : ∀ i : grid4.Coords, EltTy.bits .f32 = 32 ∨ (Rect.block (s := S1007616x32) S8192x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x8192.size a ≤ S1x1007616.size a
  hwx5_0 : ∀ i : grid5.Coords, EltTy.bits .i32 = 32 ∨ (Rect.block (s := S1x1007616) S1x8192.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x32.size a ≤ S1007616x32.size a
  hwx5_1 : ∀ i : grid5.Coords, EltTy.bits .f32 = 32 ∨ (Rect.block (s := S1007616x32) S8192x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x32.size a ≤ S50176x32.size a
  hwx5_2 : ∀ i : grid5.Coords, EltTy.bits .f32 = 32 ∨ (Rect.block (s := S50176x32) S1024x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1024.size a ≤ S50000x1024.size a
  hwx6_0 : ∀ i : grid6.Coords, EltTy.bits .f32 = 32 ∨ (Rect.block (s := S50000x1024) S2000x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S50000x32.size a
  hwx6_1 : ∀ i : grid6.Coords, EltTy.bits .f32 = 32 ∨ (Rect.block (s := S50000x32) S2000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x32.size a ≤ S1024x32.size a
  hwx6_2 : ∀ i : grid6.Coords, EltTy.bits .f32 = 32 ∨ (Rect.block (s := S1024x32) S1024x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x32.size a ≤ S32x32.size a
  hwx6_5 : ∀ i : grid6.Coords, EltTy.bits .f32 = 32 ∨ (Rect.block (s := S32x32) S32x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x2.size a ≤ S32x2.size a
  hwx6_7 : ∀ i : grid6.Coords, EltTy.bits .f32 = 32 ∨ (Rect.block (s := S32x2) S32x2.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x2.size a ≤ S1x2.size a
  hwx6_8 : ∀ i : grid6.Coords, EltTy.bits .f32 = 32 ∨ (Rect.block (s := S1x2) S1x2.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x2.size a ≤ S50000x2.size a
  hwx6_9 : ∀ i : grid6.Coords, EltTy.bits .f32 = 32 ∨ (Rect.block (s := S50000x2) S2000x2.size (cc6_transform_9 i) (hinb6_9 i)).WholeWords (EltTy.packing .f32)

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S8192x1024_S1024x32_S8192x32_1_0_0_1_n_n : DotDims S8192x1024 S1024x32 S8192x32 where
  lhsContracting := [1]
  rhsContracting := [0]
  lhsNonContracting := [0]
  rhsNonContracting := [1]
  lhsBatch := []
  rhsBatch := []
  wf := dot_S8192x1024_S1024x32_S8192x32_1_0_0_1_n_n_wf
def dot_S1024x8192_S8192x32_S1024x32_1_0_0_1_n_n : DotDims S1024x8192 S8192x32 S1024x32 where
  lhsContracting := [1]
  rhsContracting := [0]
  lhsNonContracting := [0]
  rhsNonContracting := [1]
  lhsBatch := []
  rhsBatch := []
  wf := dot_S1024x8192_S8192x32_S1024x32_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S2000x1024_S1024x32_S2000x32_1_0_0_1_n_n : DotDims S2000x1024 S1024x32 S2000x32 where
  lhsContracting := [1]
  rhsContracting := [0]
  lhsNonContracting := [0]
  rhsNonContracting := [1]
  lhsBatch := []
  rhsBatch := []
  wf := dot_S2000x1024_S1024x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x2_S2000x2_1_0_0_1_n_n : DotDims S2000x32 S32x2 S2000x2 where
  lhsContracting := [1]
  rhsContracting := [0]
  lhsNonContracting := [0]
  rhsNonContracting := [1]
  lhsBatch := []
  rhsBatch := []
  wf := dot_S2000x32_S32x2_S2000x2_1_0_0_1_n_n_wf

abbrev win0_0 : Pipeline.Window sig grid0 :=
  Pipeline.Window.ofSpec (Memref.whole main_v9) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1024x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S8192x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v25) S1x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S8192x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1024x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v33) S8192x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1024x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S8192x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v35) S1x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S8192x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S1024x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_arg5) S2000x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v40) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v42) S1024x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v43) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S32x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v44) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg15) S32x2.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v45) S1x2.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v46) S2000x2.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1000000 : Shape := ⟨2, ![2, 1000000]⟩
abbrev S1000000 : Shape := ⟨1, ![1000000]⟩
abbrev S1024x64 : Shape := ⟨2, ![1024, 64]⟩
abbrev S1024x1024 : Shape := ⟨2, ![1024, 1024]⟩
abbrev S50000x1024 : Shape := ⟨2, ![50000, 1024]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1000000 : Shape := ⟨2, ![1, 1000000]⟩
abbrev S50000x64 : Shape := ⟨2, ![50000, 64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S50000x32 : Shape := ⟨2, ![50000, 32]⟩
abbrev S1x32 : Shape := ⟨2, ![1, 32]⟩
abbrev S1000000x32 : Shape := ⟨2, ![1000000, 32]⟩
abbrev S1024x32 : Shape := ⟨2, ![1024, 32]⟩
abbrev S50000x2 : Shape := ⟨2, ![50000, 2]⟩
abbrev S1x2 : Shape := ⟨2, ![1, 2]⟩
abbrev S50000 : Shape := ⟨1, ![50000]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000, .f32⟩
  | .hbm, ⟨3, _⟩ => ⟨S1024x64, .f32⟩
  | .hbm, ⟨4, _⟩ => ⟨S1024x1024, .f32⟩
  | .hbm, ⟨5, _⟩ => ⟨S50000x1024, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x32, .f32⟩
  | .hbm, ⟨11, _⟩ => ⟨S64x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x2, .f32⟩
  | .hbm, ⟨16, _⟩ => ⟨S2, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S1000000x1, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S50000x64, .f32⟩
  | .hbm, ⟨39, _⟩ => ⟨S1000000x1, .i32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x32, .f32⟩
  | .hbm, ⟨45, _⟩ => ⟨S1x32, .f32⟩
  | .hbm, ⟨46, _⟩ => ⟨S50000x32, .f32⟩
  | .hbm, ⟨47, _⟩ => ⟨S50000x32, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x32, .f32⟩
  | .hbm, ⟨57, _⟩ => ⟨S1000000x1, .f32⟩
  | .hbm, ⟨58, _⟩ => ⟨S1000000x32, .f32⟩
  | .hbm, ⟨59, _⟩ => ⟨S1000000x32, .f32⟩
  | .hbm, ⟨60, _⟩ => ⟨S_, .f32⟩
  | .hbm, ⟨61, _⟩ => ⟨S50000x32, .f32⟩
  | .hbm, ⟨62, _⟩ => ⟨S1000000x1, .i32⟩
  | .hbm, ⟨63, _⟩ => ⟨S50000x32, .f32⟩
  | .hbm, ⟨64, _⟩ => ⟨S_, .f32⟩
  | .hbm, ⟨65, _⟩ => ⟨S50000x32, .f32⟩
  | .hbm, ⟨66, _⟩ => ⟨S50000x32, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x32, .f32⟩
  | .hbm, ⟨76, _⟩ => ⟨S_, .f32⟩
  | .hbm, ⟨77, _⟩ => ⟨S50000x32, .f32⟩
  | .hbm, ⟨78, _⟩ => ⟨S1000000x1, .i32⟩
  | .hbm, ⟨79, _⟩ => ⟨S50000x32, .f32⟩
  | .hbm, ⟨80, _⟩ => ⟨S_, .f32⟩
  | .hbm, ⟨81, _⟩ => ⟨S50000x32, .f32⟩
  | .hbm, ⟨82, _⟩ => ⟨S50000x32, .f32⟩
  | .hbm, ⟨83, _⟩ => ⟨S1024x32, .f32⟩
  | .hbm, ⟨84, _⟩ => ⟨S1024x32, .f32⟩
  | .hbm, ⟨85, _⟩ => ⟨S50000x32, .f32⟩
  | .hbm, ⟨86, _⟩ => ⟨S50000x32, .f32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x32, .f32⟩
  | .hbm, ⟨95, _⟩ => ⟨S1x32, .f32⟩
  | .hbm, ⟨96, _⟩ => ⟨S50000x32, .f32⟩
  | .hbm, ⟨97, _⟩ => ⟨S50000x32, .f32⟩
  | .hbm, ⟨98, _⟩ => ⟨S_, .f32⟩
  | .hbm, ⟨99, _⟩ => ⟨S50000x32, .f32⟩
  | .hbm, ⟨100, _⟩ => ⟨S50000x32, .f32⟩
  | .hbm, ⟨101, _⟩ => ⟨S50000x2, .f32⟩
  | .hbm, ⟨102, _⟩ => ⟨S1x2, .f32⟩
  | .hbm, ⟨103, _⟩ => ⟨S50000x2, .f32⟩
  | .hbm, ⟨104, _⟩ => ⟨S50000x2, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S50000, .f32⟩
  | .hbm, ⟨109, _⟩ => ⟨S50000, .f32⟩
  | .hbm, ⟨110, _⟩ => ⟨S50000x1, .f32⟩
  | .hbm, ⟨111, _⟩ => ⟨S50000x2, .f32⟩
  | .hbm, ⟨112, _⟩ => ⟨S50000x2, .f32⟩
  | .hbm, ⟨113, _⟩ => ⟨S50000x2, .f32⟩
  | .hbm, ⟨114, _⟩ => ⟨S_, .f32⟩
  | .hbm, ⟨115, _⟩ => ⟨S50000, .f32⟩
  | .hbm, ⟨116, _⟩ => ⟨S50000x1, .f32⟩
  | .hbm, ⟨117, _⟩ => ⟨S50000x2, .f32⟩
  | .hbm, ⟨118, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call0_cst : Ref sig .tc := ⟨.hbm, 41, rfl⟩
abbrev main_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_1 : Ref sig .tc := ⟨.hbm, 48, rfl⟩
abbrev main_v26 : Ref sig .tc := ⟨.hbm, 49, rfl⟩
abbrev main_v27 : Ref sig .tc := ⟨.hbm, 50, rfl⟩
abbrev main_c_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_cst : Ref sig .tc := ⟨.hbm, 64, rfl⟩
abbrev main_call1_v0 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call3_cst : Ref sig .tc := ⟨.hbm, 98, rfl⟩
abbrev main_call3_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_8 : Ref sig .tc := ⟨.hbm, 105, rfl⟩
abbrev main_v70 : Ref sig .tc := ⟨.hbm, 106, rfl⟩
abbrev main_cst_9 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_10 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1000000x1_S1000000x32_0_1 : S1000000x1.BroadcastsInDim S1000000x32 (![0, 1] : Fin 2 → Fin S1000000x32.rank)
  bcast_S_S50000x32 : S_.BroadcastsInDim S50000x32 (![] : Fin 0 → Fin S50000x32.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x128_S128x64_S50000x64_1_0_0_1_n_n_wf : DotDims.WF S50000x128 S128x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x32_S50000x32_1_0_0_1_n_n_wf : DotDims.WF S50000x64 S64x32 S50000x32 [1] [0] [0] [1] [] []
  gather_S50000x32_S1000000x1_S1000000x32_1_0_n_n_0_1_132_wf : GatherDims.WF S50000x32 S1000000x1 S1000000x32 [1] [0] [] [0] [] 1 ![1, 32]
  scatter_S50000x32_S1000000x1_S1000000x32_1_0_0_1_wf : ScatterDims.WF S50000x32 S1000000x1 S1000000x32 [1] [0] [0] 1
  dot_S1024x64_S64x32_S1024x32_1_0_0_1_n_n_wf : DotDims.WF S1024x64 S64x32 S1024x32 [1] [0] [0] [1] [] []
  dot_S1024x1024_S1024x32_S1024x32_1_0_0_1_n_n_wf : DotDims.WF S1024x1024 S1024x32 S1024x32 [1] [0] [0] [1] [] []
  dot_S50000x32_S32x32_S50000x32_1_0_0_1_n_n_wf : DotDims.WF S50000x32 S32x32 S50000x32 [1] [0] [0] [1] [] []
  dot_S50000x1024_S1024x32_S50000x32_1_0_0_1_n_n_wf : DotDims.WF S50000x1024 S1024x32 S50000x32 [1] [0] [0] [1] [] []
  dot_S50000x32_S32x2_S50000x2_1_0_0_1_n_n_wf : DotDims.WF S50000x32 S32x2 S50000x2 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def scatter_S50000x32_S1000000x1_S1000000x32_1_0_0_1 : ScatterDims S50000x32 S1000000x1 S1000000x32 where
  updateWindowDims := [1]
  insertedWindowDims := [0]
  scatterDimsToOperandDims := [0]
  indexVectorDim := 1
  wf := scatter_S50000x32_S1000000x1_S1000000x32_1_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x1024_S1024x32_S50000x32_1_0_0_1_n_n : DotDims S50000x1024 S1024x32 S50000x32 where
  lhsContracting := [1]
  rhsContracting := [0]
  lhsNonContracting := [0]
  rhsNonContracting := [1]
  lhsBatch := []
  rhsBatch := []
  wf := dot_S50000x1024_S1024x32_S50000x32_1_0_0_1_n_n_wf
def dot_S50000x32_S32x2_S50000x2_1_0_0_1_n_n : DotDims S50000x32 S32x2 S50000x2 where
  lhsContracting := [1]
  rhsContracting := [0]
  lhsNonContracting := [0]
  rhsNonContracting := [1]
  lhsBatch := []
  rhsBatch := []
  wf := dot_S50000x32_S32x2_S50000x2_1_0_0_1_n_n_wf

class Facts : Prop extends Facts₀ where

variable [Facts]
-- ==== Proof.R0Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S8192x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x64 .f32 := win0_3.stage (cfg0.slots t 3)
abbrev hs0_3 (t : Fin cfg0.N) : (ms0_3 t).IsWhole := hstage0_3 ((cfg0.slots t 3).cast nbuf0_3)
abbrev scM0 : Memref sig .tc .vmem S8192x64 .f32 := Memref.whole cc0_scratch0

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.LibWholeStore.lean ====
import Idealize.ShloMosaic.Lib.Pipeline.Value
import Idealize.ShloMosaic.Lib.Pipeline.FrameBody
import Idealize.ShloMosaic.Lib.Tactic

namespace Idealize.ShloMosaic.View

variable {Val : EltTy → Type} [∀ e, Nonempty (Val e)] {sig : RefSig} {κ : Kind} {sp : Space} {S : Shape} {e : EltTy}

/-- The offset of a whole block of rank two. -/
theorem off00 : (![0, 0] : Fin 2 → Nat) = fun _ => 0 := funext fun a => by fin_cases a <;> rfl

/-- A store of the whole block, made last, leaves the buffer at the stored value, whatever it held and whatever was stored before. -/
theorem read_store_whole (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst h
  refine (read_writes_eq_canon v f _ fun y => ⟨_, List.mem_cons_self, ?_⟩).trans (canon_cons_unit_zero rfl inb w L)
  show y ∈ (Rect.whole S).set
  rw [Rect.set_whole]; exact Finset.mem_univ y

end Idealize.ShloMosaic.View
-- ==== Proof.R0Runs.lean ====
import proofs.«422453_j56642028700408_3_alg».proof.Proof.R0Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun0_A (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : cond0_0 i) (hc1 : ¬cond0_1 i)
    (x0 : Vec F S8192x1 .i32) (x1 : Vec F S8192x1 .f32) (x2 : Vec F S1024x64 .f32) (xi3 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 k0_pay1 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00]

set_option maxHeartbeats 1000000 in
/-- A middle block: the accumulator ends at the update of what it held. -/
theorem kernelRun0_B (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : ¬cond0_0 i) (hc1 : ¬cond0_1 i)
    (x0 : Vec F S8192x1 .i32) (x1 : Vec F S8192x1 .f32) (x2 : Vec F S1024x64 .f32) (xs0 xi3 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 xs0 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]

set_option maxHeartbeats 1000000 in
/-- The last block: the accumulator likewise, and the result window, whatever it held, ends at the stage's function of it. -/
theorem kernelRun0_C (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : ¬cond0_0 i) (hc1 : cond0_1 i)
    (x0 : Vec F S8192x1 .i32) (x1 : Vec F S8192x1 .f32) (x2 : Vec F S1024x64 .f32) (xs0 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 i x0 xs0 x2) x1) ∗ owns (c : Thread nD τ) arg6 fullShare (k0_pay2 i x0 xs0 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]

end Cert.KernelIdeal.Hand

end
-- ==== Proof.R0Dat.lean ====
import proofs.«422453_j56642028700408_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt0 (c : Dev nD) : (n : ℕ) → n < cfg0.N → Vec F S8192x64 .f32
  | 0, hn => k0_pay2 (grid0.coords ⟨0, hn⟩) (iblk0 V c 0 ⟨0, hn⟩) k0_pay1 (iblk0 V c 2 ⟨0, hn⟩)
  | n + 1, hn => k0_pay2 (grid0.coords ⟨n + 1, hn⟩) (iblk0 V c 0 ⟨n + 1, hn⟩) (if (n + 1) % 49 = 0 then k0_pay1 else accAt0 c n (Nat.lt_of_succ_lt hn)) (iblk0 V c 2 ⟨n + 1, hn⟩)

theorem accAt0_first (c : Dev nD) (t : Fin cfg0.N) (h0 : t.val % 49 = 0) :
    accAt0 V c t.val t.isLt = k0_pay2 (grid0.coords t) (iblk0 V c 0 t) k0_pay1 (iblk0 V c 2 t) := by
  obtain ⟨n, hn⟩ := t
  cases n with
  | zero => rfl
  | succ n => rw [accAt0, if_pos h0]

theorem accAt0_later (c : Dev nD) (t : Fin cfg0.N) (h0 : ¬t.val % 49 = 0) :
    accAt0 V c t.val t.isLt = k0_pay2 (grid0.coords t) (iblk0 V c 0 t) (accAt0 V c (t.val - 1) (Nat.lt_of_le_of_lt (Nat.sub_le _ _) t.isLt)) (iblk0 V c 2 t) := by
  obtain ⟨n, hn⟩ := t
  cases n with
  | zero => exact absurd (Nat.zero_mod _) h0
  | succ n => rw [accAt0, if_neg h0]; rfl

/-- Before position `n`: at the start everything the stage may touch, at anything; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- At any position the invariant yields the accumulator at some contents. -/
theorem PhiS0_any (c : Dev nD) (n : ℕ) (h : n ≤ cfg0.N) :
    PhiS0 V c n h ⊢ iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  cases n with
  | zero => rw [show PhiS0 V c 0 h = Pipeline.ΦA spec0 c from rfl, PhiA0_eq]
  | succ n =>
    unfold PhiS0
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 1 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the point's residue modulo 49 says which case it is in; the invariant hands over the accumulator and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = iprop(iprop(owns (c : Thread nD τ) scM0 fullShare (accAt0 V c t.val t.isLt) ∗ Pipeline.scopedRestBut (Ix := Unit) (Name := ℕ) (U := UR sig nD τ) (Lvl := ℕ) (Val := Elt F) spec0 c [cc0_scratch0]) ∗ (∃ r, prngReg c r)) from rfl,
    PhiS0_castSucc V c t, leaves0_0, leaves0_1, leaves0_2]
  by_cases h0 : t.val % 49 = 0
  · have h1 : ¬t.val % 49 = 48 := by omega
    rw [Dat.leavesExact_idle (dat0 V c) 3 t (idleAt0_3 t (fun h => h1 ((hcond0_1 t).mp h))) (noFlush0_3 t (fun h => h1 ((hcond0_1 t).mp h)))]
    rw [accAt0_first V c t h0]
    iintro ⟨HΦ, Ho, ⟨%d0, H0⟩, ⟨%d1, H1⟩, ⟨%d2, H2⟩, ⟨%d3, H3⟩⟩
    ihave HΦ := PhiS0_any V c _ _ $$ HΦ
    icases HΦ with ⟨⟨HS0, Hrest⟩, Hg⟩
    iapply (kernelRun0_A c (grid0.coords t) _ _ _ _ _ _ _ _ _ _ ((hcond0_0 t).mpr h0) (fun h => h1 ((hcond0_1 t).mp h)) (iblk0 V c 0 t) (iblk0 V c 1 t) (iblk0 V c 2 t) _ Set.univ _)
    iframe H0 H1 H2 H3 HS0
    iintro ⟨H0, H1, H2, H3, HS0⟩
    iframe HS0 Hrest Hg Ho H0 H1 H2
    iexists _; iexact H3
  · rw [PhiS0_pos V c _ _ (fun h => h0 (by rw [h])), accAt0_later V c t h0]
    by_cases h1 : t.val % 49 = 48
    · rw [show (dat0 V c).leavesExact 3 t = owns (c : Thread nD τ) (ms0_3 t) fullShare ((dat0 V c).after 3 t) from by
        unfold Dat.leavesExact; rw [liveAt0_3 t ((hcond0_1 t).mpr h1)], after0_3, accAt0_later V c t h0]
      iintro ⟨⟨⟨HS0, Hrest⟩, Hg⟩, Ho, ⟨%d0, H0⟩, ⟨%d1, H1⟩, ⟨%d2, H2⟩, ⟨%d3, H3⟩⟩
      iapply (kernelRun0_C c (grid0.coords t) _ _ _ _ _ _ _ _ _ _ (fun h => h0 ((hcond0_0 t).mp h)) ((hcond0_1 t).mpr h1) (iblk0 V c 0 t) (iblk0 V c 1 t) (iblk0 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat0 V c) 3 t (idleAt0_3 t (fun h => h1 ((hcond0_1 t).mp h))) (noFlush0_3 t (fun h => h1 ((hcond0_1 t).mp h)))]
      iintro ⟨⟨⟨HS0, Hrest⟩, Hg⟩, Ho, ⟨%d0, H0⟩, ⟨%d1, H1⟩, ⟨%d2, H2⟩, ⟨%d3, H3⟩⟩
      iapply (kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _ _ Set.univ _)
      iframe H0 H1 H2 H3 HS0
      iintro ⟨H0, H1, H2, H3, HS0⟩
      iframe HS0 Hrest Hg Ho H0 H1 H2
      iexists _; iexact H3

theorem body_obligation0 (c : Dev nD) : BodyObligation (dat0 (F := F) V c) (defs₀ (F := F)) Variants.none () Set.univ := fun t => by
  rw [bigSep_W0, bigSep_W0]
  exact sound_body0 V c t

/-- What the stage is handed at its start is the invariant before the first point. -/
theorem hin0 (c : Dev nD) : Pipeline.ΦA spec0 c ⊢ (dat0 V c).Φ 0 := Idealize.SL.BI.Entails.refl _

/-- After the last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Cert.KernelIdeal.Hand

end
-- ==== Proof.R1Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 123 = 0 :=
  (by decide +kernel : ∀ t : Fin grid1.N, cond1_0 (grid1.coords t) ↔ t.val % 123 = 0)

abbrev cond1_1 (i : grid1.Coords) : Prop := k1_cond2 i = 1#1
theorem hcond1_1 : ∀ t : Fin cfg1.N, cond1_1 (grid1.coords t) ↔ t.val % 123 = 122 :=
  (by decide +kernel : ∀ t : Fin grid1.N, cond1_1 (grid1.coords t) ↔ t.val % 123 = 122)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1x8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev scM1 : Memref sig .tc .vmem S1024x64 .f32 := Memref.whole cc1_scratch0

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.R1Runs.lean ====
import proofs.«422453_j56642028700408_3_alg».proof.Proof.R1Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun1_A (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1x8192 .i32) (x1 : Vec F S8192x64 .f32) (xi2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 k1_pay1 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00]

set_option maxHeartbeats 1000000 in
/-- A middle block: the accumulator ends at the update of what it held. -/
theorem kernelRun1_B (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1x8192 .i32) (x1 : Vec F S8192x64 .f32) (xs0 xi2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 xs0 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]

set_option maxHeartbeats 1000000 in
/-- The last block: the accumulator likewise, and the result window, whatever it held, ends at the stage's function of it. -/
theorem kernelRun1_C (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1x8192 .i32) (x1 : Vec F S8192x64 .f32) (xs0 : Vec F S1024x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay3 (k1_pay2 i x0 xs0 x1)) ∗ owns (c : Thread nD τ) arg5 fullShare (k1_pay2 i x0 xs0 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]

end Cert.KernelIdeal.Hand

end
-- ==== Proof.R1Dat.lean ====
import proofs.«422453_j56642028700408_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt1 (c : Dev nD) : (n : ℕ) → n < cfg1.N → Vec F S1024x64 .f32
  | 0, hn => k1_pay2 (grid1.coords ⟨0, hn⟩) (iblk1 V c 0 ⟨0, hn⟩) k1_pay1 (iblk1 V c 1 ⟨0, hn⟩)
  | n + 1, hn => k1_pay2 (grid1.coords ⟨n + 1, hn⟩) (iblk1 V c 0 ⟨n + 1, hn⟩) (if (n + 1) % 123 = 0 then k1_pay1 else accAt1 c n (Nat.lt_of_succ_lt hn)) (iblk1 V c 1 ⟨n + 1, hn⟩)

theorem accAt1_first (c : Dev nD) (t : Fin cfg1.N) (h0 : t.val % 123 = 0) :
    accAt1 V c t.val t.isLt = k1_pay2 (grid1.coords t) (iblk1 V c 0 t) k1_pay1 (iblk1 V c 1 t) := by
  obtain ⟨n, hn⟩ := t
  cases n with
  | zero => rfl
  | succ n => rw [accAt1, if_pos h0]

theorem accAt1_later (c : Dev nD) (t : Fin cfg1.N) (h0 : ¬t.val % 123 = 0) :
    accAt1 V c t.val t.isLt = k1_pay2 (grid1.coords t) (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h0
  | succ n => rw [accAt1, if_neg h0]; rfl

/-- Before position `n`: at the start everything the stage may touch, at anything; afterwards the accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- At any position the invariant yields the accumulator at some contents. -/
theorem PhiS1_any (c : Dev nD) (n : ℕ) (h : n ≤ cfg1.N) :
    PhiS1 V c n h ⊢ iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  cases n with
  | zero => rw [show PhiS1 V c 0 h = Pipeline.ΦA spec1 c from rfl, PhiA1_eq]
  | succ n =>
    unfold PhiS1
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point: the point's residue modulo 123 says which case it is in; the invariant hands over the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns (c : Thread nD τ) scM1 fullShare (accAt1 V c t.val t.isLt) ∗ Pipeline.scopedRestBut (Ix := Unit) (Name := ℕ) (U := UR sig nD τ) (Lvl := ℕ) (Val := Elt F) spec1 c [cc1_scratch0]) ∗ (∃ r, prngReg c r)) from rfl,
    PhiS1_castSucc V c t, leaves1_0, leaves1_1]
  by_cases h0 : t.val % 123 = 0
  · have h1 : ¬t.val % 123 = 122 := by omega
    rw [Dat.leavesExact_idle (dat1 V c) 2 t (idleAt1_2 t (fun h => h1 ((hcond1_1 t).mp h))) (noFlush1_2 t (fun h => h1 ((hcond1_1 t).mp h)))]
    rw [accAt1_first V c t h0]
    iintro ⟨HΦ, Ho, ⟨%d0, H0⟩, ⟨%d1, H1⟩, ⟨%d2, H2⟩⟩
    ihave HΦ := PhiS1_any V c _ _ $$ HΦ
    icases HΦ with ⟨⟨HS0, Hrest⟩, Hg⟩
    iapply (kernelRun1_A c (grid1.coords t) _ _ _ _ _ _ _ _ ((hcond1_0 t).mpr h0) (fun h => h1 ((hcond1_1 t).mp h)) (iblk1 V c 0 t) (iblk1 V c 1 t) _ Set.univ _)
    iframe H0 H1 H2 HS0
    iintro ⟨H0, H1, H2, HS0⟩
    iframe HS0 Hrest Hg Ho H0 H1
    iexists _; iexact H2
  · rw [PhiS1_pos V c _ _ (fun h => h0 (by rw [h])), accAt1_later V c t h0]
    by_cases h1 : t.val % 123 = 122
    · rw [show (dat1 V c).leavesExact 2 t = owns (c : Thread nD τ) (ms1_2 t) fullShare ((dat1 V c).after 2 t) from by
        unfold Dat.leavesExact; rw [liveAt1_2 t ((hcond1_1 t).mpr h1)], after1_2, accAt1_later V c t h0]
      iintro ⟨⟨⟨HS0, Hrest⟩, Hg⟩, Ho, ⟨%d0, H0⟩, ⟨%d1, H1⟩, ⟨%d2, H2⟩⟩
      iapply (kernelRun1_C c (grid1.coords t) _ _ _ _ _ _ _ _ (fun h => h0 ((hcond1_0 t).mp h)) ((hcond1_1 t).mpr h1) (iblk1 V c 0 t) (iblk1 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat1 V c) 2 t (idleAt1_2 t (fun h => h1 ((hcond1_1 t).mp h))) (noFlush1_2 t (fun h => h1 ((hcond1_1 t).mp h)))]
      iintro ⟨⟨⟨HS0, Hrest⟩, Hg⟩, Ho, ⟨%d0, H0⟩, ⟨%d1, H1⟩, ⟨%d2, H2⟩⟩
      iapply (kernelRun1_B c (grid1.coords t) _ _ _ _ _ _ _ _ (fun h => h0 ((hcond1_0 t).mp h)) (fun h => h1 ((hcond1_1 t).mp h)) (iblk1 V c 0 t) (iblk1 V c 1 t) _ _ Set.univ _)
      iframe H0 H1 H2 HS0
      iintro ⟨H0, H1, H2, HS0⟩
      iframe HS0 Hrest Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

/-- What the stage is handed at its start is the invariant before the first point. -/
theorem hin1 (c : Dev nD) : Pipeline.ΦA spec1 c ⊢ (dat1 V c).Φ 0 := Idealize.SL.BI.Entails.refl _

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.KernelIdeal.Hand

end
-- ==== Proof.R2Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 49 = 0 :=
  (by decide +kernel : ∀ t : Fin grid2.N, cond2_0 (grid2.coords t) ↔ t.val % 49 = 0)

abbrev cond2_1 (i : grid2.Coords) : Prop := k2_cond2 i = 1#1
theorem hcond2_1 : ∀ t : Fin cfg2.N, cond2_1 (grid2.coords t) ↔ t.val % 49 = 48 :=
  (by decide +kernel : ∀ t : Fin grid2.N, cond2_1 (grid2.coords t) ↔ t.val % 49 = 48)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev ms2_0 (t : Fin cfg2.N) : Memref sig .tc .vmem S8192x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x32 .f32 := win2_3.stage (cfg2.slots t 3)
abbrev hs2_3 (t : Fin cfg2.N) : (ms2_3 t).IsWhole := hstage2_3 ((cfg2.slots t 3).cast nbuf2_3)
abbrev scM2 : Memref sig .tc .vmem S8192x32 .f32 := Memref.whole cc2_scratch0

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.R2Runs.lean ====
import proofs.«422453_j56642028700408_3_alg».proof.Proof.R2Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun2_A (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : cond2_0 i) (hc1 : ¬cond2_1 i)
    (x0 : Vec F S8192x1 .i32) (x1 : Vec F S8192x1 .f32) (x2 : Vec F S1024x32 .f32) (xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x0 k2_pay1 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00]

set_option maxHeartbeats 1000000 in
/-- A middle block: the accumulator ends at the update of what it held. -/
theorem kernelRun2_B (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond2_0 i) (hc1 : ¬cond2_1 i)
    (x0 : Vec F S8192x1 .i32) (x1 : Vec F S8192x1 .f32) (x2 : Vec F S1024x32 .f32) (xs0 xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x0 xs0 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

set_option maxHeartbeats 1000000 in
/-- The last block: the accumulator likewise, and the result window, whatever it held, ends at the stage's function of it. -/
theorem kernelRun2_C (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond2_0 i) (hc1 : cond2_1 i)
    (x0 : Vec F S8192x1 .i32) (x1 : Vec F S8192x1 .f32) (x2 : Vec F S1024x32 .f32) (xs0 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 i x0 xs0 x2) x1) ∗ owns (c : Thread nD τ) arg6 fullShare (k2_pay2 i x0 xs0 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

end Cert.KernelIdeal.Hand

end
-- ==== Proof.R2Dat.lean ====
import proofs.«422453_j56642028700408_3_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt2 (c : Dev nD) : (n : ℕ) → n < cfg2.N → Vec F S8192x32 .f32
  | 0, hn => k2_pay2 (grid2.coords ⟨0, hn⟩) (iblk2 V c 0 ⟨0, hn⟩) k2_pay1 (iblk2 V c 2 ⟨0, hn⟩)
  | n + 1, hn => k2_pay2 (grid2.coords ⟨n + 1, hn⟩) (iblk2 V c 0 ⟨n + 1, hn⟩) (if (n + 1) % 49 = 0 then k2_pay1 else accAt2 c n (Nat.lt_of_succ_lt hn)) (iblk2 V c 2 ⟨n + 1, hn⟩)

theorem accAt2_first (c : Dev nD) (t : Fin cfg2.N) (h0 : t.val % 49 = 0) :
    accAt2 V c t.val t.isLt = k2_pay2 (grid2.coords t) (iblk2 V c 0 t) k2_pay1 (iblk2 V c 2 t) := by
  obtain ⟨n, hn⟩ := t
  cases n with
  | zero => rfl
  | succ n => rw [accAt2, if_pos h0]

theorem accAt2_later (c : Dev nD) (t : Fin cfg2.N) (h0 : ¬t.val % 49 = 0) :
    accAt2 V c t.val t.isLt = k2_pay2 (grid2.coords t) (iblk2 V c 0 t) (accAt2 V c (t.val - 1) (Nat.lt_of_le_of_lt (Nat.sub_le _ _) t.isLt)) (iblk2 V c 2 t) := by
  obtain ⟨n, hn⟩ := t
  cases n with
  | zero => exact absurd (Nat.zero_mod _) h0
  | succ n => rw [accAt2, if_neg h0]; rfl

/-- Before position `n`: at the start everything the stage may touch, at anything; afterwards the accumulator at what the point before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- At any position the invariant yields the accumulator at some contents. -/
theorem PhiS2_any (c : Dev nD) (n : ℕ) (h : n ≤ cfg2.N) :
    PhiS2 V c n h ⊢ iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  cases n with
  | zero => rw [show PhiS2 V c 0 h = Pipeline.ΦA spec2 c from rfl, PhiA2_eq]
  | succ n =>
    unfold PhiS2
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 1 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
/-- The body at any point: the point's residue modulo 49 says which case it is in; the invariant hands over the accumulator and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = iprop(iprop(owns (c : Thread nD τ) scM2 fullShare (accAt2 V c t.val t.isLt) ∗ Pipeline.scopedRestBut (Ix := Unit) (Name := ℕ) (U := UR sig nD τ) (Lvl := ℕ) (Val := Elt F) spec2 c [cc2_scratch0]) ∗ (∃ r, prngReg c r)) from rfl,
    PhiS2_castSucc V c t, leaves2_0, leaves2_1, leaves2_2]
  by_cases h0 : t.val % 49 = 0
  · have h1 : ¬t.val % 49 = 48 := by omega
    rw [Dat.leavesExact_idle (dat2 V c) 3 t (idleAt2_3 t (fun h => h1 ((hcond2_1 t).mp h))) (noFlush2_3 t (fun h => h1 ((hcond2_1 t).mp h)))]
    rw [accAt2_first V c t h0]
    iintro ⟨HΦ, Ho, ⟨%d0, H0⟩, ⟨%d1, H1⟩, ⟨%d2, H2⟩, ⟨%d3, H3⟩⟩
    ihave HΦ := PhiS2_any V c _ _ $$ HΦ
    icases HΦ with ⟨⟨HS0, Hrest⟩, Hg⟩
    iapply (kernelRun2_A c (grid2.coords t) _ _ _ _ _ _ _ _ _ _ ((hcond2_0 t).mpr h0) (fun h => h1 ((hcond2_1 t).mp h)) (iblk2 V c 0 t) (iblk2 V c 1 t) (iblk2 V c 2 t) _ Set.univ _)
    iframe H0 H1 H2 H3 HS0
    iintro ⟨H0, H1, H2, H3, HS0⟩
    iframe HS0 Hrest Hg Ho H0 H1 H2
    iexists _; iexact H3
  · rw [PhiS2_pos V c _ _ (fun h => h0 (by rw [h])), accAt2_later V c t h0]
    by_cases h1 : t.val % 49 = 48
    · rw [show (dat2 V c).leavesExact 3 t = owns (c : Thread nD τ) (ms2_3 t) fullShare ((dat2 V c).after 3 t) from by
        unfold Dat.leavesExact; rw [liveAt2_3 t ((hcond2_1 t).mpr h1)], after2_3, accAt2_later V c t h0]
      iintro ⟨⟨⟨HS0, Hrest⟩, Hg⟩, Ho, ⟨%d0, H0⟩, ⟨%d1, H1⟩, ⟨%d2, H2⟩, ⟨%d3, H3⟩⟩
      iapply (kernelRun2_C c (grid2.coords t) _ _ _ _ _ _ _ _ _ _ (fun h => h0 ((hcond2_0 t).mp h)) ((hcond2_1 t).mpr h1) (iblk2 V c 0 t) (iblk2 V c 1 t) (iblk2 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat2 V c) 3 t (idleAt2_3 t (fun h => h1 ((hcond2_1 t).mp h))) (noFlush2_3 t (fun h => h1 ((hcond2_1 t).mp h)))]
      iintro ⟨⟨⟨HS0, Hrest⟩, Hg⟩, Ho, ⟨%d0, H0⟩, ⟨%d1, H1⟩, ⟨%d2, H2⟩, ⟨%d3, H3⟩⟩
      iapply (kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _ _ Set.univ _)
      iframe H0 H1 H2 H3 HS0
      iintro ⟨H0, H1, H2, H3, HS0⟩
      iframe HS0 Hrest Hg Ho H0 H1 H2
      iexists _; iexact H3

theorem body_obligation2 (c : Dev nD) : BodyObligation (dat2 (F := F) V c) (defs₀ (F := F)) Variants.none () Set.univ := fun t => by
  rw [bigSep_W2, bigSep_W2]
  exact sound_body2 V c t

/-- What the stage is handed at its start is the invariant before the first point. -/
theorem hin2 (c : Dev nD) : Pipeline.ΦA spec2 c ⊢ (dat2 V c).Φ 0 := Idealize.SL.BI.Entails.refl _

/-- After the last point the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.KernelIdeal.Hand

end
-- ==== Proof.R3Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 123 = 0 :=
  (by decide +kernel : ∀ t : Fin grid3.N, cond3_0 (grid3.coords t) ↔ t.val % 123 = 0)

abbrev cond3_1 (i : grid3.Coords) : Prop := k3_cond2 i = 1#1
theorem hcond3_1 : ∀ t : Fin cfg3.N, cond3_1 (grid3.coords t) ↔ t.val % 123 = 122 :=
  (by decide +kernel : ∀ t : Fin grid3.N, cond3_1 (grid3.coords t) ↔ t.val % 123 = 122)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S1x8192 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x32 .f32 := win3_2.stage (cfg3.slots t 2)
abbrev hs3_2 (t : Fin cfg3.N) : (ms3_2 t).IsWhole := hstage3_2 ((cfg3.slots t 2).cast nbuf3_2)
abbrev scM3 : Memref sig .tc .vmem S1024x32 .f32 := Memref.whole cc3_scratch0

theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.R3Runs.lean ====
import proofs.«422453_j56642028700408_3_alg».proof.Proof.R3Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun3_A (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond3_0 i) (hc1 : ¬cond3_1 i)
    (x0 : Vec F S1x8192 .i32) (x1 : Vec F S8192x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k3_pay2 i x0 k3_pay1 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00]

set_option maxHeartbeats 1000000 in
/-- A middle block: the accumulator ends at the update of what it held. -/
theorem kernelRun3_B (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond3_0 i) (hc1 : ¬cond3_1 i)
    (x0 : Vec F S1x8192 .i32) (x1 : Vec F S8192x32 .f32) (xs0 xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k3_pay2 i x0 xs0 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

set_option maxHeartbeats 1000000 in
/-- The last block: the accumulator likewise, and the result window, whatever it held, ends at the stage's function of it. -/
theorem kernelRun3_C (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond3_0 i) (hc1 : cond3_1 i)
    (x0 : Vec F S1x8192 .i32) (x1 : Vec F S8192x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k3_pay3 (k3_pay2 i x0 xs0 x1)) ∗ owns (c : Thread nD τ) arg5 fullShare (k3_pay2 i x0 xs0 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

end Cert.KernelIdeal.Hand

end
-- ==== Proof.R3Dat.lean ====
import proofs.«422453_j56642028700408_3_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt3 (c : Dev nD) : (n : ℕ) → n < cfg3.N → Vec F S1024x32 .f32
  | 0, hn => k3_pay2 (grid3.coords ⟨0, hn⟩) (iblk3 V c 0 ⟨0, hn⟩) k3_pay1 (iblk3 V c 1 ⟨0, hn⟩)
  | n + 1, hn => k3_pay2 (grid3.coords ⟨n + 1, hn⟩) (iblk3 V c 0 ⟨n + 1, hn⟩) (if (n + 1) % 123 = 0 then k3_pay1 else accAt3 c n (Nat.lt_of_succ_lt hn)) (iblk3 V c 1 ⟨n + 1, hn⟩)

theorem accAt3_first (c : Dev nD) (t : Fin cfg3.N) (h0 : t.val % 123 = 0) :
    accAt3 V c t.val t.isLt = k3_pay2 (grid3.coords t) (iblk3 V c 0 t) k3_pay1 (iblk3 V c 1 t) := by
  obtain ⟨n, hn⟩ := t
  cases n with
  | zero => rfl
  | succ n => rw [accAt3, if_pos h0]

theorem accAt3_later (c : Dev nD) (t : Fin cfg3.N) (h0 : ¬t.val % 123 = 0) :
    accAt3 V c t.val t.isLt = k3_pay2 (grid3.coords t) (iblk3 V c 0 t) (accAt3 V c (t.val - 1) (Nat.lt_of_le_of_lt (Nat.sub_le _ _) t.isLt)) (iblk3 V c 1 t) := by
  obtain ⟨n, hn⟩ := t
  cases n with
  | zero => exact absurd (Nat.zero_mod _) h0
  | succ n => rw [accAt3, if_neg h0]; rfl

/-- Before position `n`: at the start everything the stage may touch, at anything; afterwards the accumulator at what the point before left. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- At any position the invariant yields the accumulator at some contents. -/
theorem PhiS3_any (c : Dev nD) (n : ℕ) (h : n ≤ cfg3.N) :
    PhiS3 V c n h ⊢ iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  cases n with
  | zero => rw [show PhiS3 V c 0 h = Pipeline.ΦA spec3 c from rfl, PhiA3_eq]
  | succ n =>
    unfold PhiS3
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (accAt3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]

set_option maxHeartbeats 4800000 in
/-- The body at any point: the point's residue modulo 123 says which case it is in; the invariant hands over the accumulator and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(iprop(owns (c : Thread nD τ) scM3 fullShare (accAt3 V c t.val t.isLt) ∗ Pipeline.scopedRestBut (Ix := Unit) (Name := ℕ) (U := UR sig nD τ) (Lvl := ℕ) (Val := Elt F) spec3 c [cc3_scratch0]) ∗ (∃ r, prngReg c r)) from rfl,
    PhiS3_castSucc V c t, leaves3_0, leaves3_1]
  by_cases h0 : t.val % 123 = 0
  · have h1 : ¬t.val % 123 = 122 := by omega
    rw [Dat.leavesExact_idle (dat3 V c) 2 t (idleAt3_2 t (fun h => h1 ((hcond3_1 t).mp h))) (noFlush3_2 t (fun h => h1 ((hcond3_1 t).mp h)))]
    rw [accAt3_first V c t h0]
    iintro ⟨HΦ, Ho, ⟨%d0, H0⟩, ⟨%d1, H1⟩, ⟨%d2, H2⟩⟩
    ihave HΦ := PhiS3_any V c _ _ $$ HΦ
    icases HΦ with ⟨⟨HS0, Hrest⟩, Hg⟩
    iapply (kernelRun3_A c (grid3.coords t) _ _ _ _ _ _ _ _ ((hcond3_0 t).mpr h0) (fun h => h1 ((hcond3_1 t).mp h)) (iblk3 V c 0 t) (iblk3 V c 1 t) _ Set.univ _)
    iframe H0 H1 H2 HS0
    iintro ⟨H0, H1, H2, HS0⟩
    iframe HS0 Hrest Hg Ho H0 H1
    iexists _; iexact H2
  · rw [PhiS3_pos V c _ _ (fun h => h0 (by rw [h])), accAt3_later V c t h0]
    by_cases h1 : t.val % 123 = 122
    · rw [show (dat3 V c).leavesExact 2 t = owns (c : Thread nD τ) (ms3_2 t) fullShare ((dat3 V c).after 2 t) from by
        unfold Dat.leavesExact; rw [liveAt3_2 t ((hcond3_1 t).mpr h1)], after3_2, accAt3_later V c t h0]
      iintro ⟨⟨⟨HS0, Hrest⟩, Hg⟩, Ho, ⟨%d0, H0⟩, ⟨%d1, H1⟩, ⟨%d2, H2⟩⟩
      iapply (kernelRun3_C c (grid3.coords t) _ _ _ _ _ _ _ _ (fun h => h0 ((hcond3_0 t).mp h)) ((hcond3_1 t).mpr h1) (iblk3 V c 0 t) (iblk3 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat3 V c) 2 t (idleAt3_2 t (fun h => h1 ((hcond3_1 t).mp h))) (noFlush3_2 t (fun h => h1 ((hcond3_1 t).mp h)))]
      iintro ⟨⟨⟨HS0, Hrest⟩, Hg⟩, Ho, ⟨%d0, H0⟩, ⟨%d1, H1⟩, ⟨%d2, H2⟩⟩
      iapply (kernelRun3_B c (grid3.coords t) _ _ _ _ _ _ _ _ (fun h => h0 ((hcond3_0 t).mp h)) (fun h => h1 ((hcond3_1 t).mp h)) (iblk3 V c 0 t) (iblk3 V c 1 t) _ _ Set.univ _)
      iframe H0 H1 H2 HS0
      iintro ⟨H0, H1, H2, HS0⟩
      iframe HS0 Hrest Hg Ho H0 H1
      iexists _; iexact H2

theorem body_obligation3 (c : Dev nD) : BodyObligation (dat3 (F := F) V c) (defs₀ (F := F)) Variants.none () Set.univ := fun t => by
  rw [bigSep_W3, bigSep_W3]
  exact sound_body3 V c t

/-- What the stage is handed at its start is the invariant before the first point. -/
theorem hin3 (c : Dev nD) : Pipeline.ΦA spec3 c ⊢ (dat3 V c).Φ 0 := Idealize.SL.BI.Entails.refl _

/-- After the last point the invariant gives the same back, the accumulator's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  exact PhiS3_any V c _ _

end Cert.KernelIdeal.Hand

end
-- ==== Proof.R4Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 49 = 0 :=
  (by decide +kernel : ∀ t : Fin grid4.N, cond4_0 (grid4.coords t) ↔ t.val % 49 = 0)

abbrev cond4_1 (i : grid4.Coords) : Prop := k4_cond2 i = 1#1
theorem hcond4_1 : ∀ t : Fin cfg4.N, cond4_1 (grid4.coords t) ↔ t.val % 49 = 48 :=
  (by decide +kernel : ∀ t : Fin grid4.N, cond4_1 (grid4.coords t) ↔ t.val % 49 = 48)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S8192x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S8192x32 .f32 := win4_3.stage (cfg4.slots t 3)
abbrev hs4_3 (t : Fin cfg4.N) : (ms4_3 t).IsWhole := hstage4_3 ((cfg4.slots t 3).cast nbuf4_3)
abbrev scM4 : Memref sig .tc .vmem S8192x32 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.KernelIdeal.Hand

end
-- ==== Proof.R4Runs.lean ====
import proofs.«422453_j56642028700408_3_alg».proof.Proof.R4Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun4_A (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : cond4_0 i) (hc1 : ¬cond4_1 i)
    (x0 : Vec F S8192x1 .i32) (x1 : Vec F S8192x1 .f32) (x2 : Vec F S1024x32 .f32) (xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k4_pay2 i x0 k4_pay1 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00]

set_option maxHeartbeats 1000000 in
/-- A middle block: the accumulator ends at the update of what it held. -/
theorem kernelRun4_B (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond4_0 i) (hc1 : ¬cond4_1 i)
    (x0 : Vec F S8192x1 .i32) (x1 : Vec F S8192x1 .f32) (x2 : Vec F S1024x32 .f32) (xs0 xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k4_pay2 i x0 xs0 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

set_option maxHeartbeats 1000000 in
/-- The last block: the accumulator likewise, and the result window, whatever it held, ends at the stage's function of it. -/
theorem kernelRun4_C (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond4_0 i) (hc1 : cond4_1 i)
    (x0 : Vec F S8192x1 .i32) (x1 : Vec F S8192x1 .f32) (x2 : Vec F S1024x32 .f32) (xs0 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k4_pay3 (k4_pay2 i x0 xs0 x2) x1) ∗ owns (c : Thread nD τ) arg6 fullShare (k4_pay2 i x0 xs0 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

end Cert.KernelIdeal.Hand

end
-- ==== Proof.R4Dat.lean ====
import proofs.«422453_j56642028700408_3_alg».proof.Proof.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt4 (c : Dev nD) : (n : ℕ) → n < cfg4.N → Vec F S8192x32 .f32
  | 0, hn => k4_pay2 (grid4.coords ⟨0, hn⟩) (iblk4 V c 0 ⟨0, hn⟩) k4_pay1 (iblk4 V c 2 ⟨0, hn⟩)
  | n + 1, hn => k4_pay2 (grid4.coords ⟨n + 1, hn⟩) (iblk4 V c 0 ⟨n + 1, hn⟩) (if (n + 1) % 49 = 0 then k4_pay1 else accAt4 c n (Nat.lt_of_succ_lt hn)) (iblk4 V c 2 ⟨n + 1, hn⟩)

theorem accAt4_first (c : Dev nD) (t : Fin cfg4.N) (h0 : t.val % 49 = 0) :
    accAt4 V c t.val t.isLt = k4_pay2 (grid4.coords t) (iblk4 V c 0 t) k4_pay1 (iblk4 V c 2 t) := by
  obtain ⟨n, hn⟩ := t
  cases n with
  | zero => rfl
  | succ n => rw [accAt4, if_pos h0]

theorem accAt4_later (c : Dev nD) (t : Fin cfg4.N) (h0 : ¬t.val % 49 = 0) :
    accAt4 V c t.val t.isLt = k4_pay2 (grid4.coords t) (iblk4 V c 0 t) (accAt4 V c (t.val - 1) (Nat.lt_of_le_of_lt (Nat.sub_le _ _) t.isLt)) (iblk4 V c 2 t) := by
  obtain ⟨n, hn⟩ := t
  cases n with
  | zero => exact absurd (Nat.zero_mod _) h0
  | succ n => rw [accAt4, if_neg h0]; rfl

/-- Before position `n`: at the start everything the stage may touch, at anything; afterwards the accumulator at what the point before left. -/
def PhiS4 (c : Dev nD) : (n : ℕ) → n ≤ cfg4.N → sProp 𝕄
  | 0, _ => Pipeline.ΦA spec4 c
  | n + 1, hn => iprop(iprop(owns (c : Thread nD τ) scM4 fullShare (accAt4 V c n hn) ∗ Pipeline.scopedRestBut (Ix := Unit) (Name := ℕ) (U := UR sig nD τ) (Lvl := ℕ) (Val := Elt F) spec4 c [cc4_scratch0]) ∗ (∃ r, prngReg c r))

theorem PhiS4_pos (c : Dev nD) (n : ℕ) (h : n ≤ cfg4.N) (hz : n ≠ 0) :
    PhiS4 V c n h = iprop(iprop(owns (c : Thread nD τ) scM4 fullShare (accAt4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- At any position the invariant yields the accumulator at some contents. -/
theorem PhiS4_any (c : Dev nD) (n : ℕ) (h : n ≤ cfg4.N) :
    PhiS4 V c n h ⊢ iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  cases n with
  | zero => rw [show PhiS4 V c 0 h = Pipeline.ΦA spec4 c from rfl, PhiA4_eq]
  | succ n =>
    unfold PhiS4
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (accAt4 V c t.val t.isLt) (iblk4 V c 1 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (accAt4 V c t.val t.isLt) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
/-- The body at any point: the point's residue modulo 49 says which case it is in; the invariant hands over the accumulator and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = iprop(iprop(owns (c : Thread nD τ) scM4 fullShare (accAt4 V c t.val t.isLt) ∗ Pipeline.scopedRestBut (Ix := Unit) (Name := ℕ) (U := UR sig nD τ) (Lvl := ℕ) (Val := Elt F) spec4 c [cc4_scratch0]) ∗ (∃ r, prngReg c r)) from rfl,
    PhiS4_castSucc V c t, leaves4_0, leaves4_1, leaves4_2]
  by_cases h0 : t.val % 49 = 0
  · have h1 : ¬t.val % 49 = 48 := by omega
    rw [Dat.leavesExact_idle (dat4 V c) 3 t (idleAt4_3 t (fun h => h1 ((hcond4_1 t).mp h))) (noFlush4_3 t (fun h => h1 ((hcond4_1 t).mp h)))]
    rw [accAt4_first V c t h0]
    iintro ⟨HΦ, Ho, ⟨%d0, H0⟩, ⟨%d1, H1⟩, ⟨%d2, H2⟩, ⟨%d3, H3⟩⟩
    ihave HΦ := PhiS4_any V c _ _ $$ HΦ
    icases HΦ with ⟨⟨HS0, Hrest⟩, Hg⟩
    iapply (kernelRun4_A c (grid4.coords t) _ _ _ _ _ _ _ _ _ _ ((hcond4_0 t).mpr h0) (fun h => h1 ((hcond4_1 t).mp h)) (iblk4 V c 0 t) (iblk4 V c 1 t) (iblk4 V c 2 t) _ Set.univ _)
    iframe H0 H1 H2 H3 HS0
    iintro ⟨H0, H1, H2, H3, HS0⟩
    iframe HS0 Hrest Hg Ho H0 H1 H2
    iexists _; iexact H3
  · rw [PhiS4_pos V c _ _ (fun h => h0 (by rw [h])), accAt4_later V c t h0]
    by_cases h1 : t.val % 49 = 48
    · rw [show (dat4 V c).leavesExact 3 t = owns (c : Thread nD τ) (ms4_3 t) fullShare ((dat4 V c).after 3 t) from by
        unfold Dat.leavesExact; rw [liveAt4_3 t ((hcond4_1 t).mpr h1)], after4_3, accAt4_later V c t h0]
      iintro ⟨⟨⟨HS0, Hrest⟩, Hg⟩, Ho, ⟨%d0, H0⟩, ⟨%d1, H1⟩, ⟨%d2, H2⟩, ⟨%d3, H3⟩⟩
      iapply (kernelRun4_C c (grid4.coords t) _ _ _ _ _ _ _ _ _ _ (fun h => h0 ((hcond4_0 t).mp h)) ((hcond4_1 t).mpr h1) (iblk4 V c 0 t) (iblk4 V c 1 t) (iblk4 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat4 V c) 3 t (idleAt4_3 t (fun h => h1 ((hcond4_1 t).mp h))) (noFlush4_3 t (fun h => h1 ((hcond4_1 t).mp h)))]
      iintro ⟨⟨⟨HS0, Hrest⟩, Hg⟩, Ho, ⟨%d0, H0⟩, ⟨%d1, H1⟩, ⟨%d2, H2⟩, ⟨%d3, H3⟩⟩
      iapply (kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _ _ Set.univ _)
      iframe H0 H1 H2 H3 HS0
      iintro ⟨H0, H1, H2, H3, HS0⟩
      iframe HS0 Hrest Hg Ho H0 H1 H2
      iexists _; iexact H3

theorem body_obligation4 (c : Dev nD) : BodyObligation (dat4 (F := F) V c) (defs₀ (F := F)) Variants.none () Set.univ := fun t => by
  rw [bigSep_W4, bigSep_W4]
  exact sound_body4 V c t

/-- What the stage is handed at its start is the invariant before the first point. -/
theorem hin4 (c : Dev nD) : Pipeline.ΦA spec4 c ⊢ (dat4 V c).Φ 0 := Idealize.SL.BI.Entails.refl _

/-- After the last point the invariant gives the same back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl, PhiA4_eq]
  exact PhiS4_any V c _ _

end Cert.KernelIdeal.Hand

end
-- ==== Proof.R5Kit.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 123 = 0 :=
  (by decide +kernel : ∀ t : Fin grid5.N, cond5_0 (grid5.coords t) ↔ t.val % 123 = 0)

abbrev cond5_1 (i : grid5.Coords) : Prop := k5_cond2 i = 1#1
theorem hcond5_1 : ∀ t : Fin cfg5.N, cond5_1 (grid5.coords t) ↔ t.val % 123 = 122 :=
  (by decide +kernel : ∀ t : Fin grid5.N, cond5_1 (grid5.coords t) ↔ t.val % 123 = 122)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

abbrev ms5_0 (t : Fin cfg5.N) : Memref sig .tc .vmem S1x8192 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8192x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x32 .f32 := win5_2.stage (cfg5.slots t 2)
abbrev hs5_2 (t : Fin cfg5.N) : (ms5_2 t).IsWhole := hstage5_2 ((cfg5.slots t 2).cast nbuf5_2)
abbrev scM5 : Memref sig .tc .vmem S1024x32 .f32 := Memref.whole cc5_scratch0

theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.KernelIdeal.Hand

end
-- ==== Proof.R5Runs.lean ====
import proofs.«422453_j56642028700408_3_alg».proof.Proof.R5Kit
import proofs.«422453_j56642028700408_3_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First block of a walk: the accumulator, whatever it held, ends at the update of zero; the inputs and the result window are only read. -/
theorem kernelRun5_A (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond5_0 i) (hc1 : ¬cond5_1 i)
    (x0 : Vec F S1x8192 .i32) (x1 : Vec F S8192x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 i x0 k5_pay1 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00]

set_option maxHeartbeats 1000000 in
/-- A middle block: the accumulator ends at the update of what it held. -/
theorem kernelRun5_B (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond5_0 i) (hc1 : ¬cond5_1 i)
    (x0 : Vec F S1x8192 .i32) (x1 : Vec F S8192x32 .f32) (xs0 xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 i x0 xs0 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

set_option maxHeartbeats 1000000 in
/-- The last block: the accumulator likewise, and the result window, whatever it held, ends at the stage's function of it. -/
theorem kernelRun5_C (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond5_0 i) (hc1 : cond5_1 i)
    (x0 : Vec F S1x8192 .i32) (x1 : Vec F S8192x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k5_pay3 (k5_pay2 i x0 xs0 x1)) ∗ owns (c : Thread nD τ) arg5 fullShare (k5_pay2 i x0 xs0 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

end Cert.KernelIdeal.Hand

end
-- ==== Proof.R5Dat.lean ====
import proofs.«422453_j56642028700408_3_alg».proof.Proof.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt5 (c : Dev nD) : (n : ℕ) → n < cfg5.N → Vec F S1024x32 .f32
  | 0, hn => k5_pay2 (grid5.coords ⟨0, hn⟩) (iblk5 V c 0 ⟨0, hn⟩) k5_pay1 (iblk5 V c 1 ⟨0, hn⟩)
  | n + 1, hn => k5_pay2 (grid5.coords ⟨n + 1, hn⟩) (iblk5 V c 0 ⟨n + 1, hn⟩) (if (n + 1) % 123 = 0 then k5_pay1 else accAt5 c n (Nat.lt_of_succ_lt hn)) (iblk5 V c 1 ⟨n + 1, hn⟩)

theorem accAt5_first (c : Dev nD) (t : Fin cfg5.N) (h0 : t.val % 123 = 0) :
    accAt5 V c t.val t.isLt = k5_pay2 (grid5.coords t) (iblk5 V c 0 t) k5_pay1 (iblk5 V c 1 t) := by
  obtain ⟨n, hn⟩ := t
  cases n with
  | zero => rfl
  | succ n => rw [accAt5, if_pos h0]

theorem accAt5_later (c : Dev nD) (t : Fin cfg5.N) (h0 : ¬t.val % 123 = 0) :
    accAt5 V c t.val t.isLt = k5_pay2 (grid5.coords t) (iblk5 V c 0 t) (accAt5 V c (t.val - 1) (Nat.lt_of_le_of_lt (Nat.sub_le _ _) t.isLt)) (iblk5 V c 1 t) := by
  obtain ⟨n, hn⟩ := t
  cases n with
  | zero => exact absurd (Nat.zero_mod _) h0
  | succ n => rw [accAt5, if_neg h0]; rfl

/-- Before position `n`: at the start everything the stage may touch, at anything; afterwards the accumulator at what the point before left. -/
def PhiS5 (c : Dev nD) : (n : ℕ) → n ≤ cfg5.N → sProp 𝕄
  | 0, _ => Pipeline.ΦA spec5 c
  | n + 1, hn => iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r))

theorem PhiS5_pos (c : Dev nD) (n : ℕ) (h : n ≤ cfg5.N) (hz : n ≠ 0) :
    PhiS5 V c n h = iprop(iprop(owns (c : Thread nD τ) scM5 fullShare (accAt5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- At any position the invariant yields the accumulator at some contents. -/
theorem PhiS5_any (c : Dev nD) (n : ℕ) (h : n ≤ cfg5.N) :
    PhiS5 V c n h ⊢ iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  cases n with
  | zero => rw [show PhiS5 V c 0 h = Pipeline.ΦA spec5 c from rfl, PhiA5_eq]
  | succ n =>
    unfold PhiS5
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c t.val t.isLt) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

theorem leaves5_0 (c : Dev nD) (t : Fin cfg5.N) : (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) : (dat5 V c).leavesExact 1 t = owns (c : Thread nD τ) (ms5_1 t) fullShare (iblk5 V c 1 t) := by
  unfold Dat.leavesExact; rw [liveAt5_1 t, after5_1]

set_option maxHeartbeats 4800000 in
/-- The body at any point: the point's residue modulo 123 says which case it is in; the invariant hands over the accumulator and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.succ = iprop(iprop(owns (c : Thread nD τ) scM5 fullShare (accAt5 V c t.val t.isLt) ∗ Pipeline.scopedRestBut (Ix := Unit) (Name := ℕ) (U := UR sig nD τ) (Lvl := ℕ) (Val := Elt F) spec5 c [cc5_scratch0]) ∗ (∃ r, prngReg c r)) from rfl,
    PhiS5_castSucc V c t, leaves5_0, leaves5_1]
  by_cases h0 : t.val % 123 = 0
  · have h1 : ¬t.val % 123 = 122 := by omega
    rw [Dat.leavesExact_idle (dat5 V c) 2 t (idleAt5_2 t (fun h => h1 ((hcond5_1 t).mp h))) (noFlush5_2 t (fun h => h1 ((hcond5_1 t).mp h)))]
    rw [accAt5_first V c t h0]
    iintro ⟨HΦ, Ho, ⟨%d0, H0⟩, ⟨%d1, H1⟩, ⟨%d2, H2⟩⟩
    ihave HΦ := PhiS5_any V c _ _ $$ HΦ
    icases HΦ with ⟨⟨HS0, Hrest⟩, Hg⟩
    iapply (kernelRun5_A c (grid5.coords t) _ _ _ _ _ _ _ _ ((hcond5_0 t).mpr h0) (fun h => h1 ((hcond5_1 t).mp h)) (iblk5 V c 0 t) (iblk5 V c 1 t) _ Set.univ _)
    iframe H0 H1 H2 HS0
    iintro ⟨H0, H1, H2, HS0⟩
    iframe HS0 Hrest Hg Ho H0 H1
    iexists _; iexact H2
  · rw [PhiS5_pos V c _ _ (fun h => h0 (by rw [h])), accAt5_later V c t h0]
    by_cases h1 : t.val % 123 = 122
    · rw [show (dat5 V c).leavesExact 2 t = owns (c : Thread nD τ) (ms5_2 t) fullShare ((dat5 V c).after 2 t) from by
        unfold Dat.leavesExact; rw [liveAt5_2 t ((hcond5_1 t).mpr h1)], after5_2, accAt5_later V c t h0]
      iintro ⟨⟨⟨HS0, Hrest⟩, Hg⟩, Ho, ⟨%d0, H0⟩, ⟨%d1, H1⟩, ⟨%d2, H2⟩⟩
      iapply (kernelRun5_C c (grid5.coords t) _ _ _ _ _ _ _ _ (fun h => h0 ((hcond5_0 t).mp h)) ((hcond5_1 t).mpr h1) (iblk5 V c 0 t) (iblk5 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat5 V c) 2 t (idleAt5_2 t (fun h => h1 ((hcond5_1 t).mp h))) (noFlush5_2 t (fun h => h1 ((hcond5_1 t).mp h)))]
      iintro ⟨⟨⟨HS0, Hrest⟩, Hg⟩, Ho, ⟨%d0, H0⟩, ⟨%d1, H1⟩, ⟨%d2, H2⟩⟩
      iapply (kernelRun5_B c (grid5.coords t) _ _ _ _ _ _ _ _ (fun h => h0 ((hcond5_0 t).mp h)) (fun h => h1 ((hcond5_1 t).mp h)) (iblk5 V c 0 t) (iblk5 V c 1 t) _ _ Set.univ _)
      iframe H0 H1 H2 HS0
      iintro ⟨H0, H1, H2, HS0⟩
      iframe HS0 Hrest Hg Ho H0 H1
      iexists _; iexact H2

theorem body_obligation5 (c : Dev nD) : BodyObligation (dat5 (F := F) V c) (defs₀ (F := F)) Variants.none () Set.univ := fun t => by
  rw [bigSep_W5, bigSep_W5]
  exact sound_body5 V c t

/-- What the stage is handed at its start is the invariant before the first point. -/
theorem hin5 (c : Dev nD) : Pipeline.ΦA spec5 c ⊢ (dat5 V c).Φ 0 := Idealize.SL.BI.Entails.refl _

/-- After the last point the invariant gives the same back, the accumulator's contents forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  exact PhiS5_any V c _ _

end Cert.KernelIdeal.Hand

end
-- ==== Proof.R6Final.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- At every point, what the body finds for each input is that input's block of the array the stage was entered with. -/
theorem before6_of {c : Dev nD} (dat : Dat τ (Elt F) Unit ℕ (UR sig nD τ) ℕ cfg6 c) (hA : ∀ w, dat.A w = V c (Pipeline.arrRef spec6 w)) (t : Fin cfg6.N) :
    ((∀ t, dat.after 0 t = iblk6 V c 0 t) → ∀ d, dat.before 0 t d = iblk6 V c 0 t)
    ∧ ((∀ t, dat.after 1 t = iblk6 V c 1 t) → ∀ d, dat.before 1 t d = iblk6 V c 1 t)
    ∧ ((∀ t, dat.after 2 t = iblk6 V c 2 t) → ∀ d, dat.before 2 t d = iblk6 V c 2 t)
    ∧ ((∀ t, dat.after 3 t = iblk6 V c 3 t) → ∀ d, dat.before 3 t d = iblk6 V c 3 t)
    ∧ ((∀ t, dat.after 4 t = iblk6 V c 4 t) → ∀ d, dat.before 4 t d = iblk6 V c 4 t)
    ∧ ((∀ t, dat.after 5 t = iblk6 V c 5 t) → ∀ d, dat.before 5 t d = iblk6 V c 5 t)
    ∧ ((∀ t, dat.after 6 t = iblk6 V c 6 t) → ∀ d, dat.before 6 t d = iblk6 V c 6 t)
    ∧ ((∀ t, dat.after 7 t = iblk6 V c 7 t) → ∀ d, dat.before 7 t d = iblk6 V c 7 t)
    ∧ ((∀ t, dat.after 8 t = iblk6 V c 8 t) → ∀ d, dat.before 8 t d = iblk6 V c 8 t) := by
  refine ⟨?_, ?_, ?_, ?_, ?_, ?_, ?_, ?_, ?_⟩ <;> exact fun hafter d =>
    (dat.before_in_eq_fetched _ rfl (fun _ => rfl) (fun _ _ _ => rfl) (fun t => by rw [hafter]; unfold Dat.blockOf iblk6; rw [hA]; try rfl) t d).trans
      (by unfold Dat.fetched Dat.blockOf iblk6; rw [hA]; try rfl)

abbrev rT6 : Rect S2000x1024 := Rect.unit (s := S2000x1024) ![0, 0] S2000x1024.size inb_S2000x1024_S2000x1024_0_0
abbrev rNf6 : Rect S2000x32 := Rect.unit (s := S2000x32) ![0, 0] S2000x32.size inb_S2000x32_S2000x32_0_0
abbrev rEh6 : Rect S1024x32 := Rect.unit (s := S1024x32) ![0, 0] S1024x32.size inb_S1024x32_S1024x32_0_0
abbrev rSq6 : Rect S32x32 := Rect.unit (s := S32x32) ![0, 0] S32x32.size inb_S32x32_S32x32_0_0
abbrev rB6 : Rect S1x32 := Rect.unit (s := S1x32) ![0, 0] S1x32.size inb_S1x32_S1x32_0_0
abbrev rWc6 : Rect S32x2 := Rect.unit (s := S32x2) ![0, 0] S32x2.size inb_S32x2_S32x2_0_0
abbrev rBc6 : Rect S1x2 := Rect.unit (s := S1x2) ![0, 0] S1x2.size inb_S1x2_S1x2_0_0
abbrev rOut6 : Rect S2000x2 := Rect.unit (s := S2000x2) ![0, 0] S2000x2.size inb_S2000x2_S2000x2_0_0

abbrev logitsBlk6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : FVec F S2000x2 .f32 :=
  k6_pay2 (View.ld x0 rT6) (View.ld x2 rEh6) (View.ld x1 rNf6) (View.ld x3 rSq6) (View.ld x4 rB6) (View.ld x5 rSq6) (View.ld x6 rB6) (View.ld x7 rWc6) (View.ld x8 rBc6)

abbrev rowMaxBlk6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : FVec F S2000 .f32 :=
  k6_pay3 (View.ld x0 rT6) (View.ld x2 rEh6) (View.ld x1 rNf6) (View.ld x3 rSq6) (View.ld x4 rB6) (View.ld x5 rSq6) (View.ld x6 rB6) (View.ld x7 rWc6) (View.ld x8 rBc6)

/-- What the body leaves in the output block: the one store, over the whole block, of the row softmax of the logits. -/
def out6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : Vec F S2000x2 .f32 :=
  View.canon [⟨rOut6, k6_pay1 (logitsBlk6 x0 x1 x2 x3 x4 x5 x6 x7 x8) (rowMaxBlk6 x0 x1 x2 x3 x4 x5 x6 x7 x8) (k6_pay4 (F := F))⟩]

theorem cover6 (p : Vec F S2000x2 .f32) (y : S2000x2.Idx) :
    ∃ pc ∈ ([⟨rOut6, p⟩] : List (View.Piece (Elt F) S2000x2 .f32)), y ∈ pc.1.set :=
  View.cover_of_tiled [⟨rOut6, p⟩] S2000x2.size (by rfl) y

set_option maxHeartbeats 4000000 in
/-- The body's triple on whole buffers: nine whole loads and one whole store, the inputs left as they were. -/
theorem sound_kernel6 (c : Dev nD) (E : Set ℕ) (i : grid6.Coords) (arg0 : Memref sig .tc .vmem S2000x1024 .f32) (harg0 : arg0.IsWhole) (arg1 : Memref sig .tc .vmem S2000x32 .f32) (harg1 : arg1.IsWhole) (arg2 : Memref sig .tc .vmem S1024x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x2 .f32) (harg7 : arg7.IsWhole) (arg8 : Memref sig .tc .vmem S1x2 .f32) (harg8 : arg8.IsWhole) (arg9 : Memref sig .tc .vmem S2000x2 .f32) (harg9 : arg9.IsWhole)
    (x0 : Vec F S2000x1024 .f32) (x1 : Vec F S2000x32 .f32) (x2 : Vec F S1024x32 .f32) (x3 : Vec F S32x32 .f32) (x4 : Vec F S1x32 .f32) (x5 : Vec F S32x32 .f32) (x6 : Vec F S1x32 .f32) (x7 : Vec F S32x2 .f32) (x8 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6 x0 x1 x2 x3 x4 x5 x6 x7 x8)) -∗ K ⟨⟩))
      ⊢ wp frame (wpE (defs₀ (F := F)) Variants.none c none) E (cc6__final_kernel i arg0 harg0 arg1 harg1 arg2 harg2 arg3 harg3 arg4 harg4 arg5 harg5 arg6 harg6 arg7 harg7 arg8 harg8 arg9 harg9) K := by
  simp only [cc6__final_kernel_eq_skeleton, k6_part1_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- The body at any point: the inputs' buffers hold their blocks, so the body's triple applies; the invariant and what the core owes pass through unread. -/
theorem body_obligation6 (c : Dev nD) : BodyObligation (dat6 (F := F) V c) (defs₀ (F := F)) Variants.none () Set.univ := fun t => by
  obtain ⟨b0, b1, b2, b3, b4, b5, b6, b7, b8⟩ := before6_of V (dat6 V c) (A_eq6 V c) t
  rw [bigSep_W6, bigSep_W6]
  simp only [b0 (after6_0 V c), b1 (after6_1 V c), b2 (after6_2 V c), b3 (after6_3 V c), b4 (after6_4 V c), b5 (after6_5 V c), b6 (after6_6 V c), b7 (after6_7 V c), b8 (after6_8 V c)]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  iintro H
  iframe

end Cert.KernelIdeal.Hand

end
-- ==== Proof.Chain.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import proofs.«422453_j56642028700408_3_alg».proof.Proof.Gen.KernelIdeal.Regions
import proofs.«422453_j56642028700408_3_alg».proof.Proof.R0Dat
import proofs.«422453_j56642028700408_3_alg».proof.Proof.R1Dat
import proofs.«422453_j56642028700408_3_alg».proof.Proof.R2Dat
import proofs.«422453_j56642028700408_3_alg».proof.Proof.R3Dat
import proofs.«422453_j56642028700408_3_alg».proof.Proof.R4Dat
import proofs.«422453_j56642028700408_3_alg».proof.Proof.R5Dat
import proofs.«422453_j56642028700408_3_alg».proof.Proof.R6Final
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev E0 (c : Dev nD) (b : Ref sig .tc) : Buf (Elt F) ((c : Thread nD τ).loc b) := V8 m c b
/-- What each stage leaves in its result array, from the contents it is entered with; so each is a function of the launch memory alone. -/
def res0 (c : Dev nD) : Buf (Elt F) ((c : Thread nD τ).loc main_v15) := (dat0 (E0 m) c).arrAt 3 cfg0.N
abbrev P9 (c : Dev nD) : Valuation τ sig (Elt F) := Function.update (V8 m c) main_v15 (res0 m c)
abbrev E1 (c : Dev nD) (b : Ref sig .tc) : Buf (Elt F) ((c : Thread nD τ).loc b) := P9 m c b
def res1 (c : Dev nD) : Buf (Elt F) ((c : Thread nD τ).loc main_v16) := (dat1 (E1 m) c).arrAt 2 cfg1.N
abbrev P10 (c : Dev nD) : Valuation τ sig (Elt F) := Function.update (P9 m c) main_v16 (res1 m c)
abbrev P11 (c : Dev nD) : Valuation τ sig (Elt F) := StableHlo.after hostOps2 (P10 m c)
abbrev P12 (c : Dev nD) : Valuation τ sig (Elt F) := StableHlo.after hostOps2_1 (P11 m c)
abbrev P13 (c : Dev nD) : Valuation τ sig (Elt F) := StableHlo.after hostOps2_2 (P12 m c)
abbrev P14 (c : Dev nD) : Valuation τ sig (Elt F) := StableHlo.after hostOps2_3 (P13 m c)
abbrev P15 (c : Dev nD) : Valuation τ sig (Elt F) := StableHlo.after hostOps2_4 (P14 m c)
abbrev P16 (c : Dev nD) : Valuation τ sig (Elt F) := StableHlo.after hostOps2_5 (P15 m c)
abbrev P17 (c : Dev nD) : Valuation τ sig (Elt F) := StableHlo.after hostOps2_6 (P16 m c)
abbrev P18 (c : Dev nD) : Valuation τ sig (Elt F) := StableHlo.after hostOps2_7 (P17 m c)
abbrev E2 (c : Dev nD) (b : Ref sig .tc) : Buf (Elt F) ((c : Thread nD τ).loc b) := P18 m c b
def res2 (c : Dev nD) : Buf (Elt F) ((c : Thread nD τ).loc main_v29) := (dat2 (E2 m) c).arrAt 3 cfg2.N
abbrev P19 (c : Dev nD) : Valuation τ sig (Elt F) := Function.update (P18 m c) main_v29 (res2 m c)
abbrev E3 (c : Dev nD) (b : Ref sig .tc) : Buf (Elt F) ((c : Thread nD τ).loc b) := P19 m c b
def res3 (c : Dev nD) : Buf (Elt F) ((c : Thread nD τ).loc main_v30) := (dat3 (E3 m) c).arrAt 2 cfg3.N
abbrev P20 (c : Dev nD) : Valuation τ sig (Elt F) := Function.update (P19 m c) main_v30 (res3 m c)
abbrev P21 (c : Dev nD) : Valuation τ sig (Elt F) := StableHlo.after hostOps4 (P20 m c)
abbrev P22 (c : Dev nD) : Valuation τ sig (Elt F) := StableHlo.after hostOps4_1 (P21 m c)
abbrev P23 (c : Dev nD) : Valuation τ sig (Elt F) := StableHlo.after hostOps4_2 (P22 m c)
abbrev P24 (c : Dev nD) : Valuation τ sig (Elt F) := StableHlo.after hostOps4_3 (P23 m c)
abbrev P25 (c : Dev nD) : Valuation τ sig (Elt F) := StableHlo.after hostOps4_4 (P24 m c)
abbrev P26 (c : Dev nD) : Valuation τ sig (Elt F) := StableHlo.after hostOps4_5 (P25 m c)
abbrev E4 (c : Dev nD) (b : Ref sig .tc) : Buf (Elt F) ((c : Thread nD τ).loc b) := P26 m c b
def res4 (c : Dev nD) : Buf (Elt F) ((c : Thread nD τ).loc main_v38) := (dat4 (E4 m) c).arrAt 3 cfg4.N
abbrev P27 (c : Dev nD) : Valuation τ sig (Elt F) := Function.update (P26 m c) main_v38 (res4 m c)
abbrev E5 (c : Dev nD) (b : Ref sig .tc) : Buf (Elt F) ((c : Thread nD τ).loc b) := P27 m c b
def res5 (c : Dev nD) : Buf (Elt F) ((c : Thread nD τ).loc main_v39) := (dat5 (E5 m) c).arrAt 2 cfg5.N
abbrev P28 (c : Dev nD) : Valuation τ sig (Elt F) := Function.update (P27 m c) main_v39 (res5 m c)
abbrev P29 (c : Dev nD) : Valuation τ sig (Elt F) := StableHlo.after hostOps6 (P28 m c)
abbrev E6 (c : Dev nD) (b : Ref sig .tc) : Buf (Elt F) ((c : Thread nD τ).loc b) := P29 m c b
def res6 (c : Dev nD) : Buf (Elt F) ((c : Thread nD τ).loc main_v46) := (dat6 (E6 m) c).arrAt 9 cfg6.N
abbrev P30 (c : Dev nD) : Valuation τ sig (Elt F) := Function.update (P29 m c) main_v46 (res6 m c)

/-- The seven results as the unknowns the several-stage run is stated over: with them its valuations are the contents above. -/
def outsH : Outs (F := F) := fun _ r c =>
    if h0 : r = main_v15 then h0 ▸ res0 m c
    else if h1 : r = main_v16 then h1 ▸ res1 m c
    else if h2 : r = main_v29 then h2 ▸ res2 m c
    else if h3 : r = main_v30 then h3 ▸ res3 m c
    else if h4 : r = main_v38 then h4 ▸ res4 m c
    else if h5 : r = main_v39 then h5 ▸ res5 m c
    else if h6 : r = main_v46 then h6 ▸ res6 m c
    else m ((c : Thread nD τ).loc r)

theorem outsH_6 (J : ℕ) (c : Dev nD) : outsH m J main_v46 c = res6 m c := by
  unfold outsH; rw [dif_neg (by decide), dif_neg (by decide), dif_neg (by decide), dif_neg (by decide), dif_neg (by decide), dif_neg (by decide), dif_pos rfl]

def pdats : (p : Fin 7) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
  | ⟨6, _⟩ => fun c => dat6 (E6 m) c

abbrev pix0 : Fin 7 := 0
abbrev pix1 : Fin 7 := 1
abbrev pix2 : Fin 7 := 2
abbrev pix3 : Fin 7 := 3
abbrev pix4 : Fin 7 := 4
abbrev pix5 : Fin 7 := 5
abbrev pix6 : Fin 7 := 6

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Hand

end
-- ==== Proof.R0Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P9_of (c : Dev nD) (r : Ref sig .tc) (h : r ≠ main_v15) : P9 m c r = (V8 m c) r := by
  simp only [P9, Function.update_of_ne (StableHlo.devRef_ne_of_ne h : (Proc.devRef .tc r : DevRef τ sig) ≠ Proc.devRef .tc main_v15)]

theorem hF0 (c : Dev nD) (w : Fin cfg0.W) : (pdats m pix0 c).arrAt w cfg0.N = P9 m c (Pipeline.arrRef spec0 w) := by
  fin_cases w
  · exact ((dat0 (E0 m) c).arrAt_in 0 rfl _).trans ((A_eq0 (E0 m) c 0).trans (P9_of m c _ (by decide)).symm)
  · exact ((dat0 (E0 m) c).arrAt_in 1 rfl _).trans ((A_eq0 (E0 m) c 1).trans (P9_of m c _ (by decide)).symm)
  · exact ((dat0 (E0 m) c).arrAt_in 2 rfl _).trans ((A_eq0 (E0 m) c 2).trans (P9_of m c _ (by decide)).symm)
  · show (dat0 (E0 m) c).arrAt 3 cfg0.N = Function.update (V8 m c) main_v15 (res0 m c) main_v15
    rw [Function.update_self]; rfl

theorem hrest0 (c : Dev nD) : ∀ b, b ∉ Finset.univ.image (Pipeline.arrRef spec0) → P9 m c b = E0 m c b :=
  fun b hb => P9_of m c b fun e => hb (e ▸ Finset.mem_image.mpr ⟨3, Finset.mem_univ _, rfl⟩)

set_option backward.isDefEq.respectTransparency.types false in
def reg0 : RegionSeg (pcfgs (F := F)) adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv pix0 fun _ _ => rfl
  pre c := iprop(StableHlo.held (c : Thread nD τ) (Pipeline.ucRefs τ sig) (V8 m c) ∗ R c)
  post c := iprop(StableHlo.held (c : Thread nD τ) (Pipeline.ucRefs τ sig) (P9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := pix0) (pcfgs (F := F)) adm (pdats m) launch0.win launch0.arr_whole c
      ((pdats m pix0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin0 (E0 m) c); unfold Pipeline.ΦA
    iintro ⟨Hp, -, Hr⟩
    isplitl [Hr]; · iexact Hr
    iexact Hp
  hout c := by
    rw [Pipeline.ownSems0_none]
    refine BIClass.entails_trans (hout0 (E0 m) c) ?_; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) adm (Ix := Unit) (Name := ℕ) (U := UR sig nD τ) (Lvl := ℕ)
      launch0.win launch0.arr_whole c (pdats m) ((pdats m pix0 c).share_full fun _ => rfl)
      (E0 m c) (fun b => P9 m c b) ((pdats m pix0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R1Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P10_of (c : Dev nD) (r : Ref sig .tc) (h : r ≠ main_v16) : P10 m c r = (P9 m c) r := by
  simp only [P10, Function.update_of_ne (StableHlo.devRef_ne_of_ne h : (Proc.devRef .tc r : DevRef τ sig) ≠ Proc.devRef .tc main_v16)]

theorem hF1 (c : Dev nD) (w : Fin cfg1.W) : (pdats m pix1 c).arrAt w cfg1.N = P10 m c (Pipeline.arrRef spec1 w) := by
  fin_cases w
  · exact ((dat1 (E1 m) c).arrAt_in 0 rfl _).trans ((A_eq1 (E1 m) c 0).trans (P10_of m c _ (by decide)).symm)
  · exact ((dat1 (E1 m) c).arrAt_in 1 rfl _).trans ((A_eq1 (E1 m) c 1).trans (P10_of m c _ (by decide)).symm)
  · show (dat1 (E1 m) c).arrAt 2 cfg1.N = Function.update (P9 m c) main_v16 (res1 m c) main_v16
    rw [Function.update_self]; rfl

theorem hrest1 (c : Dev nD) : ∀ b, b ∉ Finset.univ.image (Pipeline.arrRef spec1) → P10 m c b = E1 m c b :=
  fun b hb => P10_of m c b fun e => hb (e ▸ Finset.mem_image.mpr ⟨2, Finset.mem_univ _, rfl⟩)

set_option backward.isDefEq.respectTransparency.types false in
def reg1 : RegionSeg (pcfgs (F := F)) adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv pix1 fun _ _ => rfl
  pre c := iprop(StableHlo.held (c : Thread nD τ) (Pipeline.ucRefs τ sig) (P9 m c) ∗ R c)
  post c := iprop(StableHlo.held (c : Thread nD τ) (Pipeline.ucRefs τ sig) (P10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := pix1) (pcfgs (F := F)) adm (pdats m) launch1.win launch1.arr_whole c
      ((pdats m pix1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin1 (E1 m) c); unfold Pipeline.ΦA
    iintro ⟨Hp, -, Hr⟩
    isplitl [Hr]; · iexact Hr
    iexact Hp
  hout c := by
    rw [Pipeline.ownSems0_none]
    refine BIClass.entails_trans (hout1 (E1 m) c) ?_; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) adm (Ix := Unit) (Name := ℕ) (U := UR sig nD τ) (Lvl := ℕ)
      launch1.win launch1.arr_whole c (pdats m) ((pdats m pix1 c).share_full fun _ => rfl)
      (E1 m c) (fun b => P10 m c b) ((pdats m pix1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R2Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P19_of (c : Dev nD) (r : Ref sig .tc) (h : r ≠ main_v29) : P19 m c r = (P18 m c) r := by
  simp only [P19, Function.update_of_ne (StableHlo.devRef_ne_of_ne h : (Proc.devRef .tc r : DevRef τ sig) ≠ Proc.devRef .tc main_v29)]

theorem hF2 (c : Dev nD) (w : Fin cfg2.W) : (pdats m pix2 c).arrAt w cfg2.N = P19 m c (Pipeline.arrRef spec2 w) := by
  fin_cases w
  · exact ((dat2 (E2 m) c).arrAt_in 0 rfl _).trans ((A_eq2 (E2 m) c 0).trans (P19_of m c _ (by decide)).symm)
  · exact ((dat2 (E2 m) c).arrAt_in 1 rfl _).trans ((A_eq2 (E2 m) c 1).trans (P19_of m c _ (by decide)).symm)
  · exact ((dat2 (E2 m) c).arrAt_in 2 rfl _).trans ((A_eq2 (E2 m) c 2).trans (P19_of m c _ (by decide)).symm)
  · show (dat2 (E2 m) c).arrAt 3 cfg2.N = Function.update (P18 m c) main_v29 (res2 m c) main_v29
    rw [Function.update_self]; rfl

theorem hrest2 (c : Dev nD) : ∀ b, b ∉ Finset.univ.image (Pipeline.arrRef spec2) → P19 m c b = E2 m c b :=
  fun b hb => P19_of m c b fun e => hb (e ▸ Finset.mem_image.mpr ⟨3, Finset.mem_univ _, rfl⟩)

set_option backward.isDefEq.respectTransparency.types false in
def reg2 : RegionSeg (pcfgs (F := F)) adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv pix2 fun _ _ => rfl
  pre c := iprop(StableHlo.held (c : Thread nD τ) (Pipeline.ucRefs τ sig) (P18 m c) ∗ R c)
  post c := iprop(StableHlo.held (c : Thread nD τ) (Pipeline.ucRefs τ sig) (P19 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := pix2) (pcfgs (F := F)) adm (pdats m) launch2.win launch2.arr_whole c
      ((pdats m pix2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin2 (E2 m) c); unfold Pipeline.ΦA
    iintro ⟨Hp, -, Hr⟩
    isplitl [Hr]; · iexact Hr
    iexact Hp
  hout c := by
    rw [Pipeline.ownSems0_none]
    refine BIClass.entails_trans (hout2 (E2 m) c) ?_; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) adm (Ix := Unit) (Name := ℕ) (U := UR sig nD τ) (Lvl := ℕ)
      launch2.win launch2.arr_whole c (pdats m) ((pdats m pix2 c).share_full fun _ => rfl)
      (E2 m c) (fun b => P19 m c b) ((pdats m pix2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R3Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P20_of (c : Dev nD) (r : Ref sig .tc) (h : r ≠ main_v30) : P20 m c r = (P19 m c) r := by
  simp only [P20, Function.update_of_ne (StableHlo.devRef_ne_of_ne h : (Proc.devRef .tc r : DevRef τ sig) ≠ Proc.devRef .tc main_v30)]

theorem hF3 (c : Dev nD) (w : Fin cfg3.W) : (pdats m pix3 c).arrAt w cfg3.N = P20 m c (Pipeline.arrRef spec3 w) := by
  fin_cases w
  · exact ((dat3 (E3 m) c).arrAt_in 0 rfl _).trans ((A_eq3 (E3 m) c 0).trans (P20_of m c _ (by decide)).symm)
  · exact ((dat3 (E3 m) c).arrAt_in 1 rfl _).trans ((A_eq3 (E3 m) c 1).trans (P20_of m c _ (by decide)).symm)
  · show (dat3 (E3 m) c).arrAt 2 cfg3.N = Function.update (P19 m c) main_v30 (res3 m c) main_v30
    rw [Function.update_self]; rfl

theorem hrest3 (c : Dev nD) : ∀ b, b ∉ Finset.univ.image (Pipeline.arrRef spec3) → P20 m c b = E3 m c b :=
  fun b hb => P20_of m c b fun e => hb (e ▸ Finset.mem_image.mpr ⟨2, Finset.mem_univ _, rfl⟩)

set_option backward.isDefEq.respectTransparency.types false in
def reg3 : RegionSeg (pcfgs (F := F)) adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv pix3 fun _ _ => rfl
  pre c := iprop(StableHlo.held (c : Thread nD τ) (Pipeline.ucRefs τ sig) (P19 m c) ∗ R c)
  post c := iprop(StableHlo.held (c : Thread nD τ) (Pipeline.ucRefs τ sig) (P20 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := pix3) (pcfgs (F := F)) adm (pdats m) launch3.win launch3.arr_whole c
      ((pdats m pix3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin3 (E3 m) c); unfold Pipeline.ΦA
    iintro ⟨Hp, -, Hr⟩
    isplitl [Hr]; · iexact Hr
    iexact Hp
  hout c := by
    rw [Pipeline.ownSems0_none]
    refine BIClass.entails_trans (hout3 (E3 m) c) ?_; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) adm (Ix := Unit) (Name := ℕ) (U := UR sig nD τ) (Lvl := ℕ)
      launch3.win launch3.arr_whole c (pdats m) ((pdats m pix3 c).share_full fun _ => rfl)
      (E3 m c) (fun b => P20 m c b) ((pdats m pix3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R4Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P27_of (c : Dev nD) (r : Ref sig .tc) (h : r ≠ main_v38) : P27 m c r = (P26 m c) r := by
  simp only [P27, Function.update_of_ne (StableHlo.devRef_ne_of_ne h : (Proc.devRef .tc r : DevRef τ sig) ≠ Proc.devRef .tc main_v38)]

theorem hF4 (c : Dev nD) (w : Fin cfg4.W) : (pdats m pix4 c).arrAt w cfg4.N = P27 m c (Pipeline.arrRef spec4 w) := by
  fin_cases w
  · exact ((dat4 (E4 m) c).arrAt_in 0 rfl _).trans ((A_eq4 (E4 m) c 0).trans (P27_of m c _ (by decide)).symm)
  · exact ((dat4 (E4 m) c).arrAt_in 1 rfl _).trans ((A_eq4 (E4 m) c 1).trans (P27_of m c _ (by decide)).symm)
  · exact ((dat4 (E4 m) c).arrAt_in 2 rfl _).trans ((A_eq4 (E4 m) c 2).trans (P27_of m c _ (by decide)).symm)
  · show (dat4 (E4 m) c).arrAt 3 cfg4.N = Function.update (P26 m c) main_v38 (res4 m c) main_v38
    rw [Function.update_self]; rfl

theorem hrest4 (c : Dev nD) : ∀ b, b ∉ Finset.univ.image (Pipeline.arrRef spec4) → P27 m c b = E4 m c b :=
  fun b hb => P27_of m c b fun e => hb (e ▸ Finset.mem_image.mpr ⟨3, Finset.mem_univ _, rfl⟩)

set_option backward.isDefEq.respectTransparency.types false in
def reg4 : RegionSeg (pcfgs (F := F)) adm (pdats m) () defs₀ 𝒱₀ L lv pix4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv pix4 fun _ _ => rfl
  pre c := iprop(StableHlo.held (c : Thread nD τ) (Pipeline.ucRefs τ sig) (P26 m c) ∗ R c)
  post c := iprop(StableHlo.held (c : Thread nD τ) (Pipeline.ucRefs τ sig) (P27 m c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := pix4) (pcfgs (F := F)) adm (pdats m) launch4.win launch4.arr_whole c
      ((pdats m pix4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin4 (E4 m) c); unfold Pipeline.ΦA
    iintro ⟨Hp, -, Hr⟩
    isplitl [Hr]; · iexact Hr
    iexact Hp
  hout c := by
    rw [Pipeline.ownSems0_none]
    refine BIClass.entails_trans (hout4 (E4 m) c) ?_; unfold Pipeline.ΦA
    iintro ⟨Hr, Hp⟩
    isplitl [Hp]; · iexact Hp
    isplitr; · iempintro
    iexact Hr
  hexit c := by
    have hjoin := Pipeline.unscopedBufs_of_arrays (p := pix4) (pcfgs (F := F)) adm (Ix := Unit) (Name := ℕ) (U := UR sig nD τ) (Lvl := ℕ)
      launch4.win launch4.arr_whole c (pdats m) ((pdats m pix4 c).share_full fun _ => rfl)
      (E4 m c) (fun b => P27 m c b) ((pdats m pix4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R5Seg.lean ====
import proofs.«422453_j56642028700408_3_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P28_of (c : Dev nD) (r : Ref sig .tc) (h : r ≠ main_v39) : P28 m c r = (P27 m c) r := by
  simp only [P28, Function.update_of_ne (StableHlo.devRef_ne_of_ne h : (Proc.devRef .tc r : DevRef τ sig) ≠ Proc.devRef .tc main_v39)]

theorem hF5 (c : Dev nD) (w : Fin cfg5.W) : (pdats m pix5 c).arrAt w cfg5.N = P28 m c (Pipeline.arrRef spec5 w) := by
  fin_cases w
  · exact ((dat5 (E5 m) c).arrAt_in 0 rfl _).trans ((A_eq5 (E5 m) c 0).trans (P28_of m c _ (by decide)).symm)
  · exact ((dat5 (E5 m) c).arrAt_in 1 rfl _).trans ((A_eq5 (E5 m) c 1).trans (P28_of m c _ (by decide)).symm)
  · show (dat5 (E5 m) c).arrAt 2 cfg5.N = Function.update (P27 m c) main_v39 (res5 m c) main_v39
    rw [Function.update_self]; rfl

theorem hrest5 (c : Dev nD) : ∀ b, b ∉ Finset.univ.image (Pipeline.arrRef spec5) → P28 m c b = E5 m c b :=
  fun b hb => P28_of m c b fun e => hb (e ▸ Finset.mem_image.mpr ⟨2, Finset.mem_univ _, rfl⟩)

set_option backward.isDefEq.respectTransparency.types false in
def reg5 : RegionSeg (pcfgs (F := F)) adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (E5 m) c).loose
  hwaits := Pipeline.hwaits_of_owed_zero _ _ _ _ L lv pix5 fun _ _ => rfl
  pre c := iprop(StableHlo.held (c : Thread nD τ) (Pipeline.ucRefs τ sig) (P27 m c) ∗ R c)
  post c := iprop(StableHlo.held (c : Thread nD τ) (Pipeline.ucRefs τ sig) (P28 m c) ∗ R c)
  X c := iprop(∃ r, prngReg c r)
  Y c := iprop(∃ r, prngReg c r)
  Z c := Pipeline.unscopedRest (Ix := Unit) (Name := ℕ) (U := UR sig nD τ) (Lvl := ℕ) spec5 c (E5 m c)
  hentry c := by
    rw [Pipeline.ownSems0_none]
    have hsplit := Pipeline.arrays_of_unscopedBufs (p := pix5) (pcfgs (F := F)) adm (pdats m) launch5.win launch5.arr_whole c
      ((pdats m pix5 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin5 (E5 m) c); unfold Pipeline.ΦA
    iintro ⟨Hp, -, Hr⟩
    isplitl [Hr]; · iexact Hr
    iexact Hp
  hout c := by
    rw [Pipeline.ownSems0_none]
    refine BIClass.entails_trans (hout5 (E5 m) c) ?_; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) adm (Ix := Unit) (Name := ℕ) (U := UR sig nD τ) (Lvl := ℕ)
      launch5.win launch5.arr_whole c (pdats m) ((pdats m pix5 c).share_full fun _ => rfl)
      (E5 m c) (fun b => P28 m c b) ((pdats m pix5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.R6Seg.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import proofs.«422453_j56642028700408_3_alg».proof.Proof.Chain
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P30_of (c : Dev nD) (r : Ref sig .tc) (h : r ≠ main_v46) : P30 m c r = (P29 m c) r := by
  simp only [P30, Function.update_of_ne (StableHlo.devRef_ne_of_ne h : (Proc.devRef .tc r : DevRef τ sig) ≠ Proc.devRef .tc main_v46)]

set_option maxHeartbeats 2000000 in
theorem hF6 (c : Dev nD) (w : Fin cfg6.W) : (pdats m pix6 c).arrAt w cfg6.N = P30 m c (Pipeline.arrRef spec6 w) := by
  fin_cases w <;> first
    | exact ((dat6 (E6 m) c).arrAt_in _ rfl _).trans ((A_eq6 (E6 m) c _).trans (P30_of m c _ (by decide)).symm)
    | (show (dat6 (E6 m) c).arrAt 9 cfg6.N = Function.update (P29 m c) main_v46 (res6 m c) main_v46
       rw [Function.update_self]; rfl)

theorem hrest6 (c : Dev nD) : ∀ b, b ∉ Finset.univ.image (Pipeline.arrRef spec6) → P30 m c b = E6 m c b :=
  fun b hb => P30_of m c b fun e => hb (e ▸ Finset.mem_image.mpr ⟨9, Finset.mem_univ _, rfl⟩)

set_option backward.isDefEq.respectTransparency.types false in
/-- The last stage as an item of the run: its arrays are split out of the unscoped buffers and put back, the generator register rides in its invariant. -/
def reg6 : RegionSeg (pcfgs (F := F)) adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (E6 m) c).loose
  hwaits := Pipeline.hwaits_of_owed_zero _ _ _ _ L lv pix6 fun _ _ => rfl
  pre c := iprop(StableHlo.held (c : Thread nD τ) (Pipeline.ucRefs τ sig) (P29 m c) ∗ R c)
  post c := iprop(StableHlo.held (c : Thread nD τ) (Pipeline.ucRefs τ sig) (P30 m c) ∗ R c)
  X c := iprop(∃ r, prngReg c r)
  Y c := iprop(∃ r, prngReg c r)
  Z c := Pipeline.unscopedRest (Ix := Unit) (Name := ℕ) (U := UR sig nD τ) (Lvl := ℕ) spec6 c (E6 m c)
  hentry c := by
    rw [Pipeline.ownSems0_none]
    have hsplit := Pipeline.arrays_of_unscopedBufs (p := pix6) (pcfgs (F := F)) adm (pdats m) launch6.win launch6.arr_whole c
      ((pdats m pix6 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    iframe
  hout c := by
    rw [Pipeline.ownSems0_none, show (pdats m pix6 c).Φ (Fin.last _) = Pipeline.ΦA spec6 c from rfl]; unfold Pipeline.ΦA
    iintro ⟨Hr, Hp⟩
    iframe
    iempintro
  hexit c := by
    have hjoin := Pipeline.unscopedBufs_of_arrays (p := pix6) (pcfgs (F := F)) adm (Ix := Unit) (Name := ℕ) (U := UR sig nD τ) (Lvl := ℕ)
      launch6.win launch6.arr_whole c (pdats m) ((pdats m pix6 c).share_full fun _ => rfl)
      (E6 m c) (fun b => P30 m c b) ((pdats m pix6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
import proofs.«422453_j56642028700408_3_alg».proof.Proof.Gen.KernelIdeal.Launch
import proofs.«422453_j56642028700408_3_alg».proof.Proof.Gen.KernelIdeal.Skeleton
import proofs.«422453_j56642028700408_3_alg».proof.Proof.Gen.KernelIdeal.Points
import proofs.«422453_j56642028700408_3_alg».proof.Proof.R0Seg
import proofs.«422453_j56642028700408_3_alg».proof.Proof.R1Seg
import proofs.«422453_j56642028700408_3_alg».proof.Proof.R2Seg
import proofs.«422453_j56642028700408_3_alg».proof.Proof.R3Seg
import proofs.«422453_j56642028700408_3_alg».proof.Proof.R4Seg
import proofs.«422453_j56642028700408_3_alg».proof.Proof.R5Seg
import proofs.«422453_j56642028700408_3_alg».proof.Proof.R6Seg
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What one core is handed at the launch: its buffers at the launch contents, the generator register, nothing owed. -/
theorem launch_each (ρ : Dev nD → PrngReg) (c : Dev nD) :
    (iprop(unscopedBufs c (fun b => m ((c.tc : Thread nD τ).loc b)) ∗ unscopedSems0 c ∗ owes (c.tc : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ iprop(StableHlo.held (c : Thread nD τ) (Pipeline.ucRefs τ sig) (V0 m c) ∗ R (F := F) c) := by
  have hb : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UR sig nD τ) (Lvl := ℕ) c (V0 m c)]
  iintro ⟨Hb, -, HO, -, Hp, -⟩
  isplitl [Hb]; · iapply hb $$ Hb
  isplitl [Hp]; · iexists _; iexact Hp
  iexists ∅; iexact HO

/-- With the stages' results as the unknowns, the run's valuations are the contents built stage by stage. -/
theorem V10_eq (c : Dev nD) : V10 m (outsH m) c = P10 m c := rfl
theorem V18_eq (c : Dev nD) : V18 m (outsH m) c = P18 m c := rfl
theorem V20_eq (c : Dev nD) : V20 m (outsH m) c = P20 m c := rfl
theorem V26_eq (c : Dev nD) : V26 m (outsH m) c = P26 m c := rfl
theorem V28_eq (c : Dev nD) : V28 m (outsH m) c = P28 m c := by
  show Function.update (Function.update (V26 m (outsH m) c) main_v38 (outsH m 27 main_v38 c)) main_v39 (outsH m 28 main_v39 c) = _
  rw [V26_eq] <;> rfl
theorem V29_eq (c : Dev nD) : V29 m (outsH m) c = P29 m c := congrArg (StableHlo.after hostOps6) (V28_eq m c)
theorem V30_eq (c : Dev nD) : V30 m (outsH m) c = P30 m c := by
  show Function.update (V29 m (outsH m) c) main_v46 (outsH m 30 main_v46 c) = Function.update (P29 m c) main_v46 (res6 m c)
  rw [V29_eq, outsH_6]

/-- Equal contents are held alike. -/
theorem held_of {c : Dev nD} {V P : Valuation τ sig (Elt F)} (h : V = P) :
    (iprop(StableHlo.held (c : Thread nD τ) (Pipeline.ucRefs τ sig) P ∗ R c) : sProp 𝕄)
      ⊢ iprop(StableHlo.held (c : Thread nD τ) (Pipeline.ucRefs τ sig) V ∗ R c) := by
  subst h; exact .rfl

set_option backward.isDefEq.respectTransparency.types false in
/-- The run: the seven stages and the host stretches between them chain from the launch contents to the last valuation, which is read back at the end. -/
theorem run_value (ρ : Dev nD → PrngReg) :
    θ_run defs (onTc (τ := τ) (main (F := F))) ⟨m, fun _ => 0, ρ⟩ (fun r => ∀ c : Dev nD,
      r.2.mem ((c.tc : Thread nD τ).loc main_v46) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ 𝒱₀ L lv m ρ main
    (segs m (outsH m) 𝒱₀ L lv (fun _ c => R c) () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide)
    0 (fun _ _ => rfl) (fun _ => iprop(emp)) _ launch_own
    (T₀ := fun c => iprop(StableHlo.held (c : Thread nD τ) (Pipeline.ucRefs τ sig) (V0 m c) ∗ R c))
    (Tₙ := fun c => StableHlo.held (c : Thread nD τ) (Pipeline.ucRefs τ sig) (V30 m (outsH m) c))
    (hch := fun c => ⟨.rfl, .rfl, .rfl, .rfl, .rfl, .rfl, .rfl, .rfl, .rfl, .rfl, held_of (V10_eq m c), .rfl, .rfl, .rfl, .rfl, .rfl, .rfl, .rfl, held_of (V18_eq m c).symm, .rfl, held_of (V20_eq m c), .rfl, .rfl, .rfl, .rfl, .rfl,
      held_of (V26_eq m c).symm, .rfl, held_of (V28_eq m c), held_of (V29_eq m c).symm,
      (held_of (V30_eq m c)).trans (sep_mono .rfl (by iintro ⟨-, H⟩; iexact H))⟩)
    (hinit := ?_)
    (QY := fun c s => ∀ b ∈ Pipeline.ucRefs τ sig, s.mem ((c : Thread nD τ).1, b) = V30 m (outsH m) c b)
    (hfin := fun c s' => ?_) (hQ := fun s h c => ?_)
  · iintro ⟨H, -⟩; imodintro
    iapply (show (_ : sProp 𝕄) ⊢ _ from bigSep_mono fun c _ => launch_each m ρ c) $$ H
  · unfold StableHlo.held
    iintro H; imodintro
    iapply (pointsTo_read_all (Pipeline.ucRefs τ sig) (fun b => ((c : Thread nD τ).1, b)) (V30 m (outsH m) c) s') $$ H
  · have hr : ∀ b : Ref sig .tc, ¬(Proc.devRef (τ := τ) .tc b).isScoped → s.mem ((c.tc : Thread nD τ).loc b) = V30 m (outsH m) c b :=
      fun b hb => h c (Proc.devRef .tc b) (Finset.mem_filter.mpr ⟨StableHlo.devRef_mem_tcRefs b, hb⟩)
    exact ⟨(hr main_v46 (by decide)).trans ((Function.update_self _ _ _).trans (outsH_6 m 30 c)),
      (hr main_arg0 (by decide)).trans (V30_main_arg0 m _ c),
      (hr main_arg1 (by decide)).trans (V30_main_arg1 m _ c),
      (hr main_arg2 (by decide)).trans (V30_main_arg2 m _ c),
      (hr main_arg3 (by decide)).trans (V30_main_arg3 m _ c),
      (hr main_arg4 (by decide)).trans (V30_main_arg4 m _ c),
      (hr main_arg5 (by decide)).trans (V30_main_arg5 m _ c),
      (hr main_arg6 (by decide)).trans (V30_main_arg6 m _ c),
      (hr main_arg7 (by decide)).trans (V30_main_arg7 m _ c),
      (hr main_arg8 (by decide)).trans (V30_main_arg8 m _ c),
      (hr main_arg9 (by decide)).trans (V30_main_arg9 m _ c),
      (hr main_arg10 (by decide)).trans (V30_main_arg10 m _ c),
      (hr main_arg11 (by decide)).trans (V30_main_arg11 m _ c),
      (hr main_arg12 (by decide)).trans (V30_main_arg12 m _ c),
      (hr main_arg13 (by decide)).trans (V30_main_arg13 m _ c),
      (hr main_arg14 (by decide)).trans (V30_main_arg14 m _ c),
      (hr main_arg15 (by decide)).trans (V30_main_arg15 m _ c),
      (hr main_arg16 (by decide)).trans (V30_main_arg16 m _ c)⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_value m ρ)

end Cert.KernelIdeal.Hand

end
-- ==== Proof.Bits.R0Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S8192x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x64 .f32 := win0_3.stage (cfg0.slots t 3)
abbrev hs0_3 (t : Fin cfg0.N) : (ms0_3 t).IsWhole := hstage0_3 ((cfg0.slots t 3).cast nbuf0_3)
abbrev scM0 : Memref sig .tc .vmem S8192x64 .f32 := Memref.whole cc0_scratch0

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.Bits.R0Runs.lean ====
import proofs.«422453_j56642028700408_3_alg».proof.Proof.Bits.R0Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun0_A (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : cond0_0 i) (hc1 : ¬cond0_1 i)
    (x0 : Vec F S8192x1 .i32) (x1 : Vec F S8192x1 .f32) (x2 : Vec F S1024x64 .f32) (xi3 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 k0_pay1 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00]

set_option maxHeartbeats 1000000 in
/-- A middle block: the accumulator ends at the update of what it held. -/
theorem kernelRun0_B (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : ¬cond0_0 i) (hc1 : ¬cond0_1 i)
    (x0 : Vec F S8192x1 .i32) (x1 : Vec F S8192x1 .f32) (x2 : Vec F S1024x64 .f32) (xs0 xi3 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 xs0 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]

set_option maxHeartbeats 1000000 in
/-- The last block: the accumulator likewise, and the result window, whatever it held, ends at the stage's function of it. -/
theorem kernelRun0_C (c : Dev nD) (i : grid0.Coords) (arg2 : Memref sig .tc .vmem S8192x1 .i32) (harg2 : arg2.IsWhole) (arg3 : Memref sig .tc .vmem S8192x1 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S8192x64 .f32) (harg6 : arg6.IsWhole) (hc0 : ¬cond0_0 i) (hc1 : cond0_1 i)
    (x0 : Vec F S8192x1 .i32) (x1 : Vec F S8192x1 .f32) (x2 : Vec F S1024x64 .f32) (xs0 : Vec F S8192x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 i x0 xs0 x2) x1) ∗ owns (c : Thread nD τ) arg6 fullShare (k0_pay2 i x0 xs0 x2)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x64) View.off00, View.ld_unit_zero (S := S8192x64) View.off00, View.readCov_unit_zero (S := S8192x64) _ View.off00, hfs0]

end Cert.Kernel.Hand

end
-- ==== Proof.Bits.R0Dat.lean ====
import proofs.«422453_j56642028700408_3_alg».proof.Proof.Bits.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt0 (c : Dev nD) : (n : ℕ) → n < cfg0.N → Vec F S8192x64 .f32
  | 0, hn => k0_pay2 (grid0.coords ⟨0, hn⟩) (iblk0 V c 0 ⟨0, hn⟩) k0_pay1 (iblk0 V c 2 ⟨0, hn⟩)
  | n + 1, hn => k0_pay2 (grid0.coords ⟨n + 1, hn⟩) (iblk0 V c 0 ⟨n + 1, hn⟩) (if (n + 1) % 49 = 0 then k0_pay1 else accAt0 c n (Nat.lt_of_succ_lt hn)) (iblk0 V c 2 ⟨n + 1, hn⟩)

theorem accAt0_first (c : Dev nD) (t : Fin cfg0.N) (h0 : t.val % 49 = 0) :
    accAt0 V c t.val t.isLt = k0_pay2 (grid0.coords t) (iblk0 V c 0 t) k0_pay1 (iblk0 V c 2 t) := by
  obtain ⟨n, hn⟩ := t
  cases n with
  | zero => rfl
  | succ n => rw [accAt0, if_pos h0]

theorem accAt0_later (c : Dev nD) (t : Fin cfg0.N) (h0 : ¬t.val % 49 = 0) :
    accAt0 V c t.val t.isLt = k0_pay2 (grid0.coords t) (iblk0 V c 0 t) (accAt0 V c (t.val - 1) (Nat.lt_of_le_of_lt (Nat.sub_le _ _) t.isLt)) (iblk0 V c 2 t) := by
  obtain ⟨n, hn⟩ := t
  cases n with
  | zero => exact absurd (Nat.zero_mod _) h0
  | succ n => rw [accAt0, if_neg h0]; rfl

/-- Before position `n`: at the start everything the stage may touch, at anything; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- At any position the invariant yields the accumulator at some contents. -/
theorem PhiS0_any (c : Dev nD) (n : ℕ) (h : n ≤ cfg0.N) :
    PhiS0 V c n h ⊢ iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  cases n with
  | zero => rw [show PhiS0 V c 0 h = Pipeline.ΦA spec0 c from rfl, PhiA0_eq]
  | succ n =>
    unfold PhiS0
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 1 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accAt0 V c t.val t.isLt) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the point's residue modulo 49 says which case it is in; the invariant hands over the accumulator and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = iprop(iprop(owns (c : Thread nD τ) scM0 fullShare (accAt0 V c t.val t.isLt) ∗ Pipeline.scopedRestBut (Ix := Unit) (Name := ℕ) (U := UR sig nD τ) (Lvl := ℕ) (Val := Elt F) spec0 c [cc0_scratch0]) ∗ (∃ r, prngReg c r)) from rfl,
    PhiS0_castSucc V c t, leaves0_0, leaves0_1, leaves0_2]
  by_cases h0 : t.val % 49 = 0
  · have h1 : ¬t.val % 49 = 48 := by omega
    rw [Dat.leavesExact_idle (dat0 V c) 3 t (idleAt0_3 t (fun h => h1 ((hcond0_1 t).mp h))) (noFlush0_3 t (fun h => h1 ((hcond0_1 t).mp h)))]
    rw [accAt0_first V c t h0]
    iintro ⟨HΦ, Ho, ⟨%d0, H0⟩, ⟨%d1, H1⟩, ⟨%d2, H2⟩, ⟨%d3, H3⟩⟩
    ihave HΦ := PhiS0_any V c _ _ $$ HΦ
    icases HΦ with ⟨⟨HS0, Hrest⟩, Hg⟩
    iapply (kernelRun0_A c (grid0.coords t) _ _ _ _ _ _ _ _ _ _ ((hcond0_0 t).mpr h0) (fun h => h1 ((hcond0_1 t).mp h)) (iblk0 V c 0 t) (iblk0 V c 1 t) (iblk0 V c 2 t) _ Set.univ _)
    iframe H0 H1 H2 H3 HS0
    iintro ⟨H0, H1, H2, H3, HS0⟩
    iframe HS0 Hrest Hg Ho H0 H1 H2
    iexists _; iexact H3
  · rw [PhiS0_pos V c _ _ (fun h => h0 (by rw [h])), accAt0_later V c t h0]
    by_cases h1 : t.val % 49 = 48
    · rw [show (dat0 V c).leavesExact 3 t = owns (c : Thread nD τ) (ms0_3 t) fullShare ((dat0 V c).after 3 t) from by
        unfold Dat.leavesExact; rw [liveAt0_3 t ((hcond0_1 t).mpr h1)], after0_3, accAt0_later V c t h0]
      iintro ⟨⟨⟨HS0, Hrest⟩, Hg⟩, Ho, ⟨%d0, H0⟩, ⟨%d1, H1⟩, ⟨%d2, H2⟩, ⟨%d3, H3⟩⟩
      iapply (kernelRun0_C c (grid0.coords t) _ _ _ _ _ _ _ _ _ _ (fun h => h0 ((hcond0_0 t).mp h)) ((hcond0_1 t).mpr h1) (iblk0 V c 0 t) (iblk0 V c 1 t) (iblk0 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat0 V c) 3 t (idleAt0_3 t (fun h => h1 ((hcond0_1 t).mp h))) (noFlush0_3 t (fun h => h1 ((hcond0_1 t).mp h)))]
      iintro ⟨⟨⟨HS0, Hrest⟩, Hg⟩, Ho, ⟨%d0, H0⟩, ⟨%d1, H1⟩, ⟨%d2, H2⟩, ⟨%d3, H3⟩⟩
      iapply (kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _ _ Set.univ _)
      iframe H0 H1 H2 H3 HS0
      iintro ⟨H0, H1, H2, H3, HS0⟩
      iframe HS0 Hrest Hg Ho H0 H1 H2
      iexists _; iexact H3

theorem body_obligation0 (c : Dev nD) : BodyObligation (dat0 (F := F) V c) (defs₀ (F := F)) Variants.none () Set.univ := fun t => by
  rw [bigSep_W0, bigSep_W0]
  exact sound_body0 V c t

/-- What the stage is handed at its start is the invariant before the first point. -/
theorem hin0 (c : Dev nD) : Pipeline.ΦA spec0 c ⊢ (dat0 V c).Φ 0 := Idealize.SL.BI.Entails.refl _

/-- After the last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Cert.Kernel.Hand

end
-- ==== Proof.Bits.R1Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 123 = 0 :=
  (by decide +kernel : ∀ t : Fin grid1.N, cond1_0 (grid1.coords t) ↔ t.val % 123 = 0)

abbrev cond1_1 (i : grid1.Coords) : Prop := k1_cond2 i = 1#1
theorem hcond1_1 : ∀ t : Fin cfg1.N, cond1_1 (grid1.coords t) ↔ t.val % 123 = 122 :=
  (by decide +kernel : ∀ t : Fin grid1.N, cond1_1 (grid1.coords t) ↔ t.val % 123 = 122)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1x8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev scM1 : Memref sig .tc .vmem S1024x64 .f32 := Memref.whole cc1_scratch0

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.Bits.R1Runs.lean ====
import proofs.«422453_j56642028700408_3_alg».proof.Proof.Bits.R1Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun1_A (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1x8192 .i32) (x1 : Vec F S8192x64 .f32) (xi2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 k1_pay1 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00]

set_option maxHeartbeats 1000000 in
/-- A middle block: the accumulator ends at the update of what it held. -/
theorem kernelRun1_B (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1x8192 .i32) (x1 : Vec F S8192x64 .f32) (xs0 xi2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 xs0 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]

set_option maxHeartbeats 1000000 in
/-- The last block: the accumulator likewise, and the result window, whatever it held, ends at the stage's function of it. -/
theorem kernelRun1_C (c : Dev nD) (i : grid1.Coords) (arg2 : Memref sig .tc .vmem S1x8192 .i32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1x8192 .i32) (x1 : Vec F S8192x64 .f32) (xs0 : Vec F S1024x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay3 (k1_pay2 i x0 xs0 x1)) ∗ owns (c : Thread nD τ) arg5 fullShare (k1_pay2 i x0 xs0 x1)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x64) View.off00, View.ld_unit_zero (S := S1024x64) View.off00, View.readCov_unit_zero (S := S1024x64) _ View.off00, hfs0]

end Cert.Kernel.Hand

end
-- ==== Proof.Bits.R1Dat.lean ====
import proofs.«422453_j56642028700408_3_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt1 (c : Dev nD) : (n : ℕ) → n < cfg1.N → Vec F S1024x64 .f32
  | 0, hn => k1_pay2 (grid1.coords ⟨0, hn⟩) (iblk1 V c 0 ⟨0, hn⟩) k1_pay1 (iblk1 V c 1 ⟨0, hn⟩)
  | n + 1, hn => k1_pay2 (grid1.coords ⟨n + 1, hn⟩) (iblk1 V c 0 ⟨n + 1, hn⟩) (if (n + 1) % 123 = 0 then k1_pay1 else accAt1 c n (Nat.lt_of_succ_lt hn)) (iblk1 V c 1 ⟨n + 1, hn⟩)

theorem accAt1_first (c : Dev nD) (t : Fin cfg1.N) (h0 : t.val % 123 = 0) :
    accAt1 V c t.val t.isLt = k1_pay2 (grid1.coords t) (iblk1 V c 0 t) k1_pay1 (iblk1 V c 1 t) := by
  obtain ⟨n, hn⟩ := t
  cases n with
  | zero => rfl
  | succ n => rw [accAt1, if_pos h0]

theorem accAt1_later (c : Dev nD) (t : Fin cfg1.N) (h0 : ¬t.val % 123 = 0) :
    accAt1 V c t.val t.isLt = k1_pay2 (grid1.coords t) (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h0
  | succ n => rw [accAt1, if_neg h0]; rfl

/-- Before position `n`: at the start everything the stage may touch, at anything; afterwards the accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- At any position the invariant yields the accumulator at some contents. -/
theorem PhiS1_any (c : Dev nD) (n : ℕ) (h : n ≤ cfg1.N) :
    PhiS1 V c n h ⊢ iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  cases n with
  | zero => rw [show PhiS1 V c 0 h = Pipeline.ΦA spec1 c from rfl, PhiA1_eq]
  | succ n =>
    unfold PhiS1
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point: the point's residue modulo 123 says which case it is in; the invariant hands over the accumulator and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns (c : Thread nD τ) scM1 fullShare (accAt1 V c t.val t.isLt) ∗ Pipeline.scopedRestBut (Ix := Unit) (Name := ℕ) (U := UR sig nD τ) (Lvl := ℕ) (Val := Elt F) spec1 c [cc1_scratch0]) ∗ (∃ r, prngReg c r)) from rfl,
    PhiS1_castSucc V c t, leaves1_0, leaves1_1]
  by_cases h0 : t.val % 123 = 0
  · have h1 : ¬t.val % 123 = 122 := by omega
    rw [Dat.leavesExact_idle (dat1 V c) 2 t (idleAt1_2 t (fun h => h1 ((hcond1_1 t).mp h))) (noFlush1_2 t (fun h => h1 ((hcond1_1 t).mp h)))]
    rw [accAt1_first V c t h0]
    iintro ⟨HΦ, Ho, ⟨%d0, H0⟩, ⟨%d1, H1⟩, ⟨%d2, H2⟩⟩
    ihave HΦ := PhiS1_any V c _ _ $$ HΦ
    icases HΦ with ⟨⟨HS0, Hrest⟩, Hg⟩
    iapply (kernelRun1_A c (grid1.coords t) _ _ _ _ _ _ _ _ ((hcond1_0 t).mpr h0) (fun h => h1 ((hcond1_1 t).mp h)) (iblk1 V c 0 t) (iblk1 V c 1 t) _ Set.univ _)
    iframe H0 H1 H2 HS0
    iintro ⟨H0, H1, H2, HS0⟩
    iframe HS0 Hrest Hg Ho H0 H1
    iexists _; iexact H2
  · rw [PhiS1_pos V c _ _ (fun h => h0 (by rw [h])), accAt1_later V c t h0]
    by_cases h1 : t.val % 123 = 122
    · rw [show (dat1 V c).leavesExact 2 t = owns (c : Thread nD τ) (ms1_2 t) fullShare ((dat1 V c).after 2 t) from by
        unfold Dat.leavesExact; rw [liveAt1_2 t ((hcond1_1 t).mpr h1)], after1_2, accAt1_later V c t h0]
      iintro ⟨⟨⟨HS0, Hrest⟩, Hg⟩, Ho, ⟨%d0, H0⟩, ⟨%d1, H1⟩, ⟨%d2, H2⟩⟩
      iapply (kernelRun1_C c (grid1.coords t) _ _ _ _ _ _ _ _ (fun h => h0 ((hcond1_0 t).mp h)) ((hcond1_1 t).mpr h1) (iblk1 V c 0 t) (iblk1 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat1 V c) 2 t (idleAt1_2 t (fun h => h1 ((hcond1_1 t).mp h))) (noFlush1_2 t (fun h => h1 ((hcond1_1 t).mp h)))]
      iintro ⟨⟨⟨HS0, Hrest⟩, Hg⟩, Ho, ⟨%d0, H0⟩, ⟨%d1, H1⟩, ⟨%d2, H2⟩⟩
      iapply (kernelRun1_B c (grid1.coords t) _ _ _ _ _ _ _ _ (fun h => h0 ((hcond1_0 t).mp h)) (fun h => h1 ((hcond1_1 t).mp h)) (iblk1 V c 0 t) (iblk1 V c 1 t) _ _ Set.univ _)
      iframe H0 H1 H2 HS0
      iintro ⟨H0, H1, H2, HS0⟩
      iframe HS0 Hrest Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

/-- What the stage is handed at its start is the invariant before the first point. -/
theorem hin1 (c : Dev nD) : Pipeline.ΦA spec1 c ⊢ (dat1 V c).Φ 0 := Idealize.SL.BI.Entails.refl _

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.Kernel.Hand

end
-- ==== Proof.Bits.R2Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 49 = 0 :=
  (by decide +kernel : ∀ t : Fin grid2.N, cond2_0 (grid2.coords t) ↔ t.val % 49 = 0)

abbrev cond2_1 (i : grid2.Coords) : Prop := k2_cond2 i = 1#1
theorem hcond2_1 : ∀ t : Fin cfg2.N, cond2_1 (grid2.coords t) ↔ t.val % 49 = 48 :=
  (by decide +kernel : ∀ t : Fin grid2.N, cond2_1 (grid2.coords t) ↔ t.val % 49 = 48)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev ms2_0 (t : Fin cfg2.N) : Memref sig .tc .vmem S8192x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x32 .f32 := win2_3.stage (cfg2.slots t 3)
abbrev hs2_3 (t : Fin cfg2.N) : (ms2_3 t).IsWhole := hstage2_3 ((cfg2.slots t 3).cast nbuf2_3)
abbrev scM2 : Memref sig .tc .vmem S8192x32 .f32 := Memref.whole cc2_scratch0

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.Bits.R2Runs.lean ====
import proofs.«422453_j56642028700408_3_alg».proof.Proof.Bits.R2Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun2_A (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : cond2_0 i) (hc1 : ¬cond2_1 i)
    (x0 : Vec F S8192x1 .i32) (x1 : Vec F S8192x1 .f32) (x2 : Vec F S1024x32 .f32) (xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x0 k2_pay1 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00]

set_option maxHeartbeats 1000000 in
/-- A middle block: the accumulator ends at the update of what it held. -/
theorem kernelRun2_B (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond2_0 i) (hc1 : ¬cond2_1 i)
    (x0 : Vec F S8192x1 .i32) (x1 : Vec F S8192x1 .f32) (x2 : Vec F S1024x32 .f32) (xs0 xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 i x0 xs0 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

set_option maxHeartbeats 1000000 in
/-- The last block: the accumulator likewise, and the result window, whatever it held, ends at the stage's function of it. -/
theorem kernelRun2_C (c : Dev nD) (i : grid2.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond2_0 i) (hc1 : cond2_1 i)
    (x0 : Vec F S8192x1 .i32) (x1 : Vec F S8192x1 .f32) (x2 : Vec F S1024x32 .f32) (xs0 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 i x0 xs0 x2) x1) ∗ owns (c : Thread nD τ) arg6 fullShare (k2_pay2 i x0 xs0 x2)) -∗ K ⟨⟩))
      ⊢ wp frame (wpE (defs₀ (F := F)) Variants.none c none) E (cc2__gather_kernel i arg2 harg2 arg3 harg3 arg4 harg4 arg5 harg5 arg6 harg6) K := by
  simp only [cc2__gather_kernel_eq_skeleton]; unfold cc2__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

end Cert.Kernel.Hand

end
-- ==== Proof.Bits.R2Dat.lean ====
import proofs.«422453_j56642028700408_3_alg».proof.Proof.Bits.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt2 (c : Dev nD) : (n : ℕ) → n < cfg2.N → Vec F S8192x32 .f32
  | 0, hn => k2_pay2 (grid2.coords ⟨0, hn⟩) (iblk2 V c 0 ⟨0, hn⟩) k2_pay1 (iblk2 V c 2 ⟨0, hn⟩)
  | n + 1, hn => k2_pay2 (grid2.coords ⟨n + 1, hn⟩) (iblk2 V c 0 ⟨n + 1, hn⟩) (if (n + 1) % 49 = 0 then k2_pay1 else accAt2 c n (Nat.lt_of_succ_lt hn)) (iblk2 V c 2 ⟨n + 1, hn⟩)

theorem accAt2_first (c : Dev nD) (t : Fin cfg2.N) (h0 : t.val % 49 = 0) :
    accAt2 V c t.val t.isLt = k2_pay2 (grid2.coords t) (iblk2 V c 0 t) k2_pay1 (iblk2 V c 2 t) := by
  obtain ⟨n, hn⟩ := t
  cases n with
  | zero => rfl
  | succ n => rw [accAt2, if_pos h0]

theorem accAt2_later (c : Dev nD) (t : Fin cfg2.N) (h0 : ¬t.val % 49 = 0) :
    accAt2 V c t.val t.isLt = k2_pay2 (grid2.coords t) (iblk2 V c 0 t) (accAt2 V c (t.val - 1) (Nat.lt_of_le_of_lt (Nat.sub_le _ _) t.isLt)) (iblk2 V c 2 t) := by
  obtain ⟨n, hn⟩ := t
  cases n with
  | zero => exact absurd (Nat.zero_mod _) h0
  | succ n => rw [accAt2, if_neg h0]; rfl

/-- Before position `n`: at the start everything the stage may touch, at anything; afterwards the accumulator at what the point before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- At any position the invariant yields the accumulator at some contents. -/
theorem PhiS2_any (c : Dev nD) (n : ℕ) (h : n ≤ cfg2.N) :
    PhiS2 V c n h ⊢ iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  cases n with
  | zero => rw [show PhiS2 V c 0 h = Pipeline.ΦA spec2 c from rfl, PhiA2_eq]
  | succ n =>
    unfold PhiS2
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 1 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
/-- The body at any point: the point's residue modulo 49 says which case it is in; the invariant hands over the accumulator and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = iprop(iprop(owns (c : Thread nD τ) scM2 fullShare (accAt2 V c t.val t.isLt) ∗ Pipeline.scopedRestBut (Ix := Unit) (Name := ℕ) (U := UR sig nD τ) (Lvl := ℕ) (Val := Elt F) spec2 c [cc2_scratch0]) ∗ (∃ r, prngReg c r)) from rfl,
    PhiS2_castSucc V c t, leaves2_0, leaves2_1, leaves2_2]
  by_cases h0 : t.val % 49 = 0
  · have h1 : ¬t.val % 49 = 48 := by omega
    rw [Dat.leavesExact_idle (dat2 V c) 3 t (idleAt2_3 t (fun h => h1 ((hcond2_1 t).mp h))) (noFlush2_3 t (fun h => h1 ((hcond2_1 t).mp h)))]
    rw [accAt2_first V c t h0]
    iintro ⟨HΦ, Ho, ⟨%d0, H0⟩, ⟨%d1, H1⟩, ⟨%d2, H2⟩, ⟨%d3, H3⟩⟩
    ihave HΦ := PhiS2_any V c _ _ $$ HΦ
    icases HΦ with ⟨⟨HS0, Hrest⟩, Hg⟩
    iapply (kernelRun2_A c (grid2.coords t) _ _ _ _ _ _ _ _ _ _ ((hcond2_0 t).mpr h0) (fun h => h1 ((hcond2_1 t).mp h)) (iblk2 V c 0 t) (iblk2 V c 1 t) (iblk2 V c 2 t) _ Set.univ _)
    iframe H0 H1 H2 H3 HS0
    iintro ⟨H0, H1, H2, H3, HS0⟩
    iframe HS0 Hrest Hg Ho H0 H1 H2
    iexists _; iexact H3
  · rw [PhiS2_pos V c _ _ (fun h => h0 (by rw [h])), accAt2_later V c t h0]
    by_cases h1 : t.val % 49 = 48
    · rw [show (dat2 V c).leavesExact 3 t = owns (c : Thread nD τ) (ms2_3 t) fullShare ((dat2 V c).after 3 t) from by
        unfold Dat.leavesExact; rw [liveAt2_3 t ((hcond2_1 t).mpr h1)], after2_3, accAt2_later V c t h0]
      iintro ⟨⟨⟨HS0, Hrest⟩, Hg⟩, Ho, ⟨%d0, H0⟩, ⟨%d1, H1⟩, ⟨%d2, H2⟩, ⟨%d3, H3⟩⟩
      iapply (kernelRun2_C c (grid2.coords t) _ _ _ _ _ _ _ _ _ _ (fun h => h0 ((hcond2_0 t).mp h)) ((hcond2_1 t).mpr h1) (iblk2 V c 0 t) (iblk2 V c 1 t) (iblk2 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat2 V c) 3 t (idleAt2_3 t (fun h => h1 ((hcond2_1 t).mp h))) (noFlush2_3 t (fun h => h1 ((hcond2_1 t).mp h)))]
      iintro ⟨⟨⟨HS0, Hrest⟩, Hg⟩, Ho, ⟨%d0, H0⟩, ⟨%d1, H1⟩, ⟨%d2, H2⟩, ⟨%d3, H3⟩⟩
      iapply (kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _ _ Set.univ _)
      iframe H0 H1 H2 H3 HS0
      iintro ⟨H0, H1, H2, H3, HS0⟩
      iframe HS0 Hrest Hg Ho H0 H1 H2
      iexists _; iexact H3

theorem body_obligation2 (c : Dev nD) : BodyObligation (dat2 (F := F) V c) (defs₀ (F := F)) Variants.none () Set.univ := fun t => by
  rw [bigSep_W2, bigSep_W2]
  exact sound_body2 V c t

/-- What the stage is handed at its start is the invariant before the first point. -/
theorem hin2 (c : Dev nD) : Pipeline.ΦA spec2 c ⊢ (dat2 V c).Φ 0 := Idealize.SL.BI.Entails.refl _

/-- After the last point the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.Kernel.Hand

end
-- ==== Proof.Bits.R3Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 123 = 0 :=
  (by decide +kernel : ∀ t : Fin grid3.N, cond3_0 (grid3.coords t) ↔ t.val % 123 = 0)

abbrev cond3_1 (i : grid3.Coords) : Prop := k3_cond2 i = 1#1
theorem hcond3_1 : ∀ t : Fin cfg3.N, cond3_1 (grid3.coords t) ↔ t.val % 123 = 122 :=
  (by decide +kernel : ∀ t : Fin grid3.N, cond3_1 (grid3.coords t) ↔ t.val % 123 = 122)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S1x8192 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x32 .f32 := win3_2.stage (cfg3.slots t 2)
abbrev hs3_2 (t : Fin cfg3.N) : (ms3_2 t).IsWhole := hstage3_2 ((cfg3.slots t 2).cast nbuf3_2)
abbrev scM3 : Memref sig .tc .vmem S1024x32 .f32 := Memref.whole cc3_scratch0

theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.Bits.R3Runs.lean ====
import proofs.«422453_j56642028700408_3_alg».proof.Proof.Bits.R3Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun3_A (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond3_0 i) (hc1 : ¬cond3_1 i)
    (x0 : Vec F S1x8192 .i32) (x1 : Vec F S8192x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k3_pay2 i x0 k3_pay1 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00]

set_option maxHeartbeats 1000000 in
/-- A middle block: the accumulator ends at the update of what it held. -/
theorem kernelRun3_B (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond3_0 i) (hc1 : ¬cond3_1 i)
    (x0 : Vec F S1x8192 .i32) (x1 : Vec F S8192x32 .f32) (xs0 xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k3_pay2 i x0 xs0 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

set_option maxHeartbeats 1000000 in
/-- The last block: the accumulator likewise, and the result window, whatever it held, ends at the stage's function of it. -/
theorem kernelRun3_C (c : Dev nD) (i : grid3.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond3_0 i) (hc1 : cond3_1 i)
    (x0 : Vec F S1x8192 .i32) (x1 : Vec F S8192x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k3_pay3 (k3_pay2 i x0 xs0 x1)) ∗ owns (c : Thread nD τ) arg5 fullShare (k3_pay2 i x0 xs0 x1)) -∗ K ⟨⟩))
      ⊢ wp frame (wpE (defs₀ (F := F)) Variants.none c none) E (cc3__scatter_kernel i arg2 harg2 arg3 harg3 arg4 harg4 arg5 harg5) K := by
  simp only [cc3__scatter_kernel_eq_skeleton]; unfold cc3__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

end Cert.Kernel.Hand

end
-- ==== Proof.Bits.R3Dat.lean ====
import proofs.«422453_j56642028700408_3_alg».proof.Proof.Bits.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt3 (c : Dev nD) : (n : ℕ) → n < cfg3.N → Vec F S1024x32 .f32
  | 0, hn => k3_pay2 (grid3.coords ⟨0, hn⟩) (iblk3 V c 0 ⟨0, hn⟩) k3_pay1 (iblk3 V c 1 ⟨0, hn⟩)
  | n + 1, hn => k3_pay2 (grid3.coords ⟨n + 1, hn⟩) (iblk3 V c 0 ⟨n + 1, hn⟩) (if (n + 1) % 123 = 0 then k3_pay1 else accAt3 c n (Nat.lt_of_succ_lt hn)) (iblk3 V c 1 ⟨n + 1, hn⟩)

theorem accAt3_first (c : Dev nD) (t : Fin cfg3.N) (h0 : t.val % 123 = 0) :
    accAt3 V c t.val t.isLt = k3_pay2 (grid3.coords t) (iblk3 V c 0 t) k3_pay1 (iblk3 V c 1 t) := by
  obtain ⟨n, hn⟩ := t
  cases n with
  | zero => rfl
  | succ n => rw [accAt3, if_pos h0]

theorem accAt3_later (c : Dev nD) (t : Fin cfg3.N) (h0 : ¬t.val % 123 = 0) :
    accAt3 V c t.val t.isLt = k3_pay2 (grid3.coords t) (iblk3 V c 0 t) (accAt3 V c (t.val - 1) (Nat.lt_of_le_of_lt (Nat.sub_le _ _) t.isLt)) (iblk3 V c 1 t) := by
  obtain ⟨n, hn⟩ := t
  cases n with
  | zero => exact absurd (Nat.zero_mod _) h0
  | succ n => rw [accAt3, if_neg h0]; rfl

/-- Before position `n`: at the start everything the stage may touch, at anything; afterwards the accumulator at what the point before left. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- At any position the invariant yields the accumulator at some contents. -/
theorem PhiS3_any (c : Dev nD) (n : ℕ) (h : n ≤ cfg3.N) :
    PhiS3 V c n h ⊢ iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  cases n with
  | zero => rw [show PhiS3 V c 0 h = Pipeline.ΦA spec3 c from rfl, PhiA3_eq]
  | succ n =>
    unfold PhiS3
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (accAt3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]

set_option maxHeartbeats 4800000 in
/-- The body at any point: the point's residue modulo 123 says which case it is in; the invariant hands over the accumulator and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(iprop(owns (c : Thread nD τ) scM3 fullShare (accAt3 V c t.val t.isLt) ∗ Pipeline.scopedRestBut (Ix := Unit) (Name := ℕ) (U := UR sig nD τ) (Lvl := ℕ) (Val := Elt F) spec3 c [cc3_scratch0]) ∗ (∃ r, prngReg c r)) from rfl,
    PhiS3_castSucc V c t, leaves3_0, leaves3_1]
  by_cases h0 : t.val % 123 = 0
  · have h1 : ¬t.val % 123 = 122 := by omega
    rw [Dat.leavesExact_idle (dat3 V c) 2 t (idleAt3_2 t (fun h => h1 ((hcond3_1 t).mp h))) (noFlush3_2 t (fun h => h1 ((hcond3_1 t).mp h)))]
    rw [accAt3_first V c t h0]
    iintro ⟨HΦ, Ho, ⟨%d0, H0⟩, ⟨%d1, H1⟩, ⟨%d2, H2⟩⟩
    ihave HΦ := PhiS3_any V c _ _ $$ HΦ
    icases HΦ with ⟨⟨HS0, Hrest⟩, Hg⟩
    iapply (kernelRun3_A c (grid3.coords t) _ _ _ _ _ _ _ _ ((hcond3_0 t).mpr h0) (fun h => h1 ((hcond3_1 t).mp h)) (iblk3 V c 0 t) (iblk3 V c 1 t) _ Set.univ _)
    iframe H0 H1 H2 HS0
    iintro ⟨H0, H1, H2, HS0⟩
    iframe HS0 Hrest Hg Ho H0 H1
    iexists _; iexact H2
  · rw [PhiS3_pos V c _ _ (fun h => h0 (by rw [h])), accAt3_later V c t h0]
    by_cases h1 : t.val % 123 = 122
    · rw [show (dat3 V c).leavesExact 2 t = owns (c : Thread nD τ) (ms3_2 t) fullShare ((dat3 V c).after 2 t) from by
        unfold Dat.leavesExact; rw [liveAt3_2 t ((hcond3_1 t).mpr h1)], after3_2, accAt3_later V c t h0]
      iintro ⟨⟨⟨HS0, Hrest⟩, Hg⟩, Ho, ⟨%d0, H0⟩, ⟨%d1, H1⟩, ⟨%d2, H2⟩⟩
      iapply (kernelRun3_C c (grid3.coords t) _ _ _ _ _ _ _ _ (fun h => h0 ((hcond3_0 t).mp h)) ((hcond3_1 t).mpr h1) (iblk3 V c 0 t) (iblk3 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat3 V c) 2 t (idleAt3_2 t (fun h => h1 ((hcond3_1 t).mp h))) (noFlush3_2 t (fun h => h1 ((hcond3_1 t).mp h)))]
      iintro ⟨⟨⟨HS0, Hrest⟩, Hg⟩, Ho, ⟨%d0, H0⟩, ⟨%d1, H1⟩, ⟨%d2, H2⟩⟩
      iapply (kernelRun3_B c (grid3.coords t) _ _ _ _ _ _ _ _ (fun h => h0 ((hcond3_0 t).mp h)) (fun h => h1 ((hcond3_1 t).mp h)) (iblk3 V c 0 t) (iblk3 V c 1 t) _ _ Set.univ _)
      iframe H0 H1 H2 HS0
      iintro ⟨H0, H1, H2, HS0⟩
      iframe HS0 Hrest Hg Ho H0 H1
      iexists _; iexact H2

theorem body_obligation3 (c : Dev nD) : BodyObligation (dat3 (F := F) V c) (defs₀ (F := F)) Variants.none () Set.univ := fun t => by
  rw [bigSep_W3, bigSep_W3]
  exact sound_body3 V c t

/-- What the stage is handed at its start is the invariant before the first point. -/
theorem hin3 (c : Dev nD) : Pipeline.ΦA spec3 c ⊢ (dat3 V c).Φ 0 := Idealize.SL.BI.Entails.refl _

/-- After the last point the invariant gives the same back, the accumulator's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiA3_eq]
  exact PhiS3_any V c _ _

end Cert.Kernel.Hand

end
-- ==== Proof.Bits.R4Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 49 = 0 :=
  (by decide +kernel : ∀ t : Fin grid4.N, cond4_0 (grid4.coords t) ↔ t.val % 49 = 0)

abbrev cond4_1 (i : grid4.Coords) : Prop := k4_cond2 i = 1#1
theorem hcond4_1 : ∀ t : Fin cfg4.N, cond4_1 (grid4.coords t) ↔ t.val % 49 = 48 :=
  (by decide +kernel : ∀ t : Fin grid4.N, cond4_1 (grid4.coords t) ↔ t.val % 49 = 48)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S8192x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S8192x32 .f32 := win4_3.stage (cfg4.slots t 3)
abbrev hs4_3 (t : Fin cfg4.N) : (ms4_3 t).IsWhole := hstage4_3 ((cfg4.slots t 3).cast nbuf4_3)
abbrev scM4 : Memref sig .tc .vmem S8192x32 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.Kernel.Hand

end
-- ==== Proof.Bits.R4Runs.lean ====
import proofs.«422453_j56642028700408_3_alg».proof.Proof.Bits.R4Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun4_A (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : cond4_0 i) (hc1 : ¬cond4_1 i)
    (x0 : Vec F S8192x1 .i32) (x1 : Vec F S8192x1 .f32) (x2 : Vec F S1024x32 .f32) (xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k4_pay2 i x0 k4_pay1 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00]

set_option maxHeartbeats 1000000 in
/-- A middle block: the accumulator ends at the update of what it held. -/
theorem kernelRun4_B (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond4_0 i) (hc1 : ¬cond4_1 i)
    (x0 : Vec F S8192x1 .i32) (x1 : Vec F S8192x1 .f32) (x2 : Vec F S1024x32 .f32) (xs0 xi3 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k4_pay2 i x0 xs0 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]; · iexists _; iframe H3; ipureintro; exact hf3
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

set_option maxHeartbeats 1000000 in
/-- The last block: the accumulator likewise, and the result window, whatever it held, ends at the stage's function of it. -/
theorem kernelRun4_C (c : Dev nD) (i : grid4.Coords) (arg2 : Memref sig .tc .vmem S8192x1 .i32) (harg2 : arg2.IsWhole) (arg3 : Memref sig .tc .vmem S8192x1 .f32) (harg3 : arg3.IsWhole) (arg4 : Memref sig .tc .vmem S1024x32 .f32) (harg4 : arg4.IsWhole) (arg5 : Memref sig .tc .vmem S8192x32 .f32) (harg5 : arg5.IsWhole) (arg6 : Memref sig .tc .vmem S8192x32 .f32) (harg6 : arg6.IsWhole) (hc0 : ¬cond4_0 i) (hc1 : cond4_1 i)
    (x0 : Vec F S8192x1 .i32) (x1 : Vec F S8192x1 .f32) (x2 : Vec F S1024x32 .f32) (xs0 : Vec F S8192x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k4_pay3 (k4_pay2 i x0 xs0 x2) x1) ∗ owns (c : Thread nD τ) arg6 fullShare (k4_pay2 i x0 xs0 x2)) -∗ K ⟨⟩))
      ⊢ wp frame (wpE (defs₀ (F := F)) Variants.none c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  isplitl [H3]
  · iexists _; iframe H3; ipureintro
    refine (View.read_store_whole _ _ View.off00 _ _ _).trans ?_
    sl_unfold_words
    simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]
  iexists _; iframe HS0; ipureintro
  refine (View.read_store_whole _ _ View.off00 _ _ _).trans ?_
  sl_unfold_words
  simp only [View.readAt_eq_ld, hf0, hf1, hf2, View.ld_unit_zero (S := S8192x1) View.off00, View.ld_unit_zero (S := S1024x32) View.off00, View.ld_unit_zero (S := S8192x32) View.off00, View.readCov_unit_zero (S := S8192x32) _ View.off00, hfs0]

end Cert.Kernel.Hand

end
-- ==== Proof.Bits.R4Dat.lean ====
import proofs.«422453_j56642028700408_3_alg».proof.Proof.Bits.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt4 (c : Dev nD) : (n : ℕ) → n < cfg4.N → Vec F S8192x32 .f32
  | 0, hn => k4_pay2 (grid4.coords ⟨0, hn⟩) (iblk4 V c 0 ⟨0, hn⟩) k4_pay1 (iblk4 V c 2 ⟨0, hn⟩)
  | n + 1, hn => k4_pay2 (grid4.coords ⟨n + 1, hn⟩) (iblk4 V c 0 ⟨n + 1, hn⟩) (if (n + 1) % 49 = 0 then k4_pay1 else accAt4 c n (Nat.lt_of_succ_lt hn)) (iblk4 V c 2 ⟨n + 1, hn⟩)

theorem accAt4_first (c : Dev nD) (t : Fin cfg4.N) (h0 : t.val % 49 = 0) :
    accAt4 V c t.val t.isLt = k4_pay2 (grid4.coords t) (iblk4 V c 0 t) k4_pay1 (iblk4 V c 2 t) := by
  obtain ⟨n, hn⟩ := t
  cases n with
  | zero => rfl
  | succ n => rw [accAt4, if_pos h0]

theorem accAt4_later (c : Dev nD) (t : Fin cfg4.N) (h0 : ¬t.val % 49 = 0) :
    accAt4 V c t.val t.isLt = k4_pay2 (grid4.coords t) (iblk4 V c 0 t) (accAt4 V c (t.val - 1) (Nat.lt_of_le_of_lt (Nat.sub_le _ _) t.isLt)) (iblk4 V c 2 t) := by
  obtain ⟨n, hn⟩ := t
  cases n with
  | zero => exact absurd (Nat.zero_mod _) h0
  | succ n => rw [accAt4, if_neg h0]; rfl

/-- Before position `n`: at the start everything the stage may touch, at anything; afterwards the accumulator at what the point before left. -/
def PhiS4 (c : Dev nD) : (n : ℕ) → n ≤ cfg4.N → sProp 𝕄
  | 0, _ => Pipeline.ΦA spec4 c
  | n + 1, hn => iprop(iprop(owns (c : Thread nD τ) scM4 fullShare (accAt4 V c n hn) ∗ Pipeline.scopedRestBut (Ix := Unit) (Name := ℕ) (U := UR sig nD τ) (Lvl := ℕ) (Val := Elt F) spec4 c [cc4_scratch0]) ∗ (∃ r, prngReg c r))

theorem PhiS4_pos (c : Dev nD) (n : ℕ) (h : n ≤ cfg4.N) (hz : n ≠ 0) :
    PhiS4 V c n h = iprop(iprop(owns (c : Thread nD τ) scM4 fullShare (accAt4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- At any position the invariant yields the accumulator at some contents. -/
theorem PhiS4_any (c : Dev nD) (n : ℕ) (h : n ≤ cfg4.N) :
    PhiS4 V c n h ⊢ iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  cases n with
  | zero => rw [show PhiS4 V c 0 h = Pipeline.ΦA spec4 c from rfl, PhiA4_eq]
  | succ n =>
    unfold PhiS4
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (accAt4 V c t.val t.isLt) (iblk4 V c 1 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (accAt4 V c t.val t.isLt) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
/-- The body at any point: the point's residue modulo 49 says which case it is in; the invariant hands over the accumulator and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = iprop(iprop(owns (c : Thread nD τ) scM4 fullShare (accAt4 V c t.val t.isLt) ∗ Pipeline.scopedRestBut (Ix := Unit) (Name := ℕ) (U := UR sig nD τ) (Lvl := ℕ) (Val := Elt F) spec4 c [cc4_scratch0]) ∗ (∃ r, prngReg c r)) from rfl,
    PhiS4_castSucc V c t, leaves4_0, leaves4_1, leaves4_2]
  by_cases h0 : t.val % 49 = 0
  · have h1 : ¬t.val % 49 = 48 := by omega
    rw [Dat.leavesExact_idle (dat4 V c) 3 t (idleAt4_3 t (fun h => h1 ((hcond4_1 t).mp h))) (noFlush4_3 t (fun h => h1 ((hcond4_1 t).mp h)))]
    rw [accAt4_first V c t h0]
    iintro ⟨HΦ, Ho, ⟨%d0, H0⟩, ⟨%d1, H1⟩, ⟨%d2, H2⟩, ⟨%d3, H3⟩⟩
    ihave HΦ := PhiS4_any V c _ _ $$ HΦ
    icases HΦ with ⟨⟨HS0, Hrest⟩, Hg⟩
    iapply (kernelRun4_A c (grid4.coords t) _ _ _ _ _ _ _ _ _ _ ((hcond4_0 t).mpr h0) (fun h => h1 ((hcond4_1 t).mp h)) (iblk4 V c 0 t) (iblk4 V c 1 t) (iblk4 V c 2 t) _ Set.univ _)
    iframe H0 H1 H2 H3 HS0
    iintro ⟨H0, H1, H2, H3, HS0⟩
    iframe HS0 Hrest Hg Ho H0 H1 H2
    iexists _; iexact H3
  · rw [PhiS4_pos V c _ _ (fun h => h0 (by rw [h])), accAt4_later V c t h0]
    by_cases h1 : t.val % 49 = 48
    · rw [show (dat4 V c).leavesExact 3 t = owns (c : Thread nD τ) (ms4_3 t) fullShare ((dat4 V c).after 3 t) from by
        unfold Dat.leavesExact; rw [liveAt4_3 t ((hcond4_1 t).mpr h1)], after4_3, accAt4_later V c t h0]
      iintro ⟨⟨⟨HS0, Hrest⟩, Hg⟩, Ho, ⟨%d0, H0⟩, ⟨%d1, H1⟩, ⟨%d2, H2⟩, ⟨%d3, H3⟩⟩
      iapply (kernelRun4_C c (grid4.coords t) _ _ _ _ _ _ _ _ _ _ (fun h => h0 ((hcond4_0 t).mp h)) ((hcond4_1 t).mpr h1) (iblk4 V c 0 t) (iblk4 V c 1 t) (iblk4 V c 2 t) _ Set.univ _)
      iframe H0 H1 H2 HS0
      isplitl [H3]; · iexists _; iexact H3
      iintro ⟨H0, H1, H2, H3, HS0⟩
      iframe HS0 Hrest Hg Ho H0 H1 H2 H3
    · rw [Dat.leavesExact_idle (dat4 V c) 3 t (idleAt4_3 t (fun h => h1 ((hcond4_1 t).mp h))) (noFlush4_3 t (fun h => h1 ((hcond4_1 t).mp h)))]
      iintro ⟨⟨⟨HS0, Hrest⟩, Hg⟩, Ho, ⟨%d0, H0⟩, ⟨%d1, H1⟩, ⟨%d2, H2⟩, ⟨%d3, H3⟩⟩
      iapply (kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _ _ Set.univ _)
      iframe H0 H1 H2 H3 HS0
      iintro ⟨H0, H1, H2, H3, HS0⟩
      iframe HS0 Hrest Hg Ho H0 H1 H2
      iexists _; iexact H3

theorem body_obligation4 (c : Dev nD) : BodyObligation (dat4 (F := F) V c) (defs₀ (F := F)) Variants.none () Set.univ := fun t => by
  rw [bigSep_W4, bigSep_W4]
  exact sound_body4 V c t

/-- What the stage is handed at its start is the invariant before the first point. -/
theorem hin4 (c : Dev nD) : Pipeline.ΦA spec4 c ⊢ (dat4 V c).Φ 0 := Idealize.SL.BI.Entails.refl _

/-- After the last point the invariant gives the same back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl, PhiA4_eq]
  exact PhiS4_any V c _ _

end Cert.Kernel.Hand

end
-- ==== Proof.Bits.R5Kit.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 123 = 0 :=
  (by decide +kernel : ∀ t : Fin grid5.N, cond5_0 (grid5.coords t) ↔ t.val % 123 = 0)

abbrev cond5_1 (i : grid5.Coords) : Prop := k5_cond2 i = 1#1
theorem hcond5_1 : ∀ t : Fin cfg5.N, cond5_1 (grid5.coords t) ↔ t.val % 123 = 122 :=
  (by decide +kernel : ∀ t : Fin grid5.N, cond5_1 (grid5.coords t) ↔ t.val % 123 = 122)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

abbrev ms5_0 (t : Fin cfg5.N) : Memref sig .tc .vmem S1x8192 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8192x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x32 .f32 := win5_2.stage (cfg5.slots t 2)
abbrev hs5_2 (t : Fin cfg5.N) : (ms5_2 t).IsWhole := hstage5_2 ((cfg5.slots t 2).cast nbuf5_2)
abbrev scM5 : Memref sig .tc .vmem S1024x32 .f32 := Memref.whole cc5_scratch0

theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.Kernel.Hand

end
-- ==== Proof.Bits.R5Runs.lean ====
import proofs.«422453_j56642028700408_3_alg».proof.Proof.Bits.R5Kit
import proofs.«422453_j56642028700408_3_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block of a walk: the accumulator, whatever it held, ends at the update of zero; the inputs and the result window are only read. -/
theorem kernelRun5_A (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond5_0 i) (hc1 : ¬cond5_1 i)
    (x0 : Vec F S1x8192 .i32) (x1 : Vec F S8192x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 i x0 k5_pay1 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00]

set_option maxHeartbeats 1000000 in
/-- A middle block: the accumulator ends at the update of what it held. -/
theorem kernelRun5_B (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond5_0 i) (hc1 : ¬cond5_1 i)
    (x0 : Vec F S1x8192 .i32) (x1 : Vec F S8192x32 .f32) (xs0 xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k5_pay2 i x0 xs0 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]; · iexists _; iframe H2; ipureintro; exact hf2
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

set_option maxHeartbeats 1000000 in
/-- The last block: the accumulator likewise, and the result window, whatever it held, ends at the stage's function of it. -/
theorem kernelRun5_C (c : Dev nD) (i : grid5.Coords) (arg2 : Memref sig .tc .vmem S1x8192 .i32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond5_0 i) (hc1 : cond5_1 i)
    (x0 : Vec F S1x8192 .i32) (x1 : Vec F S8192x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k5_pay3 (k5_pay2 i x0 xs0 x1)) ∗ owns (c : Thread nD τ) arg5 fullShare (k5_pay2 i x0 xs0 x1)) -∗ K ⟨⟩))
      ⊢ wp frame (wpE (defs₀ (F := F)) Variants.none c none) E (cc5__scatter_kernel i arg2 harg2 arg3 harg3 arg4 harg4 arg5 harg5) K := by
  simp only [cc5__scatter_kernel_eq_skeleton]; unfold cc5__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]; · iexists _; iframe H0; ipureintro; exact hf0
  isplitl [H1]; · iexists _; iframe H1; ipureintro; exact hf1
  isplitl [H2]
  · iexists _; iframe H2; ipureintro
    refine (View.read_store_whole _ _ View.off00 _ _ _).trans ?_
    sl_unfold_words
    simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]
  iexists _; iframe HS0; ipureintro
  refine (View.read_store_whole _ _ View.off00 _ _ _).trans ?_
  sl_unfold_words
  simp only [View.readAt_eq_ld, hf0, hf1, View.ld_unit_zero (S := S1x8192) View.off00, View.ld_unit_zero (S := S8192x32) View.off00, View.ld_unit_zero (S := S1024x32) View.off00, View.readCov_unit_zero (S := S1024x32) _ View.off00, hfs0]

end Cert.Kernel.Hand

end
-- ==== Proof.Bits.R5Dat.lean ====
import proofs.«422453_j56642028700408_3_alg».proof.Proof.Bits.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: the point's update of zero at the first block of a walk, of what the point before left otherwise. -/
def accAt5 (c : Dev nD) : (n : ℕ) → n < cfg5.N → Vec F S1024x32 .f32
  | 0, hn => k5_pay2 (grid5.coords ⟨0, hn⟩) (iblk5 V c 0 ⟨0, hn⟩) k5_pay1 (iblk5 V c 1 ⟨0, hn⟩)
  | n + 1, hn => k5_pay2 (grid5.coords ⟨n + 1, hn⟩) (iblk5 V c 0 ⟨n + 1, hn⟩) (if (n + 1) % 123 = 0 then k5_pay1 else accAt5 c n (Nat.lt_of_succ_lt hn)) (iblk5 V c 1 ⟨n + 1, hn⟩)

theorem accAt5_first (c : Dev nD) (t : Fin cfg5.N) (h0 : t.val % 123 = 0) :
    accAt5 V c t.val t.isLt = k5_pay2 (grid5.coords t) (iblk5 V c 0 t) k5_pay1 (iblk5 V c 1 t) := by
  obtain ⟨n, hn⟩ := t
  cases n with
  | zero => rfl
  | succ n => rw [accAt5, if_pos h0]

theorem accAt5_later (c : Dev nD) (t : Fin cfg5.N) (h0 : ¬t.val % 123 = 0) :
    accAt5 V c t.val t.isLt = k5_pay2 (grid5.coords t) (iblk5 V c 0 t) (accAt5 V c (t.val - 1) (Nat.lt_of_le_of_lt (Nat.sub_le _ _) t.isLt)) (iblk5 V c 1 t) := by
  obtain ⟨n, hn⟩ := t
  cases n with
  | zero => exact absurd (Nat.zero_mod _) h0
  | succ n => rw [accAt5, if_neg h0]; rfl

/-- Before position `n`: at the start everything the stage may touch, at anything; afterwards the accumulator at what the point before left. -/
def PhiS5 (c : Dev nD) : (n : ℕ) → n ≤ cfg5.N → sProp 𝕄
  | 0, _ => Pipeline.ΦA spec5 c
  | n + 1, hn => iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r))

theorem PhiS5_pos (c : Dev nD) (n : ℕ) (h : n ≤ cfg5.N) (hz : n ≠ 0) :
    PhiS5 V c n h = iprop(iprop(owns (c : Thread nD τ) scM5 fullShare (accAt5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- At any position the invariant yields the accumulator at some contents. -/
theorem PhiS5_any (c : Dev nD) (n : ℕ) (h : n ≤ cfg5.N) :
    PhiS5 V c n h ⊢ iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  cases n with
  | zero => rw [show PhiS5 V c 0 h = Pipeline.ΦA spec5 c from rfl, PhiA5_eq]
  | succ n =>
    unfold PhiS5
    iintro ⟨⟨HS0, Hrest⟩, Hg⟩
    iframe Hrest Hg
    iexists _; iexact HS0

/-- The stage's proof data on core `c`, from the arrays it finds (`V`): each input's buffer stays at its block; the result window holds the stage's function of the accumulator (consulted only where it is written back). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c t.val t.isLt) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

theorem leaves5_0 (c : Dev nD) (t : Fin cfg5.N) : (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) : (dat5 V c).leavesExact 1 t = owns (c : Thread nD τ) (ms5_1 t) fullShare (iblk5 V c 1 t) := by
  unfold Dat.leavesExact; rw [liveAt5_1 t, after5_1]

set_option maxHeartbeats 4800000 in
/-- The body at any point: the point's residue modulo 123 says which case it is in; the invariant hands over the accumulator and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.succ = iprop(iprop(owns (c : Thread nD τ) scM5 fullShare (accAt5 V c t.val t.isLt) ∗ Pipeline.scopedRestBut (Ix := Unit) (Name := ℕ) (U := UR sig nD τ) (Lvl := ℕ) (Val := Elt F) spec5 c [cc5_scratch0]) ∗ (∃ r, prngReg c r)) from rfl,
    PhiS5_castSucc V c t, leaves5_0, leaves5_1]
  by_cases h0 : t.val % 123 = 0
  · have h1 : ¬t.val % 123 = 122 := by omega
    rw [Dat.leavesExact_idle (dat5 V c) 2 t (idleAt5_2 t (fun h => h1 ((hcond5_1 t).mp h))) (noFlush5_2 t (fun h => h1 ((hcond5_1 t).mp h)))]
    rw [accAt5_first V c t h0]
    iintro ⟨HΦ, Ho, ⟨%d0, H0⟩, ⟨%d1, H1⟩, ⟨%d2, H2⟩⟩
    ihave HΦ := PhiS5_any V c _ _ $$ HΦ
    icases HΦ with ⟨⟨HS0, Hrest⟩, Hg⟩
    iapply (kernelRun5_A c (grid5.coords t) _ _ _ _ _ _ _ _ ((hcond5_0 t).mpr h0) (fun h => h1 ((hcond5_1 t).mp h)) (iblk5 V c 0 t) (iblk5 V c 1 t) _ Set.univ _)
    iframe H0 H1 H2 HS0
    iintro ⟨H0, H1, H2, HS0⟩
    iframe HS0 Hrest Hg Ho H0 H1
    iexists _; iexact H2
  · rw [PhiS5_pos V c _ _ (fun h => h0 (by rw [h])), accAt5_later V c t h0]
    by_cases h1 : t.val % 123 = 122
    · rw [show (dat5 V c).leavesExact 2 t = owns (c : Thread nD τ) (ms5_2 t) fullShare ((dat5 V c).after 2 t) from by
        unfold Dat.leavesExact; rw [liveAt5_2 t ((hcond5_1 t).mpr h1)], after5_2, accAt5_later V c t h0]
      iintro ⟨⟨⟨HS0, Hrest⟩, Hg⟩, Ho, ⟨%d0, H0⟩, ⟨%d1, H1⟩, ⟨%d2, H2⟩⟩
      iapply (kernelRun5_C c (grid5.coords t) _ _ _ _ _ _ _ _ (fun h => h0 ((hcond5_0 t).mp h)) ((hcond5_1 t).mpr h1) (iblk5 V c 0 t) (iblk5 V c 1 t) _ Set.univ _)
      iframe H0 H1 HS0
      isplitl [H2]; · iexists _; iexact H2
      iintro ⟨H0, H1, H2, HS0⟩
      iframe HS0 Hrest Hg Ho H0 H1 H2
    · rw [Dat.leavesExact_idle (dat5 V c) 2 t (idleAt5_2 t (fun h => h1 ((hcond5_1 t).mp h))) (noFlush5_2 t (fun h => h1 ((hcond5_1 t).mp h)))]
      iintro ⟨⟨⟨HS0, Hrest⟩, Hg⟩, Ho, ⟨%d0, H0⟩, ⟨%d1, H1⟩, ⟨%d2, H2⟩⟩
      iapply (kernelRun5_B c (grid5.coords t) _ _ _ _ _ _ _ _ (fun h => h0 ((hcond5_0 t).mp h)) (fun h => h1 ((hcond5_1 t).mp h)) (iblk5 V c 0 t) (iblk5 V c 1 t) _ _ Set.univ _)
      iframe H0 H1 H2 HS0
      iintro ⟨H0, H1, H2, HS0⟩
      iframe HS0 Hrest Hg Ho H0 H1
      iexists _; iexact H2

theorem body_obligation5 (c : Dev nD) : BodyObligation (dat5 (F := F) V c) (defs₀ (F := F)) Variants.none () Set.univ := fun t => by
  rw [bigSep_W5, bigSep_W5]
  exact sound_body5 V c t

/-- What the stage is handed at its start is the invariant before the first point. -/
theorem hin5 (c : Dev nD) : Pipeline.ΦA spec5 c ⊢ (dat5 V c).Φ 0 := Idealize.SL.BI.Entails.refl _

/-- After the last point the invariant gives the same back, the accumulator's contents forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  exact PhiS5_any V c _ _

end Cert.Kernel.Hand

end
-- ==== Proof.Bits.R6Final.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- At every point, what the body finds for each input is that input's block of the array the stage was entered with. -/
theorem before6_of {c : Dev nD} (dat : Dat τ (Elt F) Unit ℕ (UR sig nD τ) ℕ cfg6 c) (hA : ∀ w, dat.A w = V c (Pipeline.arrRef spec6 w)) (t : Fin cfg6.N) :
    ((∀ t, dat.after 0 t = iblk6 V c 0 t) → ∀ d, dat.before 0 t d = iblk6 V c 0 t)
    ∧ ((∀ t, dat.after 1 t = iblk6 V c 1 t) → ∀ d, dat.before 1 t d = iblk6 V c 1 t)
    ∧ ((∀ t, dat.after 2 t = iblk6 V c 2 t) → ∀ d, dat.before 2 t d = iblk6 V c 2 t)
    ∧ ((∀ t, dat.after 3 t = iblk6 V c 3 t) → ∀ d, dat.before 3 t d = iblk6 V c 3 t)
    ∧ ((∀ t, dat.after 4 t = iblk6 V c 4 t) → ∀ d, dat.before 4 t d = iblk6 V c 4 t)
    ∧ ((∀ t, dat.after 5 t = iblk6 V c 5 t) → ∀ d, dat.before 5 t d = iblk6 V c 5 t)
    ∧ ((∀ t, dat.after 6 t = iblk6 V c 6 t) → ∀ d, dat.before 6 t d = iblk6 V c 6 t)
    ∧ ((∀ t, dat.after 7 t = iblk6 V c 7 t) → ∀ d, dat.before 7 t d = iblk6 V c 7 t)
    ∧ ((∀ t, dat.after 8 t = iblk6 V c 8 t) → ∀ d, dat.before 8 t d = iblk6 V c 8 t) := by
  refine ⟨?_, ?_, ?_, ?_, ?_, ?_, ?_, ?_, ?_⟩ <;> exact fun hafter d =>
    (dat.before_in_eq_fetched _ rfl (fun _ => rfl) (fun _ _ _ => rfl) (fun t => by rw [hafter]; unfold Dat.blockOf iblk6; rw [hA]; try rfl) t d).trans
      (by unfold Dat.fetched Dat.blockOf iblk6; rw [hA]; try rfl)

abbrev rT6 : Rect S2000x1024 := Rect.unit (s := S2000x1024) ![0, 0] S2000x1024.size inb_S2000x1024_S2000x1024_0_0
abbrev rNf6 : Rect S2000x32 := Rect.unit (s := S2000x32) ![0, 0] S2000x32.size inb_S2000x32_S2000x32_0_0
abbrev rEh6 : Rect S1024x32 := Rect.unit (s := S1024x32) ![0, 0] S1024x32.size inb_S1024x32_S1024x32_0_0
abbrev rSq6 : Rect S32x32 := Rect.unit (s := S32x32) ![0, 0] S32x32.size inb_S32x32_S32x32_0_0
abbrev rB6 : Rect S1x32 := Rect.unit (s := S1x32) ![0, 0] S1x32.size inb_S1x32_S1x32_0_0
abbrev rWc6 : Rect S32x2 := Rect.unit (s := S32x2) ![0, 0] S32x2.size inb_S32x2_S32x2_0_0
abbrev rBc6 : Rect S1x2 := Rect.unit (s := S1x2) ![0, 0] S1x2.size inb_S1x2_S1x2_0_0
abbrev rOut6 : Rect S2000x2 := Rect.unit (s := S2000x2) ![0, 0] S2000x2.size inb_S2000x2_S2000x2_0_0

abbrev logitsBlk6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : FVec F S2000x2 .f32 :=
  k6_pay2 (View.ld x0 rT6) (View.ld x2 rEh6) (View.ld x1 rNf6) (View.ld x3 rSq6) (View.ld x4 rB6) (View.ld x5 rSq6) (View.ld x6 rB6) (View.ld x7 rWc6) (View.ld x8 rBc6)

abbrev rowMaxBlk6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : FVec F S2000 .f32 :=
  k6_pay3 (View.ld x0 rT6) (View.ld x2 rEh6) (View.ld x1 rNf6) (View.ld x3 rSq6) (View.ld x4 rB6) (View.ld x5 rSq6) (View.ld x6 rB6) (View.ld x7 rWc6) (View.ld x8 rBc6)

/-- What the body leaves in the output block: the one store, over the whole block, of the row softmax of the logits. -/
def out6 (x0 : Vec F S2000x1024 .f32) (x1 : Vec F S2000x32 .f32) (x2 : Vec F S1024x32 .f32) (x3 : Vec F S32x32 .f32)
    (x4 : Vec F S1x32 .f32) (x5 : Vec F S32x32 .f32) (x6 : Vec F S1x32 .f32) (x7 : Vec F S32x2 .f32) (x8 : Vec F S1x2 .f32) : Vec F S2000x2 .f32 :=
  View.canon [⟨rOut6, k6_pay1 (logitsBlk6 x0 x1 x2 x3 x4 x5 x6 x7 x8) (rowMaxBlk6 x0 x1 x2 x3 x4 x5 x6 x7 x8) (k6_pay4 (F := F))⟩]

theorem cover6 (p : Vec F S2000x2 .f32) (y : S2000x2.Idx) :
    ∃ pc ∈ ([⟨rOut6, p⟩] : List (View.Piece (Elt F) S2000x2 .f32)), y ∈ pc.1.set :=
  View.cover_of_tiled [⟨rOut6, p⟩] S2000x2.size (by rfl) y

set_option maxHeartbeats 4000000 in
/-- The body's triple on whole buffers: nine whole loads and one whole store, the inputs left as they were. -/
theorem sound_kernel6 (c : Dev nD) (E : Set ℕ) (i : grid6.Coords) (arg0 : Memref sig .tc .vmem S2000x1024 .f32) (harg0 : arg0.IsWhole) (arg1 : Memref sig .tc .vmem S2000x32 .f32) (harg1 : arg1.IsWhole) (arg2 : Memref sig .tc .vmem S1024x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x2 .f32) (harg7 : arg7.IsWhole) (arg8 : Memref sig .tc .vmem S1x2 .f32) (harg8 : arg8.IsWhole) (arg9 : Memref sig .tc .vmem S2000x2 .f32) (harg9 : arg9.IsWhole)
    (x0 : Vec F S2000x1024 .f32) (x1 : Vec F S2000x32 .f32) (x2 : Vec F S1024x32 .f32) (x3 : Vec F S32x32 .f32) (x4 : Vec F S1x32 .f32) (x5 : Vec F S32x32 .f32) (x6 : Vec F S1x32 .f32) (x7 : Vec F S32x2 .f32) (x8 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6 x0 x1 x2 x3 x4 x5 x6 x7 x8)) -∗ K ⟨⟩))
      ⊢ wp frame (wpE (defs₀ (F := F)) Variants.none c none) E (cc6__final_kernel i arg0 harg0 arg1 harg1 arg2 harg2 arg3 harg3 arg4 harg4 arg5 harg5 arg6 harg6 arg7 harg7 arg8 harg8 arg9 harg9) K := by
  simp only [cc6__final_kernel_eq_skeleton, k6_part1_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- The body at any point: the inputs' buffers hold their blocks, so the body's triple applies; the invariant and what the core owes pass through unread. -/
theorem body_obligation6 (c : Dev nD) : BodyObligation (dat6 (F := F) V c) (defs₀ (F := F)) Variants.none () Set.univ := fun t => by
  obtain ⟨b0, b1, b2, b3, b4, b5, b6, b7, b8⟩ := before6_of V (dat6 V c) (A_eq6 V c) t
  rw [bigSep_W6, bigSep_W6]
  simp only [b0 (after6_0 V c), b1 (after6_1 V c), b2 (after6_2 V c), b3 (after6_3 V c), b4 (after6_4 V c), b5 (after6_5 V c), b6 (after6_6 V c), b7 (after6_7 V c), b8 (after6_8 V c)]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  iintro H
  iframe

end Cert.Kernel.Hand

end
-- ==== Proof.Bits.Chain.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import proofs.«422453_j56642028700408_3_alg».proof.Proof.Gen.Kernel.Regions
import proofs.«422453_j56642028700408_3_alg».proof.Proof.Bits.R0Dat
import proofs.«422453_j56642028700408_3_alg».proof.Proof.Bits.R1Dat
import proofs.«422453_j56642028700408_3_alg».proof.Proof.Bits.R2Dat
import proofs.«422453_j56642028700408_3_alg».proof.Proof.Bits.R3Dat
import proofs.«422453_j56642028700408_3_alg».proof.Proof.Bits.R4Dat
import proofs.«422453_j56642028700408_3_alg».proof.Proof.Bits.R5Dat
import proofs.«422453_j56642028700408_3_alg».proof.Proof.Bits.R6Final
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev E0 (c : Dev nD) (b : Ref sig .tc) : Buf (Elt F) ((c : Thread nD τ).loc b) := V8 m c b
/-- What each stage leaves in its result array, from the contents it is entered with; so each is a function of the launch memory alone. -/
def res0 (c : Dev nD) : Buf (Elt F) ((c : Thread nD τ).loc main_v15) := (dat0 (E0 m) c).arrAt 3 cfg0.N
abbrev P9 (c : Dev nD) : Valuation τ sig (Elt F) := Function.update (V8 m c) main_v15 (res0 m c)
abbrev E1 (c : Dev nD) (b : Ref sig .tc) : Buf (Elt F) ((c : Thread nD τ).loc b) := P9 m c b
def res1 (c : Dev nD) : Buf (Elt F) ((c : Thread nD τ).loc main_v16) := (dat1 (E1 m) c).arrAt 2 cfg1.N
abbrev P10 (c : Dev nD) : Valuation τ sig (Elt F) := Function.update (P9 m c) main_v16 (res1 m c)
abbrev P11 (c : Dev nD) : Valuation τ sig (Elt F) := StableHlo.after hostOps2 (P10 m c)
abbrev P12 (c : Dev nD) : Valuation τ sig (Elt F) := StableHlo.after hostOps2_1 (P11 m c)
abbrev P13 (c : Dev nD) : Valuation τ sig (Elt F) := StableHlo.after hostOps2_2 (P12 m c)
abbrev P14 (c : Dev nD) : Valuation τ sig (Elt F) := StableHlo.after hostOps2_3 (P13 m c)
abbrev P15 (c : Dev nD) : Valuation τ sig (Elt F) := StableHlo.after hostOps2_4 (P14 m c)
abbrev P16 (c : Dev nD) : Valuation τ sig (Elt F) := StableHlo.after hostOps2_5 (P15 m c)
abbrev P17 (c : Dev nD) : Valuation τ sig (Elt F) := StableHlo.after hostOps2_6 (P16 m c)
abbrev P18 (c : Dev nD) : Valuation τ sig (Elt F) := StableHlo.after hostOps2_7 (P17 m c)
abbrev E2 (c : Dev nD) (b : Ref sig .tc) : Buf (Elt F) ((c : Thread nD τ).loc b) := P18 m c b
def res2 (c : Dev nD) : Buf (Elt F) ((c : Thread nD τ).loc main_v29) := (dat2 (E2 m) c).arrAt 3 cfg2.N
abbrev P19 (c : Dev nD) : Valuation τ sig (Elt F) := Function.update (P18 m c) main_v29 (res2 m c)
abbrev E3 (c : Dev nD) (b : Ref sig .tc) : Buf (Elt F) ((c : Thread nD τ).loc b) := P19 m c b
def res3 (c : Dev nD) : Buf (Elt F) ((c : Thread nD τ).loc main_v30) := (dat3 (E3 m) c).arrAt 2 cfg3.N
abbrev P20 (c : Dev nD) : Valuation τ sig (Elt F) := Function.update (P19 m c) main_v30 (res3 m c)
abbrev P21 (c : Dev nD) : Valuation τ sig (Elt F) := StableHlo.after hostOps4 (P20 m c)
abbrev P22 (c : Dev nD) : Valuation τ sig (Elt F) := StableHlo.after hostOps4_1 (P21 m c)
abbrev P23 (c : Dev nD) : Valuation τ sig (Elt F) := StableHlo.after hostOps4_2 (P22 m c)
abbrev P24 (c : Dev nD) : Valuation τ sig (Elt F) := StableHlo.after hostOps4_3 (P23 m c)
abbrev P25 (c : Dev nD) : Valuation τ sig (Elt F) := StableHlo.after hostOps4_4 (P24 m c)
abbrev P26 (c : Dev nD) : Valuation τ sig (Elt F) := StableHlo.after hostOps4_5 (P25 m c)
abbrev E4 (c : Dev nD) (b : Ref sig .tc) : Buf (Elt F) ((c : Thread nD τ).loc b) := P26 m c b
def res4 (c : Dev nD) : Buf (Elt F) ((c : Thread nD τ).loc main_v38) := (dat4 (E4 m) c).arrAt 3 cfg4.N
abbrev P27 (c : Dev nD) : Valuation τ sig (Elt F) := Function.update (P26 m c) main_v38 (res4 m c)
abbrev E5 (c : Dev nD) (b : Ref sig .tc) : Buf (Elt F) ((c : Thread nD τ).loc b) := P27 m c b
def res5 (c : Dev nD) : Buf (Elt F) ((c : Thread nD τ).loc main_v39) := (dat5 (E5 m) c).arrAt 2 cfg5.N
abbrev P28 (c : Dev nD) : Valuation τ sig (Elt F) := Function.update (P27 m c) main_v39 (res5 m c)
abbrev P29 (c : Dev nD) : Valuation τ sig (Elt F) := StableHlo.after hostOps6 (P28 m c)
abbrev E6 (c : Dev nD) (b : Ref sig .tc) : Buf (Elt F) ((c : Thread nD τ).loc b) := P29 m c b
def res6 (c : Dev nD) : Buf (Elt F) ((c : Thread nD τ).loc main_v46) := (dat6 (E6 m) c).arrAt 9 cfg6.N
abbrev P30 (c : Dev nD) : Valuation τ sig (Elt F) := Function.update (P29 m c) main_v46 (res6 m c)

/-- The seven results as the unknowns the several-stage run is stated over: with them its valuations are the contents above. -/
def outsH : Outs (F := F) := fun _ r c =>
    if h0 : r = main_v15 then h0 ▸ res0 m c
    else if h1 : r = main_v16 then h1 ▸ res1 m c
    else if h2 : r = main_v29 then h2 ▸ res2 m c
    else if h3 : r = main_v30 then h3 ▸ res3 m c
    else if h4 : r = main_v38 then h4 ▸ res4 m c
    else if h5 : r = main_v39 then h5 ▸ res5 m c
    else if h6 : r = main_v46 then h6 ▸ res6 m c
    else m ((c : Thread nD τ).loc r)

theorem outsH_6 (J : ℕ) (c : Dev nD) : outsH m J main_v46 c = res6 m c := by
  unfold outsH; rw [dif_neg (by decide), dif_neg (by decide), dif_neg (by decide), dif_neg (by decide), dif_neg (by decide), dif_neg (by decide), dif_pos rfl]

def pdats : (p : Fin 7) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
  | ⟨6, _⟩ => fun c => dat6 (E6 m) c

abbrev pix0 : Fin 7 := 0
abbrev pix1 : Fin 7 := 1
abbrev pix2 : Fin 7 := 2
abbrev pix3 : Fin 7 := 3
abbrev pix4 : Fin 7 := 4
abbrev pix5 : Fin 7 := 5
abbrev pix6 : Fin 7 := 6

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.Kernel.Hand

end
-- ==== Proof.Bits.R0Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P9_of (c : Dev nD) (r : Ref sig .tc) (h : r ≠ main_v15) : P9 m c r = (V8 m c) r := by
  simp only [P9, Function.update_of_ne (StableHlo.devRef_ne_of_ne h : (Proc.devRef .tc r : DevRef τ sig) ≠ Proc.devRef .tc main_v15)]

theorem hF0 (c : Dev nD) (w : Fin cfg0.W) : (pdats m pix0 c).arrAt w cfg0.N = P9 m c (Pipeline.arrRef spec0 w) := by
  fin_cases w
  · exact ((dat0 (E0 m) c).arrAt_in 0 rfl _).trans ((A_eq0 (E0 m) c 0).trans (P9_of m c _ (by decide)).symm)
  · exact ((dat0 (E0 m) c).arrAt_in 1 rfl _).trans ((A_eq0 (E0 m) c 1).trans (P9_of m c _ (by decide)).symm)
  · exact ((dat0 (E0 m) c).arrAt_in 2 rfl _).trans ((A_eq0 (E0 m) c 2).trans (P9_of m c _ (by decide)).symm)
  · show (dat0 (E0 m) c).arrAt 3 cfg0.N = Function.update (V8 m c) main_v15 (res0 m c) main_v15
    rw [Function.update_self]; rfl

theorem hrest0 (c : Dev nD) : ∀ b, b ∉ Finset.univ.image (Pipeline.arrRef spec0) → P9 m c b = E0 m c b :=
  fun b hb => P9_of m c b fun e => hb (e ▸ Finset.mem_image.mpr ⟨3, Finset.mem_univ _, rfl⟩)

set_option backward.isDefEq.respectTransparency.types false in
def reg0 : RegionSeg (pcfgs (F := F)) adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv pix0 fun _ _ => rfl
  pre c := iprop(StableHlo.held (c : Thread nD τ) (Pipeline.ucRefs τ sig) (V8 m c) ∗ R c)
  post c := iprop(StableHlo.held (c : Thread nD τ) (Pipeline.ucRefs τ sig) (P9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := pix0) (pcfgs (F := F)) adm (pdats m) launch0.win launch0.arr_whole c
      ((pdats m pix0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin0 (E0 m) c); unfold Pipeline.ΦA
    iintro ⟨Hp, -, Hr⟩
    isplitl [Hr]; · iexact Hr
    iexact Hp
  hout c := by
    rw [Pipeline.ownSems0_none]
    refine BIClass.entails_trans (hout0 (E0 m) c) ?_; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) adm (Ix := Unit) (Name := ℕ) (U := UR sig nD τ) (Lvl := ℕ)
      launch0.win launch0.arr_whole c (pdats m) ((pdats m pix0 c).share_full fun _ => rfl)
      (E0 m c) (fun b => P9 m c b) ((pdats m pix0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R1Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P10_of (c : Dev nD) (r : Ref sig .tc) (h : r ≠ main_v16) : P10 m c r = (P9 m c) r := by
  simp only [P10, Function.update_of_ne (StableHlo.devRef_ne_of_ne h : (Proc.devRef .tc r : DevRef τ sig) ≠ Proc.devRef .tc main_v16)]

theorem hF1 (c : Dev nD) (w : Fin cfg1.W) : (pdats m pix1 c).arrAt w cfg1.N = P10 m c (Pipeline.arrRef spec1 w) := by
  fin_cases w
  · exact ((dat1 (E1 m) c).arrAt_in 0 rfl _).trans ((A_eq1 (E1 m) c 0).trans (P10_of m c _ (by decide)).symm)
  · exact ((dat1 (E1 m) c).arrAt_in 1 rfl _).trans ((A_eq1 (E1 m) c 1).trans (P10_of m c _ (by decide)).symm)
  · show (dat1 (E1 m) c).arrAt 2 cfg1.N = Function.update (P9 m c) main_v16 (res1 m c) main_v16
    rw [Function.update_self]; rfl

theorem hrest1 (c : Dev nD) : ∀ b, b ∉ Finset.univ.image (Pipeline.arrRef spec1) → P10 m c b = E1 m c b :=
  fun b hb => P10_of m c b fun e => hb (e ▸ Finset.mem_image.mpr ⟨2, Finset.mem_univ _, rfl⟩)

set_option backward.isDefEq.respectTransparency.types false in
def reg1 : RegionSeg (pcfgs (F := F)) adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv pix1 fun _ _ => rfl
  pre c := iprop(StableHlo.held (c : Thread nD τ) (Pipeline.ucRefs τ sig) (P9 m c) ∗ R c)
  post c := iprop(StableHlo.held (c : Thread nD τ) (Pipeline.ucRefs τ sig) (P10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := pix1) (pcfgs (F := F)) adm (pdats m) launch1.win launch1.arr_whole c
      ((pdats m pix1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin1 (E1 m) c); unfold Pipeline.ΦA
    iintro ⟨Hp, -, Hr⟩
    isplitl [Hr]; · iexact Hr
    iexact Hp
  hout c := by
    rw [Pipeline.ownSems0_none]
    refine BIClass.entails_trans (hout1 (E1 m) c) ?_; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) adm (Ix := Unit) (Name := ℕ) (U := UR sig nD τ) (Lvl := ℕ)
      launch1.win launch1.arr_whole c (pdats m) ((pdats m pix1 c).share_full fun _ => rfl)
      (E1 m c) (fun b => P10 m c b) ((pdats m pix1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R2Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P19_of (c : Dev nD) (r : Ref sig .tc) (h : r ≠ main_v29) : P19 m c r = (P18 m c) r := by
  simp only [P19, Function.update_of_ne (StableHlo.devRef_ne_of_ne h : (Proc.devRef .tc r : DevRef τ sig) ≠ Proc.devRef .tc main_v29)]

theorem hF2 (c : Dev nD) (w : Fin cfg2.W) : (pdats m pix2 c).arrAt w cfg2.N = P19 m c (Pipeline.arrRef spec2 w) := by
  fin_cases w
  · exact ((dat2 (E2 m) c).arrAt_in 0 rfl _).trans ((A_eq2 (E2 m) c 0).trans (P19_of m c _ (by decide)).symm)
  · exact ((dat2 (E2 m) c).arrAt_in 1 rfl _).trans ((A_eq2 (E2 m) c 1).trans (P19_of m c _ (by decide)).symm)
  · exact ((dat2 (E2 m) c).arrAt_in 2 rfl _).trans ((A_eq2 (E2 m) c 2).trans (P19_of m c _ (by decide)).symm)
  · show (dat2 (E2 m) c).arrAt 3 cfg2.N = Function.update (P18 m c) main_v29 (res2 m c) main_v29
    rw [Function.update_self]; rfl

theorem hrest2 (c : Dev nD) : ∀ b, b ∉ Finset.univ.image (Pipeline.arrRef spec2) → P19 m c b = E2 m c b :=
  fun b hb => P19_of m c b fun e => hb (e ▸ Finset.mem_image.mpr ⟨3, Finset.mem_univ _, rfl⟩)

set_option backward.isDefEq.respectTransparency.types false in
def reg2 : RegionSeg (pcfgs (F := F)) adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv pix2 fun _ _ => rfl
  pre c := iprop(StableHlo.held (c : Thread nD τ) (Pipeline.ucRefs τ sig) (P18 m c) ∗ R c)
  post c := iprop(StableHlo.held (c : Thread nD τ) (Pipeline.ucRefs τ sig) (P19 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := pix2) (pcfgs (F := F)) adm (pdats m) launch2.win launch2.arr_whole c
      ((pdats m pix2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin2 (E2 m) c); unfold Pipeline.ΦA
    iintro ⟨Hp, -, Hr⟩
    isplitl [Hr]; · iexact Hr
    iexact Hp
  hout c := by
    rw [Pipeline.ownSems0_none]
    refine BIClass.entails_trans (hout2 (E2 m) c) ?_; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) adm (Ix := Unit) (Name := ℕ) (U := UR sig nD τ) (Lvl := ℕ)
      launch2.win launch2.arr_whole c (pdats m) ((pdats m pix2 c).share_full fun _ => rfl)
      (E2 m c) (fun b => P19 m c b) ((pdats m pix2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R3Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P20_of (c : Dev nD) (r : Ref sig .tc) (h : r ≠ main_v30) : P20 m c r = (P19 m c) r := by
  simp only [P20, Function.update_of_ne (StableHlo.devRef_ne_of_ne h : (Proc.devRef .tc r : DevRef τ sig) ≠ Proc.devRef .tc main_v30)]

theorem hF3 (c : Dev nD) (w : Fin cfg3.W) : (pdats m pix3 c).arrAt w cfg3.N = P20 m c (Pipeline.arrRef spec3 w) := by
  fin_cases w
  · exact ((dat3 (E3 m) c).arrAt_in 0 rfl _).trans ((A_eq3 (E3 m) c 0).trans (P20_of m c _ (by decide)).symm)
  · exact ((dat3 (E3 m) c).arrAt_in 1 rfl _).trans ((A_eq3 (E3 m) c 1).trans (P20_of m c _ (by decide)).symm)
  · show (dat3 (E3 m) c).arrAt 2 cfg3.N = Function.update (P19 m c) main_v30 (res3 m c) main_v30
    rw [Function.update_self]; rfl

theorem hrest3 (c : Dev nD) : ∀ b, b ∉ Finset.univ.image (Pipeline.arrRef spec3) → P20 m c b = E3 m c b :=
  fun b hb => P20_of m c b fun e => hb (e ▸ Finset.mem_image.mpr ⟨2, Finset.mem_univ _, rfl⟩)

set_option backward.isDefEq.respectTransparency.types false in
def reg3 : RegionSeg (pcfgs (F := F)) adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv pix3 fun _ _ => rfl
  pre c := iprop(StableHlo.held (c : Thread nD τ) (Pipeline.ucRefs τ sig) (P19 m c) ∗ R c)
  post c := iprop(StableHlo.held (c : Thread nD τ) (Pipeline.ucRefs τ sig) (P20 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := pix3) (pcfgs (F := F)) adm (pdats m) launch3.win launch3.arr_whole c
      ((pdats m pix3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin3 (E3 m) c); unfold Pipeline.ΦA
    iintro ⟨Hp, -, Hr⟩
    isplitl [Hr]; · iexact Hr
    iexact Hp
  hout c := by
    rw [Pipeline.ownSems0_none]
    refine BIClass.entails_trans (hout3 (E3 m) c) ?_; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) adm (Ix := Unit) (Name := ℕ) (U := UR sig nD τ) (Lvl := ℕ)
      launch3.win launch3.arr_whole c (pdats m) ((pdats m pix3 c).share_full fun _ => rfl)
      (E3 m c) (fun b => P20 m c b) ((pdats m pix3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R4Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P27_of (c : Dev nD) (r : Ref sig .tc) (h : r ≠ main_v38) : P27 m c r = (P26 m c) r := by
  simp only [P27, Function.update_of_ne (StableHlo.devRef_ne_of_ne h : (Proc.devRef .tc r : DevRef τ sig) ≠ Proc.devRef .tc main_v38)]

theorem hF4 (c : Dev nD) (w : Fin cfg4.W) : (pdats m pix4 c).arrAt w cfg4.N = P27 m c (Pipeline.arrRef spec4 w) := by
  fin_cases w
  · exact ((dat4 (E4 m) c).arrAt_in 0 rfl _).trans ((A_eq4 (E4 m) c 0).trans (P27_of m c _ (by decide)).symm)
  · exact ((dat4 (E4 m) c).arrAt_in 1 rfl _).trans ((A_eq4 (E4 m) c 1).trans (P27_of m c _ (by decide)).symm)
  · exact ((dat4 (E4 m) c).arrAt_in 2 rfl _).trans ((A_eq4 (E4 m) c 2).trans (P27_of m c _ (by decide)).symm)
  · show (dat4 (E4 m) c).arrAt 3 cfg4.N = Function.update (P26 m c) main_v38 (res4 m c) main_v38
    rw [Function.update_self]; rfl

theorem hrest4 (c : Dev nD) : ∀ b, b ∉ Finset.univ.image (Pipeline.arrRef spec4) → P27 m c b = E4 m c b :=
  fun b hb => P27_of m c b fun e => hb (e ▸ Finset.mem_image.mpr ⟨3, Finset.mem_univ _, rfl⟩)

set_option backward.isDefEq.respectTransparency.types false in
def reg4 : RegionSeg (pcfgs (F := F)) adm (pdats m) () defs₀ 𝒱₀ L lv pix4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv pix4 fun _ _ => rfl
  pre c := iprop(StableHlo.held (c : Thread nD τ) (Pipeline.ucRefs τ sig) (P26 m c) ∗ R c)
  post c := iprop(StableHlo.held (c : Thread nD τ) (Pipeline.ucRefs τ sig) (P27 m c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := pix4) (pcfgs (F := F)) adm (pdats m) launch4.win launch4.arr_whole c
      ((pdats m pix4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin4 (E4 m) c); unfold Pipeline.ΦA
    iintro ⟨Hp, -, Hr⟩
    isplitl [Hr]; · iexact Hr
    iexact Hp
  hout c := by
    rw [Pipeline.ownSems0_none]
    refine BIClass.entails_trans (hout4 (E4 m) c) ?_; unfold Pipeline.ΦA
    iintro ⟨Hr, Hp⟩
    isplitl [Hp]; · iexact Hp
    isplitr; · iempintro
    iexact Hr
  hexit c := by
    have hjoin := Pipeline.unscopedBufs_of_arrays (p := pix4) (pcfgs (F := F)) adm (Ix := Unit) (Name := ℕ) (U := UR sig nD τ) (Lvl := ℕ)
      launch4.win launch4.arr_whole c (pdats m) ((pdats m pix4 c).share_full fun _ => rfl)
      (E4 m c) (fun b => P27 m c b) ((pdats m pix4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R5Seg.lean ====
import proofs.«422453_j56642028700408_3_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P28_of (c : Dev nD) (r : Ref sig .tc) (h : r ≠ main_v39) : P28 m c r = (P27 m c) r := by
  simp only [P28, Function.update_of_ne (StableHlo.devRef_ne_of_ne h : (Proc.devRef .tc r : DevRef τ sig) ≠ Proc.devRef .tc main_v39)]

theorem hF5 (c : Dev nD) (w : Fin cfg5.W) : (pdats m pix5 c).arrAt w cfg5.N = P28 m c (Pipeline.arrRef spec5 w) := by
  fin_cases w
  · exact ((dat5 (E5 m) c).arrAt_in 0 rfl _).trans ((A_eq5 (E5 m) c 0).trans (P28_of m c _ (by decide)).symm)
  · exact ((dat5 (E5 m) c).arrAt_in 1 rfl _).trans ((A_eq5 (E5 m) c 1).trans (P28_of m c _ (by decide)).symm)
  · show (dat5 (E5 m) c).arrAt 2 cfg5.N = Function.update (P27 m c) main_v39 (res5 m c) main_v39
    rw [Function.update_self]; rfl

theorem hrest5 (c : Dev nD) : ∀ b, b ∉ Finset.univ.image (Pipeline.arrRef spec5) → P28 m c b = E5 m c b :=
  fun b hb => P28_of m c b fun e => hb (e ▸ Finset.mem_image.mpr ⟨2, Finset.mem_univ _, rfl⟩)

set_option backward.isDefEq.respectTransparency.types false in
def reg5 : RegionSeg (pcfgs (F := F)) adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (E5 m) c).loose
  hwaits := Pipeline.hwaits_of_owed_zero _ _ _ _ L lv pix5 fun _ _ => rfl
  pre c := iprop(StableHlo.held (c : Thread nD τ) (Pipeline.ucRefs τ sig) (P27 m c) ∗ R c)
  post c := iprop(StableHlo.held (c : Thread nD τ) (Pipeline.ucRefs τ sig) (P28 m c) ∗ R c)
  X c := iprop(∃ r, prngReg c r)
  Y c := iprop(∃ r, prngReg c r)
  Z c := Pipeline.unscopedRest (Ix := Unit) (Name := ℕ) (U := UR sig nD τ) (Lvl := ℕ) spec5 c (E5 m c)
  hentry c := by
    rw [Pipeline.ownSems0_none]
    have hsplit := Pipeline.arrays_of_unscopedBufs (p := pix5) (pcfgs (F := F)) adm (pdats m) launch5.win launch5.arr_whole c
      ((pdats m pix5 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin5 (E5 m) c); unfold Pipeline.ΦA
    iintro ⟨Hp, -, Hr⟩
    isplitl [Hr]; · iexact Hr
    iexact Hp
  hout c := by
    rw [Pipeline.ownSems0_none]
    refine BIClass.entails_trans (hout5 (E5 m) c) ?_; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) adm (Ix := Unit) (Name := ℕ) (U := UR sig nD τ) (Lvl := ℕ)
      launch5.win launch5.arr_whole c (pdats m) ((pdats m pix5 c).share_full fun _ => rfl)
      (E5 m c) (fun b => P28 m c b) ((pdats m pix5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.R6Seg.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import proofs.«422453_j56642028700408_3_alg».proof.Proof.Bits.Chain
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem P30_of (c : Dev nD) (r : Ref sig .tc) (h : r ≠ main_v46) : P30 m c r = (P29 m c) r := by
  simp only [P30, Function.update_of_ne (StableHlo.devRef_ne_of_ne h : (Proc.devRef .tc r : DevRef τ sig) ≠ Proc.devRef .tc main_v46)]

set_option maxHeartbeats 2000000 in
theorem hF6 (c : Dev nD) (w : Fin cfg6.W) : (pdats m pix6 c).arrAt w cfg6.N = P30 m c (Pipeline.arrRef spec6 w) := by
  fin_cases w <;> first
    | exact ((dat6 (E6 m) c).arrAt_in _ rfl _).trans ((A_eq6 (E6 m) c _).trans (P30_of m c _ (by decide)).symm)
    | (show (dat6 (E6 m) c).arrAt 9 cfg6.N = Function.update (P29 m c) main_v46 (res6 m c) main_v46
       rw [Function.update_self]; rfl)

theorem hrest6 (c : Dev nD) : ∀ b, b ∉ Finset.univ.image (Pipeline.arrRef spec6) → P30 m c b = E6 m c b :=
  fun b hb => P30_of m c b fun e => hb (e ▸ Finset.mem_image.mpr ⟨9, Finset.mem_univ _, rfl⟩)

set_option backward.isDefEq.respectTransparency.types false in
/-- The last stage as an item of the run: its arrays are split out of the unscoped buffers and put back, the generator register rides in its invariant. -/
def reg6 : RegionSeg (pcfgs (F := F)) adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (E6 m) c).loose
  hwaits := Pipeline.hwaits_of_owed_zero _ _ _ _ L lv pix6 fun _ _ => rfl
  pre c := iprop(StableHlo.held (c : Thread nD τ) (Pipeline.ucRefs τ sig) (P29 m c) ∗ R c)
  post c := iprop(StableHlo.held (c : Thread nD τ) (Pipeline.ucRefs τ sig) (P30 m c) ∗ R c)
  X c := iprop(∃ r, prngReg c r)
  Y c := iprop(∃ r, prngReg c r)
  Z c := Pipeline.unscopedRest (Ix := Unit) (Name := ℕ) (U := UR sig nD τ) (Lvl := ℕ) spec6 c (E6 m c)
  hentry c := by
    rw [Pipeline.ownSems0_none]
    have hsplit := Pipeline.arrays_of_unscopedBufs (p := pix6) (pcfgs (F := F)) adm (pdats m) launch6.win launch6.arr_whole c
      ((pdats m pix6 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    iframe
  hout c := by
    rw [Pipeline.ownSems0_none, show (pdats m pix6 c).Φ (Fin.last _) = Pipeline.ΦA spec6 c from rfl]; unfold Pipeline.ΦA
    iintro ⟨Hr, Hp⟩
    iframe
    iempintro
  hexit c := by
    have hjoin := Pipeline.unscopedBufs_of_arrays (p := pix6) (pcfgs (F := F)) adm (Ix := Unit) (Name := ℕ) (U := UR sig nD τ) (Lvl := ℕ)
      launch6.win launch6.arr_whole c (pdats m) ((pdats m pix6 c).share_full fun _ => rfl)
      (E6 m c) (fun b => P30 m c b) ((pdats m pix6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Run.lean ====
import proofs.«422453_j56642028700408_3_alg».proof.Proof.Gen.Kernel.Launch
import proofs.«422453_j56642028700408_3_alg».proof.Proof.Gen.Kernel.Skeleton
import proofs.«422453_j56642028700408_3_alg».proof.Proof.Gen.Kernel.Points
import proofs.«422453_j56642028700408_3_alg».proof.Proof.Bits.R0Seg
import proofs.«422453_j56642028700408_3_alg».proof.Proof.Bits.R1Seg
import proofs.«422453_j56642028700408_3_alg».proof.Proof.Bits.R2Seg
import proofs.«422453_j56642028700408_3_alg».proof.Proof.Bits.R3Seg
import proofs.«422453_j56642028700408_3_alg».proof.Proof.Bits.R4Seg
import proofs.«422453_j56642028700408_3_alg».proof.Proof.Bits.R5Seg
import proofs.«422453_j56642028700408_3_alg».proof.Proof.Bits.R6Seg
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What one core is handed at the launch: its buffers at the launch contents, the generator register, nothing owed. -/
theorem launch_each (ρ : Dev nD → PrngReg) (c : Dev nD) :
    (iprop(unscopedBufs c (fun b => m ((c.tc : Thread nD τ).loc b)) ∗ unscopedSems0 c ∗ owes (c.tc : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ iprop(StableHlo.held (c : Thread nD τ) (Pipeline.ucRefs τ sig) (V0 m c) ∗ R (F := F) c) := by
  have hb : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UR sig nD τ) (Lvl := ℕ) c (V0 m c)]
  iintro ⟨Hb, -, HO, -, Hp, -⟩
  isplitl [Hb]; · iapply hb $$ Hb
  isplitl [Hp]; · iexists _; iexact Hp
  iexists ∅; iexact HO

/-- With the stages' results as the unknowns, the run's valuations are the contents built stage by stage. -/
theorem V10_eq (c : Dev nD) : V10 m (outsH m) c = P10 m c := rfl
theorem V18_eq (c : Dev nD) : V18 m (outsH m) c = P18 m c := rfl
theorem V20_eq (c : Dev nD) : V20 m (outsH m) c = P20 m c := rfl
theorem V26_eq (c : Dev nD) : V26 m (outsH m) c = P26 m c := rfl
theorem V28_eq (c : Dev nD) : V28 m (outsH m) c = P28 m c := by
  show Function.update (Function.update (V26 m (outsH m) c) main_v38 (outsH m 27 main_v38 c)) main_v39 (outsH m 28 main_v39 c) = _
  rw [V26_eq] <;> rfl
theorem V29_eq (c : Dev nD) : V29 m (outsH m) c = P29 m c := congrArg (StableHlo.after hostOps6) (V28_eq m c)
theorem V30_eq (c : Dev nD) : V30 m (outsH m) c = P30 m c := by
  show Function.update (V29 m (outsH m) c) main_v46 (outsH m 30 main_v46 c) = Function.update (P29 m c) main_v46 (res6 m c)
  rw [V29_eq, outsH_6]

/-- Equal contents are held alike. -/
theorem held_of {c : Dev nD} {V P : Valuation τ sig (Elt F)} (h : V = P) :
    (iprop(StableHlo.held (c : Thread nD τ) (Pipeline.ucRefs τ sig) P ∗ R c) : sProp 𝕄)
      ⊢ iprop(StableHlo.held (c : Thread nD τ) (Pipeline.ucRefs τ sig) V ∗ R c) := by
  subst h; exact .rfl

set_option backward.isDefEq.respectTransparency.types false in
/-- The run: the seven stages and the host stretches between them chain from the launch contents to the last valuation, which is read back at the end. -/
theorem run_value (ρ : Dev nD → PrngReg) :
    θ_run defs (onTc (τ := τ) (main (F := F))) ⟨m, fun _ => 0, ρ⟩ (fun r => ∀ c : Dev nD,
      r.2.mem ((c.tc : Thread nD τ).loc main_v46) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ 𝒱₀ L lv m ρ main
    (segs m (outsH m) 𝒱₀ L lv (fun _ c => R c) () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide)
    0 (fun _ _ => rfl) (fun _ => iprop(emp)) _ launch_own
    (T₀ := fun c => iprop(StableHlo.held (c : Thread nD τ) (Pipeline.ucRefs τ sig) (V0 m c) ∗ R c))
    (Tₙ := fun c => StableHlo.held (c : Thread nD τ) (Pipeline.ucRefs τ sig) (V30 m (outsH m) c))
    (hch := fun c => ⟨.rfl, .rfl, .rfl, .rfl, .rfl, .rfl, .rfl, .rfl, .rfl, .rfl, held_of (V10_eq m c), .rfl, .rfl, .rfl, .rfl, .rfl, .rfl, .rfl, held_of (V18_eq m c).symm, .rfl, held_of (V20_eq m c), .rfl, .rfl, .rfl, .rfl, .rfl,
      held_of (V26_eq m c).symm, .rfl, held_of (V28_eq m c), held_of (V29_eq m c).symm,
      (held_of (V30_eq m c)).trans (sep_mono .rfl (by iintro ⟨-, H⟩; iexact H))⟩)
    (hinit := ?_)
    (QY := fun c s => ∀ b ∈ Pipeline.ucRefs τ sig, s.mem ((c : Thread nD τ).1, b) = V30 m (outsH m) c b)
    (hfin := fun c s' => ?_) (hQ := fun s h c => ?_)
  · iintro ⟨H, -⟩; imodintro
    iapply (show (_ : sProp 𝕄) ⊢ _ from bigSep_mono fun c _ => launch_each m ρ c) $$ H
  · unfold StableHlo.held
    iintro H; imodintro
    iapply (pointsTo_read_all (Pipeline.ucRefs τ sig) (fun b => ((c : Thread nD τ).1, b)) (V30 m (outsH m) c) s') $$ H
  · have hr : ∀ b : Ref sig .tc, ¬(Proc.devRef (τ := τ) .tc b).isScoped → s.mem ((c.tc : Thread nD τ).loc b) = V30 m (outsH m) c b :=
      fun b hb => h c (Proc.devRef .tc b) (Finset.mem_filter.mpr ⟨StableHlo.devRef_mem_tcRefs b, hb⟩)
    exact ⟨(hr main_v46 (by decide)).trans ((Function.update_self _ _ _).trans (outsH_6 m 30 c)),
      (hr main_arg0 (by decide)).trans (V30_main_arg0 m _ c),
      (hr main_arg1 (by decide)).trans (V30_main_arg1 m _ c),
      (hr main_arg2 (by decide)).trans (V30_main_arg2 m _ c),
      (hr main_arg3 (by decide)).trans (V30_main_arg3 m _ c),
      (hr main_arg4 (by decide)).trans (V30_main_arg4 m _ c),
      (hr main_arg5 (by decide)).trans (V30_main_arg5 m _ c),
      (hr main_arg6 (by decide)).trans (V30_main_arg6 m _ c),
      (hr main_arg7 (by decide)).trans (V30_main_arg7 m _ c),
      (hr main_arg8 (by decide)).trans (V30_main_arg8 m _ c),
      (hr main_arg9 (by decide)).trans (V30_main_arg9 m _ c),
      (hr main_arg10 (by decide)).trans (V30_main_arg10 m _ c),
      (hr main_arg11 (by decide)).trans (V30_main_arg11 m _ c),
      (hr main_arg12 (by decide)).trans (V30_main_arg12 m _ c),
      (hr main_arg13 (by decide)).trans (V30_main_arg13 m _ c),
      (hr main_arg14 (by decide)).trans (V30_main_arg14 m _ c),
      (hr main_arg15 (by decide)).trans (V30_main_arg15 m _ c),
      (hr main_arg16 (by decide)).trans (V30_main_arg16 m _ c)⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_value m ρ)

end Cert.Kernel.Hand

end
-- ==== Proof.StageMath.lean ====
import Idealize.ShloMosaic.PureOps.Ideal
import Idealize.ShloMosaic.Lib.ValueIdx
import Mathlib.Algebra.BigOperators.Fin
import Mathlib.Algebra.BigOperators.Group.Finset.Defs
import Mathlib.Algebra.BigOperators.Group.Finset.Basic
import Mathlib.Algebra.BigOperators.Group.Finset.Sigma
import Mathlib.Data.EReal.Basic
import Mathlib.Data.EReal.Operations
import Mathlib.Data.Fin.Embedding
import Mathlib.Logic.Equiv.Fin.Basic

noncomputable section

open scoped BigOperators

namespace Cert.Hgnn

def ind (a b : BitVec 32) : EReal := if a = b then 1 else 0

def gatherK {D : Nat} (srcp : Fin 1007616 → BitVec 32) (wp : Fin 1007616 → EReal)
    (hp : Fin 50176 → Fin D → EReal) (E : Fin 1007616) (q : Fin D) : EReal :=
  (∑ j : Fin 50176, ind (srcp E) (BitVec.ofNat 32 j.val) * hp j q) * wp E

def scatterK {D : Nat} (dstp : Fin 1007616 → BitVec 32) (msg : Fin 1007616 → Fin D → EReal)
    (N : Fin 50176) (q : Fin D) : EReal :=
  ∑ E : Fin 1007616, ind (dstp E) (BitVec.ofNat 32 N.val) * msg E q

def padW (x : Fin 1000000 → BitVec 32) (E : Fin 1007616) : BitVec 32 :=
  if h : E.val < 1000000 then x ⟨E.val, h⟩ else 4294967295#32

def padRows {D : Nat} (h : Fin 50000 → Fin D → EReal) (j : Fin 50176) (q : Fin D) : EReal :=
  if hj : j.val < 50000 then h ⟨j.val, hj⟩ q else 0

-- Words add and multiply modulo 2^32, as their numbers do.
theorem node_word (n k : Nat) :
    BitVec.ofNat 32 k + BitVec.ofNat 32 n * 1024#32 = BitVec.ofNat 32 (n * 1024 + k) := by
  rw [Nat.add_comm, BitVec.ofNat_add, BitVec.ofNat_mul]

-- A sum over a * b indices read tile by tile: (tile, place in tile) ↦ tile * b + place is a bijection onto the indices.
theorem sum_tiles {M : Type*} [AddCommMonoid M] (a b : Nat) (f : Fin (a * b) → M)
    (h : ∀ (n : Fin a) (k : Fin b), n.val * b + k.val < a * b) :
    ∑ n : Fin a, ∑ k : Fin b, f ⟨n.val * b + k.val, h n k⟩ = ∑ j : Fin (a * b), f j := by
  rw [← Finset.sum_product', Finset.univ_product_univ]
  exact Fintype.sum_equiv finProdFinEquiv _ _ fun p => congrArg f (Fin.ext ((Nat.add_comm _ _).trans (congrArg (_ + ·) (Nat.mul_comm _ _))))

theorem sum_tiles49 (f : Fin 50176 → EReal) :
    ∑ n : Fin 49, ∑ k : Fin 1024, f ⟨n.val * 1024 + k.val, by omega⟩ = ∑ j : Fin 50176, f j :=
  sum_tiles 49 1024 f _

theorem sum_tiles123 (f : Fin 1007616 → EReal) :
    ∑ n : Fin 123, ∑ k : Fin 8192, f ⟨n.val * 8192 + k.val, by omega⟩ = ∑ E : Fin 1007616, f E :=
  sum_tiles 123 8192 f _

theorem toInt_word {j : Nat} (hj : j < 2147483648) : (BitVec.ofNat 32 j).toInt = (j : ℤ) := by
  rw [BitVec.toInt_eq_toNat_of_lt (by rw [BitVec.toNat_ofNat]; omega), BitVec.toNat_ofNat]
  omega

-- A word below 2^31 is determined by its signed reading, so the one-hot entry against it is a test on that reading.
theorem ind_word (w : BitVec 32) {j : Nat} (hj : j < 2147483648) :
    ind w (BitVec.ofNat 32 j) = if w.toInt = (j : ℤ) then 1 else 0 :=
  if_congr (by rw [← BitVec.toInt_inj, toInt_word hj]) rfl rfl

theorem toInt_padWord : (4294967295#32).toInt = -1 := by decide

theorem sum_initial {M : Type*} [AddCommMonoid M] {a b : Nat} (hab : a ≤ b) (F : Fin b → M)
    (hF : ∀ E : Fin b, ¬ E.val < a → F E = 0) :
    ∑ E : Fin b, F E = ∑ e : Fin a, F (Fin.castLEEmb hab e) := by
  rw [← Finset.sum_map Finset.univ (Fin.castLEEmb hab) F]
  symm
  apply Finset.sum_subset (Finset.subset_univ _)
  intro E _ hE
  apply hF
  intro hlt
  exact hE (Finset.mem_map.mpr ⟨⟨E.val, hlt⟩, Finset.mem_univ _, Fin.ext rfl⟩)

theorem sum_pad {M : Type*} [AddCommMonoid M] {a b : Nat} (hab : a ≤ b) (g : Fin a → M) :
    ∑ E : Fin b, (if hE : E.val < a then g ⟨E.val, hE⟩ else 0) = ∑ e : Fin a, g e := by
  rw [sum_initial hab _ (fun E hE => dif_neg hE)]
  exact Finset.sum_congr rfl (fun e _ => dif_pos e.isLt)

-- The one-hot row of a word in range has its single 1 at that node.
theorem gather_row {D : Nat} (h : Fin 50000 → Fin D → EReal) (w : BitVec 32)
    (hw : 0 ≤ w.toInt ∧ w.toInt < 50000) (q : Fin D) :
    ∑ j : Fin 50176, ind w (BitVec.ofNat 32 j.val) * padRows h j q
      = h ⟨min w.toInt.toNat (50000 - 1), by omega⟩ q := by
  have hj0 : w.toInt.toNat < 50176 := by omega
  rw [Finset.sum_eq_single (⟨w.toInt.toNat, hj0⟩ : Fin 50176)]
  · have h1 : w.toInt = ((w.toInt.toNat : ℕ) : ℤ) := by omega
    have h2 : w.toInt.toNat < 50000 := by omega
    rw [ind_word w (by omega), if_pos h1, one_mul]
    unfold padRows
    rw [dif_pos h2]
    congr 1
    apply Fin.ext
    show w.toInt.toNat = min w.toInt.toNat (50000 - 1)
    omega
  · intro j _ hj
    rw [ind_word w (by omega), if_neg, zero_mul]
    intro hwj
    apply hj
    apply Fin.ext
    show j.val = w.toInt.toNat
    omega
  · intro hn
    exact absurd (Finset.mem_univ _) hn

-- A padded edge's destination word reads -1, no node row, so its term is 0 · (message); a real edge's one-hot row picks its source row.
theorem stage_eq {D : Nat} (src dst : Fin 1000000 → BitVec 32) (wp : Fin 1007616 → EReal)
    (h : Fin 50000 → Fin D → EReal)
    (hsrc : ∀ e, 0 ≤ (src e).toInt ∧ (src e).toInt < 50000) (N : Fin 50000) (q : Fin D) :
    scatterK (padW dst) (gatherK (padW src) wp (padRows h)) ⟨N.val, by omega⟩ q
      = ∑ e ∈ Finset.univ.filter (fun e : Fin 1000000 => (dst e).toInt = (N.val : ℤ)),
          h ⟨min (src e).toInt.toNat (50000 - 1), by omega⟩ q * wp ⟨e.val, by omega⟩ := by
  have hN : N.val < 2147483648 := by omega
  rw [Finset.sum_filter, ← sum_pad (a := 1000000) (b := 1007616) (by omega)]
  unfold scatterK
  refine Finset.sum_congr rfl (fun E _ => ?_)
  show ind (padW dst E) (BitVec.ofNat 32 N.val) * gatherK (padW src) wp (padRows h) E q = _
  by_cases hE : E.val < 1000000
  · have hd : padW dst E = dst ⟨E.val, hE⟩ := dif_pos hE
    have hs : padW src E = src ⟨E.val, hE⟩ := dif_pos hE
    rw [dif_pos hE, hd, ind_word _ hN]
    unfold gatherK
    rw [hs, gather_row h _ (hsrc ⟨E.val, hE⟩) q]
    by_cases hdN : (dst ⟨E.val, hE⟩).toInt = (N.val : ℤ)
    · rw [if_pos hdN, if_pos hdN, one_mul]
    · rw [if_neg hdN, if_neg hdN, zero_mul]
  · have hd : padW dst E = 4294967295#32 := dif_neg hE
    rw [dif_neg hE, hd, ind_word _ hN, toInt_padWord, if_neg (by omega), zero_mul]

end Cert.Hgnn
-- ==== Proof.PayloadsAt.lean ====
import proofs.«422453_j56642028700408_3_alg».proof.Proof.Gen.KernelIdeal.Skeleton
import proofs.«422453_j56642028700408_3_alg».proof.Proof.StageMath
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.PureOps.IdealRules

noncomputable section

open scoped BigOperators

namespace Cert.KernelIdeal.PayAt

open Cert.KernelIdeal Cert.KernelIdeal.Gen Cert.Hgnn Idealize.ShloMosaic ValueIdx

-- The compare bit, widened and read as a signed integer, is 1 where the words agree and 0 elsewhere.
theorem onehot_ind (a b : BitVec 32) :
    (FloatOps.sitofp (F := Ideal) .f32 ((IntOp.cmpi .eq a b).setWidth 32) : EReal) = ind a b := by
  show (((((IntOp.cmpi .eq a b).setWidth 32).toInt : ℤ) : ℝ) : EReal) = ind a b
  unfold ind IntOp.cmpi
  by_cases h : a = b
  · subst h
    simp
  · rw [if_neg h]
    have : (a == b) = false := by simpa using h
    simp [this]

-- An [a, 1] column broadcast to [a, b] reads, at (p, c), the column's entry of row p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A plain product into the zero accumulator is the sum over the contracted coordinate of the entries' products.
theorem matmul_plain_at {m k n : Nat} {φ₁ φ₂ : FTy} (lhs : FVec Ideal ⟨2, ![m, k]⟩ φ₁) (rhs : FVec Ideal ⟨2, ![k, n]⟩ φ₂)
    (r : Fin m) (q : Fin n) :
    FloatOps.matmul (DotDims.plain m k n) none lhs rhs (constant ⟨2, ![m, n]⟩ .f32 0x00000000#32) (ix2 r q)
      = ∑ c : Fin k, lhs (ix2 r c) * rhs (ix2 c q) :=
  (Ideal.matmul_constant_zero_apply _ none lhs rhs _).trans
    ((Ideal.dotGeneral_apply _ none _ lhs rhs _).symm.trans (StackMember.dotGeneral_plain_apply none lhs rhs r q))

-- The zero every accumulator is started at.
theorem zero_at {s : Shape} (h : s.ShapeCasts s) (i : s.Idx) :
    shapeCast s (broadcast s (Scalar.ofBits (F := Ideal) .f32 0x00000000#32)) h i = 0 := by
  rw [shapeCast_self]
  exact Ideal.ofBits_zero_f32

variable {D : Nat}

-- A gather point adds, to edge r's row, the one-hot row of its source word against the node numbers b * 1024 + k, times the node rows.
theorem gather_point (b : Nat) (v7 : Vec Ideal S8192x1 .i32) (v14 : FVec Ideal ⟨2, ![8192, D]⟩ .f32)
    (v15 : FVec Ideal ⟨2, ![1024, D]⟩ .f32) (r : Fin 8192) (q : Fin D) :
    addf (F := Ideal) v14 (matmul (DotDims.plain 8192 1024 D) none
        (truncf .bf16 (sitofp .f32 (extui 32 (cmpi .eq (broadcastTo S8192x1024 v7 broadcasts_S8192x1_S8192x1024)
          (addi (iota .tc S8192x1024 32 [1] iota_S8192x1024_d1_w32)
            (broadcast S8192x1024 (Scalar.muli (BitVec.ofNat 32 b) 1024#32)))) natLt_1_32)) bitsLt_bf16_f32)
        (truncf .bf16 v15 bitsLt_bf16_f32) (constant _ .f32 0x00000000#32)) (ix2 r q)
      = v14 (ix2 r q) + ∑ k : Fin 1024, ind (v7 (ix2 r 0)) (BitVec.ofNat 32 (b * 1024 + k.val)) * v15 (ix2 k q) := by
  rw [addf_apply]
  refine congrArg (v14 (ix2 r q) + ·) ((matmul_plain_at _ _ r q).trans (Finset.sum_congr rfl fun k _ => ?_))
  exact congrArg (· * v15 (ix2 k q)) ((onehot_ind _ _).trans (congrArg₂ ind (broadcastTo_a1_ab_apply v7 _ r k)
    ((congrArg (· + _) (iota_single_apply _ _ _ _ _ _)).trans (node_word b k.val))))

-- A scatter point adds, to node row r, the one-hot column of the destination words against the node number b * 1024 + r, times the messages.
theorem scatter_point (b : Nat) (v7 : Vec Ideal S1x8192 .i32) (v14 : FVec Ideal ⟨2, ![1024, D]⟩ .f32)
    (v15 : FVec Ideal ⟨2, ![8192, D]⟩ .f32) (r : Fin 1024) (q : Fin D) :
    addf (F := Ideal) v14 (matmul (DotDims.plain 1024 8192 D) none
        (truncf .bf16 (sitofp .f32 (extui 32 (cmpi .eq (broadcastTo S1024x8192 v7 broadcasts_S1x8192_S1024x8192)
          (addi (iota .tc S1024x8192 32 [0] iota_S1024x8192_d0_w32)
            (broadcast S1024x8192 (Scalar.muli (BitVec.ofNat 32 b) 1024#32)))) natLt_1_32)) bitsLt_bf16_f32)
        (truncf .bf16 v15 bitsLt_bf16_f32) (constant _ .f32 0x00000000#32)) (ix2 r q)
      = v14 (ix2 r q) + ∑ k : Fin 8192, ind (v7 (ix2 0 k)) (BitVec.ofNat 32 (b * 1024 + r.val)) * v15 (ix2 k q) := by
  rw [addf_apply]
  refine congrArg (v14 (ix2 r q) + ·) ((matmul_plain_at _ _ r q).trans (Finset.sum_congr rfl fun k _ => ?_))
  exact congrArg (· * v15 (ix2 k q)) ((onehot_ind _ _).trans (congrArg₂ ind (broadcastTo_1b_ab_apply v7 _ r k)
    ((congrArg (· + _) (iota_single_apply _ _ _ _ _ _)).trans (node_word b r.val))))

theorem k0_pay1_at (r : Fin 8192) (q : Fin 64) : (k0_pay1 (F := Ideal)) (ix2 r q) = 0 :=
  zero_at _ _

theorem k0_pay2_at (i : grid0.Coords) (v7 : Vec Ideal S8192x1 .i32) (v14 : Vec Ideal S8192x64 .f32) (v15 : Vec Ideal S1024x64 .f32) (r : Fin 8192) (q : Fin 64) :
    k0_pay2 (F := Ideal) i v7 v14 v15 (ix2 r q) = v14 (ix2 r q) + ∑ k : Fin 1024, ind (v7 (ix2 r 0)) (BitVec.ofNat 32 ((i 1).val * 1024 + k.val)) * v15 (ix2 k q) := by
  unfold k0_pay2
  simp only [shapeCast_self]
  exact gather_point (i 1).val v7 v14 v15 r q

theorem k0_pay3_at (v26 : Vec Ideal S8192x64 .f32) (v27 : Vec Ideal S8192x1 .f32) (r : Fin 8192) (q : Fin 64) :
    k0_pay3 (F := Ideal) v26 v27 (ix2 r q) = v26 (ix2 r q) * v27 (ix2 r 0) := by
  unfold k0_pay3
  rw [shapeCast_self, mulf_apply, broadcastTo_a1_ab_apply]

theorem k1_pay1_at (r : Fin 1024) (q : Fin 64) : (k1_pay1 (F := Ideal)) (ix2 r q) = 0 :=
  zero_at _ _

theorem k1_pay2_at (i : grid1.Coords) (v7 : Vec Ideal S1x8192 .i32) (v14 : Vec Ideal S1024x64 .f32) (v15 : Vec Ideal S8192x64 .f32) (r : Fin 1024) (q : Fin 64) :
    k1_pay2 (F := Ideal) i v7 v14 v15 (ix2 r q) = v14 (ix2 r q) + ∑ k : Fin 8192, ind (v7 (ix2 0 k)) (BitVec.ofNat 32 ((i 0).val * 1024 + r.val)) * v15 (ix2 k q) := by
  unfold k1_pay2
  simp only [shapeCast_self]
  exact scatter_point (i 0).val v7 v14 v15 r q

theorem k1_pay3_at (v26 : Vec Ideal S1024x64 .f32) (r : Fin 1024) (q : Fin 64) :
    k1_pay3 (F := Ideal) v26 (ix2 r q) = max (v26 (ix2 r q)) 0 :=
  congrArg (max _) Ideal.ofBits_zero_f32

theorem k2_pay1_at (r : Fin 8192) (q : Fin 32) : (k2_pay1 (F := Ideal)) (ix2 r q) = 0 :=
  zero_at _ _

theorem k2_pay2_at (i : grid2.Coords) (v7 : Vec Ideal S8192x1 .i32) (v14 : Vec Ideal S8192x32 .f32) (v15 : Vec Ideal S1024x32 .f32) (r : Fin 8192) (q : Fin 32) :
    k2_pay2 (F := Ideal) i v7 v14 v15 (ix2 r q) = v14 (ix2 r q) + ∑ k : Fin 1024, ind (v7 (ix2 r 0)) (BitVec.ofNat 32 ((i 1).val * 1024 + k.val)) * v15 (ix2 k q) := by
  unfold k2_pay2
  simp only [shapeCast_self]
  exact gather_point (i 1).val v7 v14 v15 r q

theorem k2_pay3_at (v26 : Vec Ideal S8192x32 .f32) (v27 : Vec Ideal S8192x1 .f32) (r : Fin 8192) (q : Fin 32) :
    k2_pay3 (F := Ideal) v26 v27 (ix2 r q) = v26 (ix2 r q) * v27 (ix2 r 0) := by
  unfold k2_pay3
  rw [shapeCast_self, mulf_apply, broadcastTo_a1_ab_apply]

theorem k3_pay1_at (r : Fin 1024) (q : Fin 32) : (k3_pay1 (F := Ideal)) (ix2 r q) = 0 :=
  zero_at _ _

theorem k3_pay2_at (i : grid3.Coords) (v7 : Vec Ideal S1x8192 .i32) (v14 : Vec Ideal S1024x32 .f32) (v15 : Vec Ideal S8192x32 .f32) (r : Fin 1024) (q : Fin 32) :
    k3_pay2 (F := Ideal) i v7 v14 v15 (ix2 r q) = v14 (ix2 r q) + ∑ k : Fin 8192, ind (v7 (ix2 0 k)) (BitVec.ofNat 32 ((i 0).val * 1024 + r.val)) * v15 (ix2 k q) := by
  unfold k3_pay2
  simp only [shapeCast_self]
  exact scatter_point (i 0).val v7 v14 v15 r q

theorem k3_pay3_at (v26 : Vec Ideal S1024x32 .f32) (r : Fin 1024) (q : Fin 32) :
    k3_pay3 (F := Ideal) v26 (ix2 r q) = max (v26 (ix2 r q)) 0 :=
  congrArg (max _) Ideal.ofBits_zero_f32

theorem k4_pay1_at (r : Fin 8192) (q : Fin 32) : (k4_pay1 (F := Ideal)) (ix2 r q) = 0 :=
  zero_at _ _

theorem k4_pay2_at (i : grid4.Coords) (v7 : Vec Ideal S8192x1 .i32) (v14 : Vec Ideal S8192x32 .f32) (v15 : Vec Ideal S1024x32 .f32) (r : Fin 8192) (q : Fin 32) :
    k4_pay2 (F := Ideal) i v7 v14 v15 (ix2 r q) = v14 (ix2 r q) + ∑ k : Fin 1024, ind (v7 (ix2 r 0)) (BitVec.ofNat 32 ((i 1).val * 1024 + k.val)) * v15 (ix2 k q) := by
  unfold k4_pay2
  simp only [shapeCast_self]
  exact gather_point (i 1).val v7 v14 v15 r q

theorem k4_pay3_at (v26 : Vec Ideal S8192x32 .f32) (v27 : Vec Ideal S8192x1 .f32) (r : Fin 8192) (q : Fin 32) :
    k4_pay3 (F := Ideal) v26 v27 (ix2 r q) = v26 (ix2 r q) * v27 (ix2 r 0) := by
  unfold k4_pay3
  rw [shapeCast_self, mulf_apply, broadcastTo_a1_ab_apply]

theorem k5_pay1_at (r : Fin 1024) (q : Fin 32) : (k5_pay1 (F := Ideal)) (ix2 r q) = 0 :=
  zero_at _ _

theorem k5_pay2_at (i : grid5.Coords) (v7 : Vec Ideal S1x8192 .i32) (v14 : Vec Ideal S1024x32 .f32) (v15 : Vec Ideal S8192x32 .f32) (r : Fin 1024) (q : Fin 32) :
    k5_pay2 (F := Ideal) i v7 v14 v15 (ix2 r q) = v14 (ix2 r q) + ∑ k : Fin 8192, ind (v7 (ix2 0 k)) (BitVec.ofNat 32 ((i 0).val * 1024 + r.val)) * v15 (ix2 k q) := by
  unfold k5_pay2
  simp only [shapeCast_self]
  exact scatter_point (i 0).val v7 v14 v15 r q

-- The named constant denotes the rational 1/1000000.
theorem k5_pay3_at (v26 : Vec Ideal S1024x32 .f32) (r : Fin 1024) (q : Fin 32) :
    k5_pay3 (F := Ideal) v26 (ix2 r q) = v26 (ix2 r q) * ((1 / 1000000 : ℝ) : EReal) :=
  congrArg (_ * ·) (IdealRules.named_const.ideal_named_scalar _ _ _ _ rfl)

end Cert.KernelIdeal.PayAt
-- ==== Proof.LibPartialSums.lean ====
import Mathlib.Algebra.BigOperators.Fin
import Mathlib.Data.Fintype.BigOperators

open Finset

namespace Cert.Hgnn

/-- The terms below `m * b` and the `b` terms from `m * b` on are the terms below `(m + 1) * b`. -/
theorem sum_range_tile {M : Type*} [AddCommMonoid M] (f : ℕ → M) (m b : ℕ) :
    ∑ j ∈ range (m * b), f j + ∑ k : Fin b, f (m * b + k) = ∑ j ∈ range ((m + 1) * b), f j := by
  rw [Fin.sum_univ_eq_sum_range fun k => f (m * b + k), ← sum_range_add, Nat.add_one_mul]

end Cert.Hgnn
-- ==== Proof.R0Value.lean ====
import proofs.«422453_j56642028700408_3_alg».proof.Proof.R0Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: quotient and residue by 49. -/
theorem idx_facts0 : ∀ t : Fin cfg0.N, win0_0.index t (0 : Fin 2) = t.val / 49 ∧ win0_0.index t (1 : Fin 2) = 0
    ∧ win0_1.index t (0 : Fin 2) = t.val / 49 ∧ win0_1.index t (1 : Fin 2) = 0
    ∧ win0_2.index t (0 : Fin 2) = t.val % 49 ∧ win0_2.index t (1 : Fin 2) = 0
    ∧ win0_3.index t (0 : Fin 2) = t.val / 49 ∧ win0_3.index t (1 : Fin 2) = 0
    ∧ ((grid0.coords t) 1).val = t.val % 49 :=
  (by decide +kernel : ∀ t : Fin grid0.N, _)

variable (V : (c : Dev nD) → (b : Ref sig .tc) → Buf (Elt Ideal) ((c : Thread nD τ).loc b)) (c : Dev nD) (t : Fin cfg0.N)

theorem srcBlk0_apply (r : Fin 8192) (E : Fin 1007616) (hE : E.val = t.val / 49 * 8192 + r.val) :
    iblk0 V c 0 t (ix2 r 0) = V c main_v9 (ix2 E 0) := by
  obtain ⟨e0, e1, -⟩ := idx_facts0 t
  refine congrArg (V c main_v9) (Shape.idx_ext₂ ?_ ?_)
  · show win0_0.index t (0 : Fin 2) * 8192 + 1 * r.val = E.val; rw [e0, hE]; omega
  · show win0_0.index t (1 : Fin 2) * 1 + 1 * 0 = 0; rw [e1]

theorem wBlk0_apply (r : Fin 8192) (E : Fin 1007616) (hE : E.val = t.val / 49 * 8192 + r.val) :
    iblk0 V c 1 t (ix2 r 0) = V c main_v13 (ix2 E 0) := by
  obtain ⟨-, -, e0, e1, -⟩ := idx_facts0 t
  refine congrArg (V c main_v13) (Shape.idx_ext₂ ?_ ?_)
  · show win0_1.index t (0 : Fin 2) * 8192 + 1 * r.val = E.val; rw [e0, hE]; omega
  · show win0_1.index t (1 : Fin 2) * 1 + 1 * 0 = 0; rw [e1]

theorem rowBlk0_apply (k : Fin 1024) (q : Fin 64) (j : Fin 50176) (hj : j.val = t.val % 49 * 1024 + k.val) :
    iblk0 V c 2 t (ix2 k q) = V c main_v14 (ix2 j q) := by
  obtain ⟨-, -, -, -, e0, e1, -⟩ := idx_facts0 t
  refine congrArg (V c main_v14) (Shape.idx_ext₂ ?_ ?_)
  · show win0_2.index t (0 : Fin 2) * 1024 + 1 * k.val = j.val; rw [e0, hj]; omega
  · show win0_2.index t (1 : Fin 2) * 64 + 1 * q.val = q.val; rw [e1]; omega

/-- The result window's block at a point, read off whole-array contents `G`: its rows are the point's edge block's. -/
theorem resBlk0_apply (G : Vec Ideal S1007616x64 .f32) (r : Fin 8192) (q : Fin 64) (E : Fin 1007616) (hE : E.val = t.val / 49 * 8192 + r.val) :
    ((cfg0.win 3).blk t).view.read (Elt Ideal) G (ix2 r q) = G (ix2 E q) := by
  obtain ⟨-, -, -, -, -, -, e0, e1, -⟩ := idx_facts0 t
  refine congrArg G (Shape.idx_ext₂ ?_ ?_)
  · show win0_3.index t (0 : Fin 2) * 8192 + 1 * r.val = E.val; rw [e0, hE]; omega
  · show win0_3.index t (1 : Fin 2) * 64 + 1 * q.val = q.val; rw [e1]; omega

/-- Term `j` of the one-hot row of the word `w` against the node rows at column `q`; zero past the last row. -/
def term0 (rows : Vec Ideal S50176x64 .f32) (w : BitVec 32) (q : Fin 64) (j : ℕ) : EReal :=
  if h : j < 50176 then ind w (BitVec.ofNat 32 j) * rows (ix2 ⟨j, h⟩ q) else 0

/-- One point's update adds its node block's 1024 terms to the terms of the blocks before it. -/
theorem upd0_at (acc : Vec Ideal S8192x64 .f32) (r : Fin 8192) (q : Fin 64) (E : Fin 1007616)
    (hE : E.val = t.val / 49 * 8192 + r.val)
    (hA : acc (ix2 r q) = ∑ j ∈ Finset.range (t.val % 49 * 1024), term0 (V c main_v14) (V c main_v9 (ix2 E 0)) q j) :
    k0_pay2 (grid0.coords t) (iblk0 V c 0 t) acc (iblk0 V c 2 t) (ix2 r q)
      = ∑ j ∈ Finset.range ((t.val % 49 + 1) * 1024), term0 (V c main_v14) (V c main_v9 (ix2 E 0)) q j := by
  rw [k0_pay2_at, hA, ← sum_range_tile]
  refine congrArg _ (Finset.sum_congr rfl fun k _ => ?_)
  have hlt : t.val % 49 * 1024 + k.val < 50176 := by omega
  rw [term0, dif_pos hlt, srcBlk0_apply V c t r E hE, rowBlk0_apply V c t k q ⟨_, hlt⟩ rfl, (idx_facts0 t).2.2.2.2.2.2.2.2]

/-- After point `n` entry `(r, q)` of the accumulator holds the terms of the node blocks walked so far, by induction on the point. -/
theorem acc0_closed : ∀ (n : ℕ) (hn : n < cfg0.N) (r : Fin 8192) (q : Fin 64) (E : Fin 1007616), E.val = n / 49 * 8192 + r.val →
    accAt0 V c n hn (ix2 r q) = ∑ j ∈ Finset.range ((n % 49 + 1) * 1024), term0 (V c main_v14) (V c main_v9 (ix2 E 0)) q j
  | n, hn, r, q, E, hE => by
    by_cases h0 : n % 49 = 0
    · rw [accAt0_first V c ⟨n, hn⟩ h0]
      exact upd0_at V c ⟨n, hn⟩ _ r q E hE (by rw [k0_pay1_at]; show 0 = ∑ j ∈ Finset.range (n % 49 * 1024), _; rw [h0, Nat.zero_mul, Finset.sum_range_zero])
    · rw [accAt0_later V c ⟨n, hn⟩ h0]
      refine upd0_at V c ⟨n, hn⟩ _ r q E hE ((acc0_closed (n - 1) _ r q E (by rw [hE]; congr 2; omega)).trans ?_)
      rw [show (n - 1) % 49 + 1 = n % 49 by omega]

/-- The stage's result in closed form: the one-hot gather of the padded arrays the stage finds. -/
def G0 : Vec Ideal S1007616x64 .f32 := fun j =>
  gatherK (fun E => V c main_v9 (ix2 E 0)) (fun E => V c main_v13 (ix2 E 0)) (fun n q => V c main_v14 (ix2 n q)) (j 0) (j 1)

/-- At a last node block the result block is the closed form's: the 49 node blocks' terms are the whole sum. -/
theorem flushed0_eq (hf : (cfg0.win 3).flush t = true) :
    (dat0 V c).flushed 3 t = ((cfg0.win 3).blk t).view.read (Elt Ideal) (G0 V c) := by
  have h1 : t.val % 49 = 48 := (flush0_3 t).mp hf
  have hN : t.val < 6027 := lt_of_lt_of_eq t.isLt (show cfg0.N = 6027 from N_0)
  refine funext fun (j : S8192x64.Idx) => ?_
  obtain ⟨r, q, rfl⟩ : ∃ (r : Fin 8192) (q : Fin 64), j = ix2 r q := ⟨j 0, j 1, eq_ix2 j⟩
  have hr : r.val < 8192 := r.isLt
  let E : Fin 1007616 := ⟨t.val / 49 * 8192 + r.val, by omega⟩
  refine Eq.trans ?_ (resBlk0_apply t (G0 V c) r q E rfl).symm
  show (cfg0.win 3).cut (grid0.coords t) ((dat0 V c).after 3 t) (ix2 r q) = _
  rw [after0_3]
  refine (k0_pay3_at _ _ r q).trans ?_
  rewrite [acc0_closed V c t.val t.isLt r q E rfl, wBlk0_apply V c t r E rfl, h1]
  exact congrArg (· * V c main_v13 (ix2 E 0)) (Finset.sum_fin_eq_sum_range fun j : Fin 50176 => ind (V c main_v9 (ix2 E 0)) (BitVec.ofNat 32 j.val) * V c main_v14 (ix2 j q)).symm

/-- Every entry of the result array lies in the result block of some last node block. -/
theorem cover0 (i : S1007616x64.Idx) : ∃ t : Fin cfg0.N, (cfg0.win 3).flush t = true ∧ i ∈ ((cfg0.win 3).blk t).view.set := by
  have hi0 : (i 0).val < 1007616 := (i 0).isLt
  have hi1 : (i 1).val < 64 := (i 1).isLt
  have hN : cfg0.N = 6027 := N_0
  let t : Fin cfg0.N := ⟨(i 0).val / 8192 * 49 + 48, by rw [hN]; omega⟩
  have ht : t.val = (i 0).val / 8192 * 49 + 48 := rfl
  refine ⟨t, (flush0_3 t).mpr (by rw [ht]; omega), ?_⟩
  show i ∈ ((View.whole main_v15).slice (win0_3.rect t)).set
  rw [View.set_slice_whole, Rect.mem_set_unit]
  obtain ⟨-, -, -, -, -, -, e0, e1, -⟩ := idx_facts0 t
  intro a
  match a with
  | ⟨0, _⟩ => show win0_3.index t (0 : Fin 2) * 8192 ≤ (i 0).val ∧ (i 0).val < win0_3.index t (0 : Fin 2) * 8192 + 8192; rw [e0, ht]; omega
  | ⟨1, _⟩ => show win0_3.index t (1 : Fin 2) * 64 ≤ (i 1).val ∧ (i 1).val < win0_3.index t (1 : Fin 2) * 64 + 64; rw [e1]; omega

/-- The gather stage's result array, entry by entry, is the one-hot gather of the arrays the stage finds. -/
theorem val0 (E : Fin 1007616) (q : Fin 64) :
    ((dat0 (F := Ideal) V c).arrAt 3 cfg0.N) (ix2 E q)
      = Cert.Hgnn.gatherK (fun E => V c main_v9 (ix2 E 0)) (fun E => V c main_v13 (ix2 E 0)) (fun j q => V c main_v14 (ix2 j q)) E q :=
  congrFun ((dat0 V c).arrAt_eq_of_cover 3 (G0 V c) (fun t => flushed0_eq V c t) cover0) (ix2 E q)

end Cert.KernelIdeal.Hand
-- ==== Proof.R1Value.lean ====
import proofs.«422453_j56642028700408_3_alg».proof.Proof.R1Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: residue and quotient by 123. -/
theorem idx_facts1 : ∀ t : Fin cfg1.N, win1_0.index t (0 : Fin 2) = 0 ∧ win1_0.index t (1 : Fin 2) = t.val % 123
    ∧ win1_1.index t (0 : Fin 2) = t.val % 123 ∧ win1_1.index t (1 : Fin 2) = 0
    ∧ win1_2.index t (0 : Fin 2) = t.val / 123 ∧ win1_2.index t (1 : Fin 2) = 0
    ∧ ((grid1.coords t) 0).val = t.val / 123 :=
  (by decide +kernel : ∀ t : Fin grid1.N, _)

variable (V : (c : Dev nD) → (b : Ref sig .tc) → Buf (Elt Ideal) ((c : Thread nD τ).loc b)) (c : Dev nD) (t : Fin cfg1.N)

theorem dstBlk1_apply (k : Fin 8192) (E : Fin 1007616) (hE : E.val = t.val % 123 * 8192 + k.val) :
    iblk1 V c 0 t (ix2 0 k) = V c main_v11 (ix2 0 E) := by
  obtain ⟨e0, e1, -⟩ := idx_facts1 t
  refine congrArg (V c main_v11) (Shape.idx_ext₂ ?_ ?_)
  · show win1_0.index t (0 : Fin 2) * 1 + 1 * 0 = 0; rw [e0]
  · show win1_0.index t (1 : Fin 2) * 8192 + 1 * k.val = E.val; rw [e1, hE]; omega

theorem msgBlk1_apply (k : Fin 8192) (q : Fin 64) (E : Fin 1007616) (hE : E.val = t.val % 123 * 8192 + k.val) :
    iblk1 V c 1 t (ix2 k q) = V c main_v15 (ix2 E q) := by
  obtain ⟨-, -, e0, e1, -⟩ := idx_facts1 t
  refine congrArg (V c main_v15) (Shape.idx_ext₂ ?_ ?_)
  · show win1_1.index t (0 : Fin 2) * 8192 + 1 * k.val = E.val; rw [e0, hE]; omega
  · show win1_1.index t (1 : Fin 2) * 64 + 1 * q.val = q.val; rw [e1]; omega

/-- The result window's block at a point, read off whole-array contents `G`: its rows are the point's node block's. -/
theorem resBlk1_apply (G : Vec Ideal S50176x64 .f32) (r : Fin 1024) (q : Fin 64) (N : Fin 50176) (hN : N.val = t.val / 123 * 1024 + r.val) :
    ((cfg1.win 2).blk t).view.read (Elt Ideal) G (ix2 r q) = G (ix2 N q) := by
  obtain ⟨-, -, -, -, e0, e1, -⟩ := idx_facts1 t
  refine congrArg G (Shape.idx_ext₂ ?_ ?_)
  · show win1_2.index t (0 : Fin 2) * 1024 + 1 * r.val = N.val; rw [e0, hN]; omega
  · show win1_2.index t (1 : Fin 2) * 64 + 1 * q.val = q.val; rw [e1]; omega

/-- Term `E` of the one-hot column of the destination words against the node word `w` at column `q`; zero past the last edge. -/
def term1 (dst : Vec Ideal S1x1007616 .i32) (msg : Vec Ideal S1007616x64 .f32) (w : BitVec 32) (q : Fin 64) (E : ℕ) : EReal :=
  if h : E < 1007616 then ind (dst (ix2 0 ⟨E, h⟩)) w * msg (ix2 ⟨E, h⟩ q) else 0

/-- One point's update adds its edge block's 8192 terms to the terms of the blocks before it. -/
theorem upd1_at (acc : Vec Ideal S1024x64 .f32) (r : Fin 1024) (q : Fin 64)
    (hA : acc (ix2 r q) = ∑ E ∈ Finset.range (t.val % 123 * 8192),
      term1 (V c main_v11) (V c main_v15) (BitVec.ofNat 32 (t.val / 123 * 1024 + r.val)) q E) :
    k1_pay2 (grid1.coords t) (iblk1 V c 0 t) acc (iblk1 V c 1 t) (ix2 r q)
      = ∑ E ∈ Finset.range ((t.val % 123 + 1) * 8192),
          term1 (V c main_v11) (V c main_v15) (BitVec.ofNat 32 (t.val / 123 * 1024 + r.val)) q E := by
  rw [k1_pay2_at, hA, ← sum_range_tile]
  refine congrArg _ (Finset.sum_congr rfl fun k _ => ?_)
  have hlt : t.val % 123 * 8192 + k.val < 1007616 := by omega
  rw [term1, dif_pos hlt, dstBlk1_apply V c t k ⟨_, hlt⟩ rfl, msgBlk1_apply V c t k q ⟨_, hlt⟩ rfl, (idx_facts1 t).2.2.2.2.2.2]

/-- After point `n` entry `(r, q)` of the accumulator holds the terms of the edge blocks walked so far, by induction on the point. -/
theorem acc1_closed : ∀ (n : ℕ) (hn : n < cfg1.N) (r : Fin 1024) (q : Fin 64),
    accAt1 V c n hn (ix2 r q) = ∑ E ∈ Finset.range ((n % 123 + 1) * 8192),
      term1 (V c main_v11) (V c main_v15) (BitVec.ofNat 32 (n / 123 * 1024 + r.val)) q E
  | n, hn, r, q => by
    by_cases h0 : n % 123 = 0
    · rw [accAt1_first V c ⟨n, hn⟩ h0]
      exact upd1_at V c ⟨n, hn⟩ _ r q (by rw [k1_pay1_at]; show 0 = ∑ E ∈ Finset.range (n % 123 * 8192), _; rw [h0, Nat.zero_mul, Finset.sum_range_zero])
    · rw [accAt1_later V c ⟨n, hn⟩ h0]
      refine upd1_at V c ⟨n, hn⟩ _ r q ((acc1_closed (n - 1) _ r q).trans ?_)
      rw [show (n - 1) % 123 + 1 = n % 123 by omega, show (n - 1) / 123 = n / 123 by omega]

/-- How the last edge block finishes an entry. -/
def fin1 (x : EReal) : EReal := max x 0

/-- The stage's result in closed form: the finished one-hot scatter-add of the padded arrays the stage finds. -/
def G1 : Vec Ideal S50176x64 .f32 := fun j =>
  fin1 (scatterK (fun E => V c main_v11 (ix2 0 E)) (fun E q => V c main_v15 (ix2 E q)) (j 0) (j 1))

/-- At a last edge block the result block is the closed form's: the 123 edge blocks' terms are the whole sum. -/
theorem flushed1_eq (hf : (cfg1.win 2).flush t = true) :
    (dat1 V c).flushed 2 t = ((cfg1.win 2).blk t).view.read (Elt Ideal) (G1 V c) := by
  have h1 : t.val % 123 = 122 := (flush1_2 t).mp hf
  have hN : t.val < 6027 := lt_of_lt_of_eq t.isLt (show cfg1.N = 6027 from N_1)
  refine funext fun (j : S1024x64.Idx) => ?_
  obtain ⟨r, q, rfl⟩ : ∃ (r : Fin 1024) (q : Fin 64), j = ix2 r q := ⟨j 0, j 1, eq_ix2 j⟩
  have hr : r.val < 1024 := r.isLt
  refine Eq.trans ?_ (resBlk1_apply t (G1 V c) r q ⟨t.val / 123 * 1024 + r.val, by omega⟩ rfl).symm
  show (cfg1.win 2).cut (grid1.coords t) ((dat1 V c).after 2 t) (ix2 r q) = _
  rw [after1_2]
  refine (k1_pay3_at _ r q).trans (congrArg fin1 ?_)
  rewrite [acc1_closed V c t.val t.isLt r q, h1]
  exact (Finset.sum_fin_eq_sum_range fun E : Fin 1007616 => ind (V c main_v11 (ix2 0 E)) (BitVec.ofNat 32 (t.val / 123 * 1024 + r.val)) * V c main_v15 (ix2 E q)).symm

/-- Every entry of the result array lies in the result block of some last edge block. -/
theorem cover1 (i : S50176x64.Idx) : ∃ t : Fin cfg1.N, (cfg1.win 2).flush t = true ∧ i ∈ ((cfg1.win 2).blk t).view.set := by
  have hi0 : (i 0).val < 50176 := (i 0).isLt
  have hi1 : (i 1).val < 64 := (i 1).isLt
  have hN : cfg1.N = 6027 := N_1
  let t : Fin cfg1.N := ⟨(i 0).val / 1024 * 123 + 122, by rw [hN]; omega⟩
  have ht : t.val = (i 0).val / 1024 * 123 + 122 := rfl
  refine ⟨t, (flush1_2 t).mpr (by rw [ht]; omega), ?_⟩
  show i ∈ ((View.whole main_v16).slice (win1_2.rect t)).set
  rw [View.set_slice_whole, Rect.mem_set_unit]
  obtain ⟨-, -, -, -, e0, e1, -⟩ := idx_facts1 t
  intro a
  match a with
  | ⟨0, _⟩ => show win1_2.index t (0 : Fin 2) * 1024 ≤ (i 0).val ∧ (i 0).val < win1_2.index t (0 : Fin 2) * 1024 + 1024; rw [e0, ht]; omega
  | ⟨1, _⟩ => show win1_2.index t (1 : Fin 2) * 64 ≤ (i 1).val ∧ (i 1).val < win1_2.index t (1 : Fin 2) * 64 + 64; rw [e1]; omega

/-- The scatter stage's result array, entry by entry, is the finished one-hot scatter-add of the arrays the stage finds. -/
theorem val1 (N : Fin 50176) (q : Fin 64) :
    ((dat1 (F := Ideal) V c).arrAt 2 cfg1.N) (ix2 N q)
      = fin1 (Cert.Hgnn.scatterK (fun E => V c main_v11 (ix2 0 E)) (fun E q => V c main_v15 (ix2 E q)) N q) :=
  congrFun ((dat1 V c).arrAt_eq_of_cover 2 (G1 V c) (fun t => flushed1_eq V c t) cover1) (ix2 N q)

end Cert.KernelIdeal.Hand
-- ==== Proof.R2Value.lean ====
import proofs.«422453_j56642028700408_3_alg».proof.Proof.R2Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: quotient and residue by 49. -/
theorem idx_facts2 : ∀ t : Fin cfg2.N, win2_0.index t (0 : Fin 2) = t.val / 49 ∧ win2_0.index t (1 : Fin 2) = 0
    ∧ win2_1.index t (0 : Fin 2) = t.val / 49 ∧ win2_1.index t (1 : Fin 2) = 0
    ∧ win2_2.index t (0 : Fin 2) = t.val % 49 ∧ win2_2.index t (1 : Fin 2) = 0
    ∧ win2_3.index t (0 : Fin 2) = t.val / 49 ∧ win2_3.index t (1 : Fin 2) = 0
    ∧ ((grid2.coords t) 1).val = t.val % 49 :=
  (by decide +kernel : ∀ t : Fin grid2.N, _)

variable (V : (c : Dev nD) → (b : Ref sig .tc) → Buf (Elt Ideal) ((c : Thread nD τ).loc b)) (c : Dev nD) (t : Fin cfg2.N)

theorem srcBlk2_apply (r : Fin 8192) (E : Fin 1007616) (hE : E.val = t.val / 49 * 8192 + r.val) :
    iblk2 V c 0 t (ix2 r 0) = V c main_v23 (ix2 E 0) := by
  obtain ⟨e0, e1, -⟩ := idx_facts2 t
  refine congrArg (V c main_v23) (Shape.idx_ext₂ ?_ ?_)
  · show win2_0.index t (0 : Fin 2) * 8192 + 1 * r.val = E.val; rw [e0, hE]; omega
  · show win2_0.index t (1 : Fin 2) * 1 + 1 * 0 = 0; rw [e1]

theorem wBlk2_apply (r : Fin 8192) (E : Fin 1007616) (hE : E.val = t.val / 49 * 8192 + r.val) :
    iblk2 V c 1 t (ix2 r 0) = V c main_v27 (ix2 E 0) := by
  obtain ⟨-, -, e0, e1, -⟩ := idx_facts2 t
  refine congrArg (V c main_v27) (Shape.idx_ext₂ ?_ ?_)
  · show win2_1.index t (0 : Fin 2) * 8192 + 1 * r.val = E.val; rw [e0, hE]; omega
  · show win2_1.index t (1 : Fin 2) * 1 + 1 * 0 = 0; rw [e1]

theorem rowBlk2_apply (k : Fin 1024) (q : Fin 32) (j : Fin 50176) (hj : j.val = t.val % 49 * 1024 + k.val) :
    iblk2 V c 2 t (ix2 k q) = V c main_v28 (ix2 j q) := by
  obtain ⟨-, -, -, -, e0, e1, -⟩ := idx_facts2 t
  refine congrArg (V c main_v28) (Shape.idx_ext₂ ?_ ?_)
  · show win2_2.index t (0 : Fin 2) * 1024 + 1 * k.val = j.val; rw [e0, hj]; omega
  · show win2_2.index t (1 : Fin 2) * 32 + 1 * q.val = q.val; rw [e1]; omega

/-- The result window's block at a point, read off whole-array contents `G`: its rows are the point's edge block's. -/
theorem resBlk2_apply (G : Vec Ideal S1007616x32 .f32) (r : Fin 8192) (q : Fin 32) (E : Fin 1007616) (hE : E.val = t.val / 49 * 8192 + r.val) :
    ((cfg2.win 3).blk t).view.read (Elt Ideal) G (ix2 r q) = G (ix2 E q) := by
  obtain ⟨-, -, -, -, -, -, e0, e1, -⟩ := idx_facts2 t
  refine congrArg G (Shape.idx_ext₂ ?_ ?_)
  · show win2_3.index t (0 : Fin 2) * 8192 + 1 * r.val = E.val; rw [e0, hE]; omega
  · show win2_3.index t (1 : Fin 2) * 32 + 1 * q.val = q.val; rw [e1]; omega

/-- Term `j` of the one-hot row of the word `w` against the node rows at column `q`; zero past the last row. -/
def term2 (rows : Vec Ideal S50176x32 .f32) (w : BitVec 32) (q : Fin 32) (j : ℕ) : EReal :=
  if h : j < 50176 then ind w (BitVec.ofNat 32 j) * rows (ix2 ⟨j, h⟩ q) else 0

/-- One point's update adds its node block's 1024 terms to the terms of the blocks before it. -/
theorem upd2_at (acc : Vec Ideal S8192x32 .f32) (r : Fin 8192) (q : Fin 32) (E : Fin 1007616)
    (hE : E.val = t.val / 49 * 8192 + r.val)
    (hA : acc (ix2 r q) = ∑ j ∈ Finset.range (t.val % 49 * 1024), term2 (V c main_v28) (V c main_v23 (ix2 E 0)) q j) :
    k2_pay2 (grid2.coords t) (iblk2 V c 0 t) acc (iblk2 V c 2 t) (ix2 r q)
      = ∑ j ∈ Finset.range ((t.val % 49 + 1) * 1024), term2 (V c main_v28) (V c main_v23 (ix2 E 0)) q j := by
  rw [k2_pay2_at, hA, ← sum_range_tile]
  refine congrArg _ (Finset.sum_congr rfl fun k _ => ?_)
  have hlt : t.val % 49 * 1024 + k.val < 50176 := by omega
  rw [term2, dif_pos hlt, srcBlk2_apply V c t r E hE, rowBlk2_apply V c t k q ⟨_, hlt⟩ rfl, (idx_facts2 t).2.2.2.2.2.2.2.2]

/-- After point `n` entry `(r, q)` of the accumulator holds the terms of the node blocks walked so far, by induction on the point. -/
theorem acc2_closed : ∀ (n : ℕ) (hn : n < cfg2.N) (r : Fin 8192) (q : Fin 32) (E : Fin 1007616), E.val = n / 49 * 8192 + r.val →
    accAt2 V c n hn (ix2 r q) = ∑ j ∈ Finset.range ((n % 49 + 1) * 1024), term2 (V c main_v28) (V c main_v23 (ix2 E 0)) q j
  | n, hn, r, q, E, hE => by
    by_cases h0 : n % 49 = 0
    · rw [accAt2_first V c ⟨n, hn⟩ h0]
      exact upd2_at V c ⟨n, hn⟩ _ r q E hE (by rw [k2_pay1_at]; show 0 = ∑ j ∈ Finset.range (n % 49 * 1024), _; rw [h0, Nat.zero_mul, Finset.sum_range_zero])
    · rw [accAt2_later V c ⟨n, hn⟩ h0]
      refine upd2_at V c ⟨n, hn⟩ _ r q E hE ((acc2_closed (n - 1) _ r q E (by rw [hE]; congr 2; omega)).trans ?_)
      rw [show (n - 1) % 49 + 1 = n % 49 by omega]

/-- The stage's result in closed form: the one-hot gather of the padded arrays the stage finds. -/
def G2 : Vec Ideal S1007616x32 .f32 := fun j =>
  gatherK (fun E => V c main_v23 (ix2 E 0)) (fun E => V c main_v27 (ix2 E 0)) (fun n q => V c main_v28 (ix2 n q)) (j 0) (j 1)

/-- At a last node block the result block is the closed form's: the 49 node blocks' terms are the whole sum. -/
theorem flushed2_eq (hf : (cfg2.win 3).flush t = true) :
    (dat2 V c).flushed 3 t = ((cfg2.win 3).blk t).view.read (Elt Ideal) (G2 V c) := by
  have h1 : t.val % 49 = 48 := (flush2_3 t).mp hf
  have hN : t.val < 6027 := lt_of_lt_of_eq t.isLt (show cfg2.N = 6027 from N_2)
  refine funext fun (j : S8192x32.Idx) => ?_
  obtain ⟨r, q, rfl⟩ : ∃ (r : Fin 8192) (q : Fin 32), j = ix2 r q := ⟨j 0, j 1, eq_ix2 j⟩
  have hr : r.val < 8192 := r.isLt
  let E : Fin 1007616 := ⟨t.val / 49 * 8192 + r.val, by omega⟩
  refine Eq.trans ?_ (resBlk2_apply t (G2 V c) r q E rfl).symm
  show (cfg2.win 3).cut (grid2.coords t) ((dat2 V c).after 3 t) (ix2 r q) = _
  rw [after2_3]
  refine (k2_pay3_at _ _ r q).trans ?_
  rewrite [acc2_closed V c t.val t.isLt r q E rfl, wBlk2_apply V c t r E rfl, h1]
  exact congrArg (· * V c main_v27 (ix2 E 0)) (Finset.sum_fin_eq_sum_range fun j : Fin 50176 => ind (V c main_v23 (ix2 E 0)) (BitVec.ofNat 32 j.val) * V c main_v28 (ix2 j q)).symm

/-- Every entry of the result array lies in the result block of some last node block. -/
theorem cover2 (i : S1007616x32.Idx) : ∃ t : Fin cfg2.N, (cfg2.win 3).flush t = true ∧ i ∈ ((cfg2.win 3).blk t).view.set := by
  have hi0 : (i 0).val < 1007616 := (i 0).isLt
  have hi1 : (i 1).val < 32 := (i 1).isLt
  have hN : cfg2.N = 6027 := N_2
  let t : Fin cfg2.N := ⟨(i 0).val / 8192 * 49 + 48, by rw [hN]; omega⟩
  have ht : t.val = (i 0).val / 8192 * 49 + 48 := rfl
  refine ⟨t, (flush2_3 t).mpr (by rw [ht]; omega), ?_⟩
  show i ∈ ((View.whole main_v29).slice (win2_3.rect t)).set
  rw [View.set_slice_whole, Rect.mem_set_unit]
  obtain ⟨-, -, -, -, -, -, e0, e1, -⟩ := idx_facts2 t
  intro a
  match a with
  | ⟨0, _⟩ => show win2_3.index t (0 : Fin 2) * 8192 ≤ (i 0).val ∧ (i 0).val < win2_3.index t (0 : Fin 2) * 8192 + 8192; rw [e0, ht]; omega
  | ⟨1, _⟩ => show win2_3.index t (1 : Fin 2) * 32 ≤ (i 1).val ∧ (i 1).val < win2_3.index t (1 : Fin 2) * 32 + 32; rw [e1]; omega

/-- The gather stage's result array, entry by entry, is the one-hot gather of the arrays the stage finds. -/
theorem val2 (E : Fin 1007616) (q : Fin 32) :
    ((dat2 (F := Ideal) V c).arrAt 3 cfg2.N) (ix2 E q)
      = Cert.Hgnn.gatherK (fun E => V c main_v23 (ix2 E 0)) (fun E => V c main_v27 (ix2 E 0)) (fun j q => V c main_v28 (ix2 j q)) E q :=
  congrFun ((dat2 V c).arrAt_eq_of_cover 3 (G2 V c) (fun t => flushed2_eq V c t) cover2) (ix2 E q)

end Cert.KernelIdeal.Hand
-- ==== Proof.R3Value.lean ====
import proofs.«422453_j56642028700408_3_alg».proof.Proof.R3Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: residue and quotient by 123. -/
theorem idx_facts3 : ∀ t : Fin cfg3.N, win3_0.index t (0 : Fin 2) = 0 ∧ win3_0.index t (1 : Fin 2) = t.val % 123
    ∧ win3_1.index t (0 : Fin 2) = t.val % 123 ∧ win3_1.index t (1 : Fin 2) = 0
    ∧ win3_2.index t (0 : Fin 2) = t.val / 123 ∧ win3_2.index t (1 : Fin 2) = 0
    ∧ ((grid3.coords t) 0).val = t.val / 123 :=
  (by decide +kernel : ∀ t : Fin grid3.N, _)

variable (V : (c : Dev nD) → (b : Ref sig .tc) → Buf (Elt Ideal) ((c : Thread nD τ).loc b)) (c : Dev nD) (t : Fin cfg3.N)

theorem dstBlk3_apply (k : Fin 8192) (E : Fin 1007616) (hE : E.val = t.val % 123 * 8192 + k.val) :
    iblk3 V c 0 t (ix2 0 k) = V c main_v25 (ix2 0 E) := by
  obtain ⟨e0, e1, -⟩ := idx_facts3 t
  refine congrArg (V c main_v25) (Shape.idx_ext₂ ?_ ?_)
  · show win3_0.index t (0 : Fin 2) * 1 + 1 * 0 = 0; rw [e0]
  · show win3_0.index t (1 : Fin 2) * 8192 + 1 * k.val = E.val; rw [e1, hE]; omega

theorem msgBlk3_apply (k : Fin 8192) (q : Fin 32) (E : Fin 1007616) (hE : E.val = t.val % 123 * 8192 + k.val) :
    iblk3 V c 1 t (ix2 k q) = V c main_v29 (ix2 E q) := by
  obtain ⟨-, -, e0, e1, -⟩ := idx_facts3 t
  refine congrArg (V c main_v29) (Shape.idx_ext₂ ?_ ?_)
  · show win3_1.index t (0 : Fin 2) * 8192 + 1 * k.val = E.val; rw [e0, hE]; omega
  · show win3_1.index t (1 : Fin 2) * 32 + 1 * q.val = q.val; rw [e1]; omega

/-- The result window's block at a point, read off whole-array contents `G`: its rows are the point's node block's. -/
theorem resBlk3_apply (G : Vec Ideal S50176x32 .f32) (r : Fin 1024) (q : Fin 32) (N : Fin 50176) (hN : N.val = t.val / 123 * 1024 + r.val) :
    ((cfg3.win 2).blk t).view.read (Elt Ideal) G (ix2 r q) = G (ix2 N q) := by
  obtain ⟨-, -, -, -, e0, e1, -⟩ := idx_facts3 t
  refine congrArg G (Shape.idx_ext₂ ?_ ?_)
  · show win3_2.index t (0 : Fin 2) * 1024 + 1 * r.val = N.val; rw [e0, hN]; omega
  · show win3_2.index t (1 : Fin 2) * 32 + 1 * q.val = q.val; rw [e1]; omega

/-- Term `E` of the one-hot column of the destination words against the node word `w` at column `q`; zero past the last edge. -/
def term3 (dst : Vec Ideal S1x1007616 .i32) (msg : Vec Ideal S1007616x32 .f32) (w : BitVec 32) (q : Fin 32) (E : ℕ) : EReal :=
  if h : E < 1007616 then ind (dst (ix2 0 ⟨E, h⟩)) w * msg (ix2 ⟨E, h⟩ q) else 0

/-- One point's update adds its edge block's 8192 terms to the terms of the blocks before it. -/
theorem upd3_at (acc : Vec Ideal S1024x32 .f32) (r : Fin 1024) (q : Fin 32)
    (hA : acc (ix2 r q) = ∑ E ∈ Finset.range (t.val % 123 * 8192),
      term3 (V c main_v25) (V c main_v29) (BitVec.ofNat 32 (t.val / 123 * 1024 + r.val)) q E) :
    k3_pay2 (grid3.coords t) (iblk3 V c 0 t) acc (iblk3 V c 1 t) (ix2 r q)
      = ∑ E ∈ Finset.range ((t.val % 123 + 1) * 8192),
          term3 (V c main_v25) (V c main_v29) (BitVec.ofNat 32 (t.val / 123 * 1024 + r.val)) q E := by
  rw [k3_pay2_at, hA, ← sum_range_tile]
  refine congrArg _ (Finset.sum_congr rfl fun k _ => ?_)
  have hlt : t.val % 123 * 8192 + k.val < 1007616 := by omega
  rw [term3, dif_pos hlt, dstBlk3_apply V c t k ⟨_, hlt⟩ rfl, msgBlk3_apply V c t k q ⟨_, hlt⟩ rfl, (idx_facts3 t).2.2.2.2.2.2]

/-- After point `n` entry `(r, q)` of the accumulator holds the terms of the edge blocks walked so far, by induction on the point. -/
theorem acc3_closed : ∀ (n : ℕ) (hn : n < cfg3.N) (r : Fin 1024) (q : Fin 32),
    accAt3 V c n hn (ix2 r q) = ∑ E ∈ Finset.range ((n % 123 + 1) * 8192),
      term3 (V c main_v25) (V c main_v29) (BitVec.ofNat 32 (n / 123 * 1024 + r.val)) q E
  | n, hn, r, q => by
    by_cases h0 : n % 123 = 0
    · rw [accAt3_first V c ⟨n, hn⟩ h0]
      exact upd3_at V c ⟨n, hn⟩ _ r q (by rw [k3_pay1_at]; show 0 = ∑ E ∈ Finset.range (n % 123 * 8192), _; rw [h0, Nat.zero_mul, Finset.sum_range_zero])
    · rw [accAt3_later V c ⟨n, hn⟩ h0]
      refine upd3_at V c ⟨n, hn⟩ _ r q ((acc3_closed (n - 1) _ r q).trans ?_)
      rw [show (n - 1) % 123 + 1 = n % 123 by omega, show (n - 1) / 123 = n / 123 by omega]

/-- How the last edge block finishes an entry. -/
def fin3 (x : EReal) : EReal := max x 0

/-- The stage's result in closed form: the finished one-hot scatter-add of the padded arrays the stage finds. -/
def G3 : Vec Ideal S50176x32 .f32 := fun j =>
  fin3 (scatterK (fun E => V c main_v25 (ix2 0 E)) (fun E q => V c main_v29 (ix2 E q)) (j 0) (j 1))

/-- At a last edge block the result block is the closed form's: the 123 edge blocks' terms are the whole sum. -/
theorem flushed3_eq (hf : (cfg3.win 2).flush t = true) :
    (dat3 V c).flushed 2 t = ((cfg3.win 2).blk t).view.read (Elt Ideal) (G3 V c) := by
  have h1 : t.val % 123 = 122 := (flush3_2 t).mp hf
  have hN : t.val < 6027 := lt_of_lt_of_eq t.isLt (show cfg3.N = 6027 from N_3)
  refine funext fun (j : S1024x32.Idx) => ?_
  obtain ⟨r, q, rfl⟩ : ∃ (r : Fin 1024) (q : Fin 32), j = ix2 r q := ⟨j 0, j 1, eq_ix2 j⟩
  have hr : r.val < 1024 := r.isLt
  refine Eq.trans ?_ (resBlk3_apply t (G3 V c) r q ⟨t.val / 123 * 1024 + r.val, by omega⟩ rfl).symm
  show (cfg3.win 2).cut (grid3.coords t) ((dat3 V c).after 2 t) (ix2 r q) = _
  rw [after3_2]
  refine (k3_pay3_at _ r q).trans (congrArg fin3 ?_)
  rewrite [acc3_closed V c t.val t.isLt r q, h1]
  exact (Finset.sum_fin_eq_sum_range fun E : Fin 1007616 => ind (V c main_v25 (ix2 0 E)) (BitVec.ofNat 32 (t.val / 123 * 1024 + r.val)) * V c main_v29 (ix2 E q)).symm

/-- Every entry of the result array lies in the result block of some last edge block. -/
theorem cover3 (i : S50176x32.Idx) : ∃ t : Fin cfg3.N, (cfg3.win 2).flush t = true ∧ i ∈ ((cfg3.win 2).blk t).view.set := by
  have hi0 : (i 0).val < 50176 := (i 0).isLt
  have hi1 : (i 1).val < 32 := (i 1).isLt
  have hN : cfg3.N = 6027 := N_3
  let t : Fin cfg3.N := ⟨(i 0).val / 1024 * 123 + 122, by rw [hN]; omega⟩
  have ht : t.val = (i 0).val / 1024 * 123 + 122 := rfl
  refine ⟨t, (flush3_2 t).mpr (by rw [ht]; omega), ?_⟩
  show i ∈ ((View.whole main_v30).slice (win3_2.rect t)).set
  rw [View.set_slice_whole, Rect.mem_set_unit]
  obtain ⟨-, -, -, -, e0, e1, -⟩ := idx_facts3 t
  intro a
  match a with
  | ⟨0, _⟩ => show win3_2.index t (0 : Fin 2) * 1024 ≤ (i 0).val ∧ (i 0).val < win3_2.index t (0 : Fin 2) * 1024 + 1024; rw [e0, ht]; omega
  | ⟨1, _⟩ => show win3_2.index t (1 : Fin 2) * 32 ≤ (i 1).val ∧ (i 1).val < win3_2.index t (1 : Fin 2) * 32 + 32; rw [e1]; omega

/-- The scatter stage's result array, entry by entry, is the finished one-hot scatter-add of the arrays the stage finds. -/
theorem val3 (N : Fin 50176) (q : Fin 32) :
    ((dat3 (F := Ideal) V c).arrAt 2 cfg3.N) (ix2 N q)
      = fin3 (Cert.Hgnn.scatterK (fun E => V c main_v25 (ix2 0 E)) (fun E q => V c main_v29 (ix2 E q)) N q) :=
  congrFun ((dat3 V c).arrAt_eq_of_cover 2 (G3 V c) (fun t => flushed3_eq V c t) cover3) (ix2 N q)

end Cert.KernelIdeal.Hand
-- ==== Proof.R4Value.lean ====
import proofs.«422453_j56642028700408_3_alg».proof.Proof.R4Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: quotient and residue by 49. -/
theorem idx_facts4 : ∀ t : Fin cfg4.N, win4_0.index t (0 : Fin 2) = t.val / 49 ∧ win4_0.index t (1 : Fin 2) = 0
    ∧ win4_1.index t (0 : Fin 2) = t.val / 49 ∧ win4_1.index t (1 : Fin 2) = 0
    ∧ win4_2.index t (0 : Fin 2) = t.val % 49 ∧ win4_2.index t (1 : Fin 2) = 0
    ∧ win4_3.index t (0 : Fin 2) = t.val / 49 ∧ win4_3.index t (1 : Fin 2) = 0
    ∧ ((grid4.coords t) 1).val = t.val % 49 :=
  (by decide +kernel : ∀ t : Fin grid4.N, _)

variable (V : (c : Dev nD) → (b : Ref sig .tc) → Buf (Elt Ideal) ((c : Thread nD τ).loc b)) (c : Dev nD) (t : Fin cfg4.N)

theorem srcBlk4_apply (r : Fin 8192) (E : Fin 1007616) (hE : E.val = t.val / 49 * 8192 + r.val) :
    iblk4 V c 0 t (ix2 r 0) = V c main_v33 (ix2 E 0) := by
  obtain ⟨e0, e1, -⟩ := idx_facts4 t
  refine congrArg (V c main_v33) (Shape.idx_ext₂ ?_ ?_)
  · show win4_0.index t (0 : Fin 2) * 8192 + 1 * r.val = E.val; rw [e0, hE]; omega
  · show win4_0.index t (1 : Fin 2) * 1 + 1 * 0 = 0; rw [e1]

theorem wBlk4_apply (r : Fin 8192) (E : Fin 1007616) (hE : E.val = t.val / 49 * 8192 + r.val) :
    iblk4 V c 1 t (ix2 r 0) = V c main_v36 (ix2 E 0) := by
  obtain ⟨-, -, e0, e1, -⟩ := idx_facts4 t
  refine congrArg (V c main_v36) (Shape.idx_ext₂ ?_ ?_)
  · show win4_1.index t (0 : Fin 2) * 8192 + 1 * r.val = E.val; rw [e0, hE]; omega
  · show win4_1.index t (1 : Fin 2) * 1 + 1 * 0 = 0; rw [e1]

theorem rowBlk4_apply (k : Fin 1024) (q : Fin 32) (j : Fin 50176) (hj : j.val = t.val % 49 * 1024 + k.val) :
    iblk4 V c 2 t (ix2 k q) = V c main_v37 (ix2 j q) := by
  obtain ⟨-, -, -, -, e0, e1, -⟩ := idx_facts4 t
  refine congrArg (V c main_v37) (Shape.idx_ext₂ ?_ ?_)
  · show win4_2.index t (0 : Fin 2) * 1024 + 1 * k.val = j.val; rw [e0, hj]; omega
  · show win4_2.index t (1 : Fin 2) * 32 + 1 * q.val = q.val; rw [e1]; omega

/-- The result window's block at a point, read off whole-array contents `G`: its rows are the point's edge block's. -/
theorem resBlk4_apply (G : Vec Ideal S1007616x32 .f32) (r : Fin 8192) (q : Fin 32) (E : Fin 1007616) (hE : E.val = t.val / 49 * 8192 + r.val) :
    ((cfg4.win 3).blk t).view.read (Elt Ideal) G (ix2 r q) = G (ix2 E q) := by
  obtain ⟨-, -, -, -, -, -, e0, e1, -⟩ := idx_facts4 t
  refine congrArg G (Shape.idx_ext₂ ?_ ?_)
  · show win4_3.index t (0 : Fin 2) * 8192 + 1 * r.val = E.val; rw [e0, hE]; omega
  · show win4_3.index t (1 : Fin 2) * 32 + 1 * q.val = q.val; rw [e1]; omega

/-- Term `j` of the one-hot row of the word `w` against the node rows at column `q`; zero past the last row. -/
def term4 (rows : Vec Ideal S50176x32 .f32) (w : BitVec 32) (q : Fin 32) (j : ℕ) : EReal :=
  if h : j < 50176 then ind w (BitVec.ofNat 32 j) * rows (ix2 ⟨j, h⟩ q) else 0

/-- One point's update adds its node block's 1024 terms to the terms of the blocks before it. -/
theorem upd4_at (acc : Vec Ideal S8192x32 .f32) (r : Fin 8192) (q : Fin 32) (E : Fin 1007616)
    (hE : E.val = t.val / 49 * 8192 + r.val)
    (hA : acc (ix2 r q) = ∑ j ∈ Finset.range (t.val % 49 * 1024), term4 (V c main_v37) (V c main_v33 (ix2 E 0)) q j) :
    k4_pay2 (grid4.coords t) (iblk4 V c 0 t) acc (iblk4 V c 2 t) (ix2 r q)
      = ∑ j ∈ Finset.range ((t.val % 49 + 1) * 1024), term4 (V c main_v37) (V c main_v33 (ix2 E 0)) q j := by
  rw [k4_pay2_at, hA, ← sum_range_tile]
  refine congrArg _ (Finset.sum_congr rfl fun k _ => ?_)
  have hlt : t.val % 49 * 1024 + k.val < 50176 := by omega
  rw [term4, dif_pos hlt, srcBlk4_apply V c t r E hE, rowBlk4_apply V c t k q ⟨_, hlt⟩ rfl, (idx_facts4 t).2.2.2.2.2.2.2.2]

/-- After point `n` entry `(r, q)` of the accumulator holds the terms of the node blocks walked so far, by induction on the point. -/
theorem acc4_closed : ∀ (n : ℕ) (hn : n < cfg4.N) (r : Fin 8192) (q : Fin 32) (E : Fin 1007616), E.val = n / 49 * 8192 + r.val →
    accAt4 V c n hn (ix2 r q) = ∑ j ∈ Finset.range ((n % 49 + 1) * 1024), term4 (V c main_v37) (V c main_v33 (ix2 E 0)) q j
  | n, hn, r, q, E, hE => by
    by_cases h0 : n % 49 = 0
    · rw [accAt4_first V c ⟨n, hn⟩ h0]
      exact upd4_at V c ⟨n, hn⟩ _ r q E hE (by rw [k4_pay1_at]; show 0 = ∑ j ∈ Finset.range (n % 49 * 1024), _; rw [h0, Nat.zero_mul, Finset.sum_range_zero])
    · rw [accAt4_later V c ⟨n, hn⟩ h0]
      refine upd4_at V c ⟨n, hn⟩ _ r q E hE ((acc4_closed (n - 1) _ r q E (by rw [hE]; congr 2; omega)).trans ?_)
      rw [show (n - 1) % 49 + 1 = n % 49 by omega]

/-- The stage's result in closed form: the one-hot gather of the padded arrays the stage finds. -/
def G4 : Vec Ideal S1007616x32 .f32 := fun j =>
  gatherK (fun E => V c main_v33 (ix2 E 0)) (fun E => V c main_v36 (ix2 E 0)) (fun n q => V c main_v37 (ix2 n q)) (j 0) (j 1)

/-- At a last node block the result block is the closed form's: the 49 node blocks' terms are the whole sum. -/
theorem flushed4_eq (hf : (cfg4.win 3).flush t = true) :
    (dat4 V c).flushed 3 t = ((cfg4.win 3).blk t).view.read (Elt Ideal) (G4 V c) := by
  have h1 : t.val % 49 = 48 := (flush4_3 t).mp hf
  have hN : t.val < 6027 := lt_of_lt_of_eq t.isLt (show cfg4.N = 6027 from N_4)
  refine funext fun (j : S8192x32.Idx) => ?_
  obtain ⟨r, q, rfl⟩ : ∃ (r : Fin 8192) (q : Fin 32), j = ix2 r q := ⟨j 0, j 1, eq_ix2 j⟩
  have hr : r.val < 8192 := r.isLt
  let E : Fin 1007616 := ⟨t.val / 49 * 8192 + r.val, by omega⟩
  refine Eq.trans ?_ (resBlk4_apply t (G4 V c) r q E rfl).symm
  show (cfg4.win 3).cut (grid4.coords t) ((dat4 V c).after 3 t) (ix2 r q) = _
  rw [after4_3]
  refine (k4_pay3_at _ _ r q).trans ?_
  rewrite [acc4_closed V c t.val t.isLt r q E rfl, wBlk4_apply V c t r E rfl, h1]
  exact congrArg (· * V c main_v36 (ix2 E 0)) (Finset.sum_fin_eq_sum_range fun j : Fin 50176 => ind (V c main_v33 (ix2 E 0)) (BitVec.ofNat 32 j.val) * V c main_v37 (ix2 j q)).symm

/-- Every entry of the result array lies in the result block of some last node block. -/
theorem cover4 (i : S1007616x32.Idx) : ∃ t : Fin cfg4.N, (cfg4.win 3).flush t = true ∧ i ∈ ((cfg4.win 3).blk t).view.set := by
  have hi0 : (i 0).val < 1007616 := (i 0).isLt
  have hi1 : (i 1).val < 32 := (i 1).isLt
  have hN : cfg4.N = 6027 := N_4
  let t : Fin cfg4.N := ⟨(i 0).val / 8192 * 49 + 48, by rw [hN]; omega⟩
  have ht : t.val = (i 0).val / 8192 * 49 + 48 := rfl
  refine ⟨t, (flush4_3 t).mpr (by rw [ht]; omega), ?_⟩
  show i ∈ ((View.whole main_v38).slice (win4_3.rect t)).set
  rw [View.set_slice_whole, Rect.mem_set_unit]
  obtain ⟨-, -, -, -, -, -, e0, e1, -⟩ := idx_facts4 t
  intro a
  match a with
  | ⟨0, _⟩ => show win4_3.index t (0 : Fin 2) * 8192 ≤ (i 0).val ∧ (i 0).val < win4_3.index t (0 : Fin 2) * 8192 + 8192; rw [e0, ht]; omega
  | ⟨1, _⟩ => show win4_3.index t (1 : Fin 2) * 32 ≤ (i 1).val ∧ (i 1).val < win4_3.index t (1 : Fin 2) * 32 + 32; rw [e1]; omega

/-- The gather stage's result array, entry by entry, is the one-hot gather of the arrays the stage finds. -/
theorem val4 (E : Fin 1007616) (q : Fin 32) :
    ((dat4 (F := Ideal) V c).arrAt 3 cfg4.N) (ix2 E q)
      = Cert.Hgnn.gatherK (fun E => V c main_v33 (ix2 E 0)) (fun E => V c main_v36 (ix2 E 0)) (fun j q => V c main_v37 (ix2 j q)) E q :=
  congrFun ((dat4 V c).arrAt_eq_of_cover 3 (G4 V c) (fun t => flushed4_eq V c t) cover4) (ix2 E q)

end Cert.KernelIdeal.Hand
-- ==== Proof.R5Value.lean ====
import proofs.«422453_j56642028700408_3_alg».proof.Proof.R5Dat
import proofs.«422453_j56642028700408_3_alg».proof.Proof.PayloadsAt
import proofs.«422453_j56642028700408_3_alg».proof.Proof.LibPartialSums

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Cert.Hgnn Cert.KernelIdeal.PayAt

/-- Every window's block index at a point, and the point's node block: residue and quotient by 123. -/
theorem idx_facts5 : ∀ t : Fin cfg5.N, win5_0.index t (0 : Fin 2) = 0 ∧ win5_0.index t (1 : Fin 2) = t.val % 123
    ∧ win5_1.index t (0 : Fin 2) = t.val % 123 ∧ win5_1.index t (1 : Fin 2) = 0
    ∧ win5_2.index t (0 : Fin 2) = t.val / 123 ∧ win5_2.index t (1 : Fin 2) = 0
    ∧ ((grid5.coords t) 0).val = t.val / 123 :=
  (by decide +kernel : ∀ t : Fin grid5.N, _)

variable (V : (c : Dev nD) → (b : Ref sig .tc) → Buf (Elt Ideal) ((c : Thread nD τ).loc b)) (c : Dev nD) (t : Fin cfg5.N)

theorem dstBlk5_apply (k : Fin 8192) (E : Fin 1007616) (hE : E.val = t.val % 123 * 8192 + k.val) :
    iblk5 V c 0 t (ix2 0 k) = V c main_v35 (ix2 0 E) := by
  obtain ⟨e0, e1, -⟩ := idx_facts5 t
  refine congrArg (V c main_v35) (Shape.idx_ext₂ ?_ ?_)
  · show win5_0.index t (0 : Fin 2) * 1 + 1 * 0 = 0; rw [e0]
  · show win5_0.index t (1 : Fin 2) * 8192 + 1 * k.val = E.val; rw [e1, hE]; omega

theorem msgBlk5_apply (k : Fin 8192) (q : Fin 32) (E : Fin 1007616) (hE : E.val = t.val % 123 * 8192 + k.val) :
    iblk5 V c 1 t (ix2 k q) = V c main_v38 (ix2 E q) := by
  obtain ⟨-, -, e0, e1, -⟩ := idx_facts5 t
  refine congrArg (V c main_v38) (Shape.idx_ext₂ ?_ ?_)
  · show win5_1.index t (0 : Fin 2) * 8192 + 1 * k.val = E.val; rw [e0, hE]; omega
  · show win5_1.index t (1 : Fin 2) * 32 + 1 * q.val = q.val; rw [e1]; omega

/-- The result window's block at a point, read off whole-array contents `G`: its rows are the point's node block's. -/
theorem resBlk5_apply (G : Vec Ideal S50176x32 .f32) (r : Fin 1024) (q : Fin 32) (N : Fin 50176) (hN : N.val = t.val / 123 * 1024 + r.val) :
    ((cfg5.win 2).blk t).view.read (Elt Ideal) G (ix2 r q) = G (ix2 N q) := by
  obtain ⟨-, -, -, -, e0, e1, -⟩ := idx_facts5 t
  refine congrArg G (Shape.idx_ext₂ ?_ ?_)
  · show win5_2.index t (0 : Fin 2) * 1024 + 1 * r.val = N.val; rw [e0, hN]; omega
  · show win5_2.index t (1 : Fin 2) * 32 + 1 * q.val = q.val; rw [e1]; omega

/-- Term `E` of the one-hot column of the destination words against the node word `w` at column `q`; zero past the last edge. -/
def term5 (dst : Vec Ideal S1x1007616 .i32) (msg : Vec Ideal S1007616x32 .f32) (w : BitVec 32) (q : Fin 32) (E : ℕ) : EReal :=
  if h : E < 1007616 then ind (dst (ix2 0 ⟨E, h⟩)) w * msg (ix2 ⟨E, h⟩ q) else 0

/-- One point's update adds its edge block's 8192 terms to the terms of the blocks before it. -/
theorem upd5_at (acc : Vec Ideal S1024x32 .f32) (r : Fin 1024) (q : Fin 32)
    (hA : acc (ix2 r q) = ∑ E ∈ Finset.range (t.val % 123 * 8192),
      term5 (V c main_v35) (V c main_v38) (BitVec.ofNat 32 (t.val / 123 * 1024 + r.val)) q E) :
    k5_pay2 (grid5.coords t) (iblk5 V c 0 t) acc (iblk5 V c 1 t) (ix2 r q)
      = ∑ E ∈ Finset.range ((t.val % 123 + 1) * 8192),
          term5 (V c main_v35) (V c main_v38) (BitVec.ofNat 32 (t.val / 123 * 1024 + r.val)) q E := by
  rw [k5_pay2_at, hA, ← sum_range_tile]
  refine congrArg _ (Finset.sum_congr rfl fun k _ => ?_)
  have hlt : t.val % 123 * 8192 + k.val < 1007616 := by omega
  rw [term5, dif_pos hlt, dstBlk5_apply V c t k ⟨_, hlt⟩ rfl, msgBlk5_apply V c t k q ⟨_, hlt⟩ rfl, (idx_facts5 t).2.2.2.2.2.2]

/-- After point `n` entry `(r, q)` of the accumulator holds the terms of the edge blocks walked so far, by induction on the point. -/
theorem acc5_closed : ∀ (n : ℕ) (hn : n < cfg5.N) (r : Fin 1024) (q : Fin 32),
    accAt5 V c n hn (ix2 r q) = ∑ E ∈ Finset.range ((n % 123 + 1) * 8192),
      term5 (V c main_v35) (V c main_v38) (BitVec.ofNat 32 (n / 123 * 1024 + r.val)) q E
  | n, hn, r, q => by
    by_cases h0 : n % 123 = 0
    · rw [accAt5_first V c ⟨n, hn⟩ h0]
      exact upd5_at V c ⟨n, hn⟩ _ r q (by rw [k5_pay1_at]; show 0 = ∑ E ∈ Finset.range (n % 123 * 8192), _; rw [h0, Nat.zero_mul, Finset.sum_range_zero])
    · rw [accAt5_later V c ⟨n, hn⟩ h0]
      refine upd5_at V c ⟨n, hn⟩ _ r q ((acc5_closed (n - 1) _ r q).trans ?_)
      rw [show (n - 1) % 123 + 1 = n % 123 by omega, show (n - 1) / 123 = n / 123 by omega]

/-- How the last edge block finishes an entry. -/
def fin5 (x : EReal) : EReal := x * ((1 / 1000000 : ℝ) : EReal)

/-- The stage's result in closed form: the finished one-hot scatter-add of the padded arrays the stage finds. -/
def G5 : Vec Ideal S50176x32 .f32 := fun j =>
  fin5 (scatterK (fun E => V c main_v35 (ix2 0 E)) (fun E q => V c main_v38 (ix2 E q)) (j 0) (j 1))

/-- At a last edge block the result block is the closed form's: the 123 edge blocks' terms are the whole sum. -/
theorem flushed5_eq (hf : (cfg5.win 2).flush t = true) :
    (dat5 V c).flushed 2 t = ((cfg5.win 2).blk t).view.read (Elt Ideal) (G5 V c) := by
  have h1 : t.val % 123 = 122 := (flush5_2 t).mp hf
  have hN : t.val < 6027 := lt_of_lt_of_eq t.isLt (show cfg5.N = 6027 from N_5)
  refine funext fun (j : S1024x32.Idx) => ?_
  obtain ⟨r, q, rfl⟩ : ∃ (r : Fin 1024) (q : Fin 32), j = ix2 r q := ⟨j 0, j 1, eq_ix2 j⟩
  have hr : r.val < 1024 := r.isLt
  refine Eq.trans ?_ (resBlk5_apply t (G5 V c) r q ⟨t.val / 123 * 1024 + r.val, by omega⟩ rfl).symm
  show (cfg5.win 2).cut (grid5.coords t) ((dat5 V c).after 2 t) (ix2 r q) = _
  rw [after5_2]
  refine (k5_pay3_at _ r q).trans (congrArg fin5 ?_)
  rewrite [acc5_closed V c t.val t.isLt r q, h1]
  exact (Finset.sum_fin_eq_sum_range fun E : Fin 1007616 => ind (V c main_v35 (ix2 0 E)) (BitVec.ofNat 32 (t.val / 123 * 1024 + r.val)) * V c main_v38 (ix2 E q)).symm

/-- Every entry of the result array lies in the result block of some last edge block. -/
theorem cover5 (i : S50176x32.Idx) : ∃ t : Fin cfg5.N, (cfg5.win 2).flush t = true ∧ i ∈ ((cfg5.win 2).blk t).view.set := by
  have hi0 : (i 0).val < 50176 := (i 0).isLt
  have hi1 : (i 1).val < 32 := (i 1).isLt
  have hN : cfg5.N = 6027 := N_5
  let t : Fin cfg5.N := ⟨(i 0).val / 1024 * 123 + 122, by rw [hN]; omega⟩
  have ht : t.val = (i 0).val / 1024 * 123 + 122 := rfl
  refine ⟨t, (flush5_2 t).mpr (by rw [ht]; omega), ?_⟩
  show i ∈ ((View.whole main_v39).slice (win5_2.rect t)).set
  rw [View.set_slice_whole, Rect.mem_set_unit]
  obtain ⟨-, -, -, -, e0, e1, -⟩ := idx_facts5 t
  intro a
  match a with
  | ⟨0, _⟩ => show win5_2.index t (0 : Fin 2) * 1024 ≤ (i 0).val ∧ (i 0).val < win5_2.index t (0 : Fin 2) * 1024 + 1024; rw [e0, ht]; omega
  | ⟨1, _⟩ => show win5_2.index t (1 : Fin 2) * 32 ≤ (i 1).val ∧ (i 1).val < win5_2.index t (1 : Fin 2) * 32 + 32; rw [e1]; omega

/-- The scatter stage's result array, entry by entry, is the finished one-hot scatter-add of the arrays the stage finds. -/
theorem val5 (N : Fin 50176) (q : Fin 32) :
    ((dat5 (F := Ideal) V c).arrAt 2 cfg5.N) (ix2 N q)
      = fin5 (Cert.Hgnn.scatterK (fun E => V c main_v35 (ix2 0 E)) (fun E q => V c main_v38 (ix2 E q)) N q) :=
  congrFun ((dat5 V c).arrAt_eq_of_cover 2 (G5 V c) (fun t => flushed5_eq V c t) cover5) (ix2 N q)

end Cert.KernelIdeal.Hand
-- ==== Proof.Spec.lean ====
import Idealize.ShloMosaic.PureOps.Ideal
import Idealize.ShloMosaic.Lib.ValueIdx
import Mathlib.Algebra.BigOperators.Fin
import Mathlib.Data.EReal.Basic
import Mathlib.Data.EReal.Operations

noncomputable section

namespace Cert.Hgnn

open Idealize.ShloMosaic

def mm {n k d : Nat} (x : Fin n → Fin k → EReal) (W : Fin k → Fin d → EReal) (i : Fin n) (q : Fin d) : EReal :=
  ∑ a : Fin k, x i a * W a q

def lin {n k d : Nat} (x : Fin n → Fin k → EReal) (W : Fin k → Fin d → EReal) (b : Fin d → EReal) (i : Fin n) (q : Fin d) : EReal :=
  mm x W i q + b q

-- Row N receives, from every edge whose destination word reads N, the edge's clamped source row times its weight.
def agg {D : Nat} (src dst : Fin 1000000 → BitVec 32) (w : Fin 1000000 → EReal) (h : Fin 50000 → Fin D → EReal)
    (N : Fin 50000) (q : Fin D) : EReal :=
  ∑ e ∈ Finset.univ.filter (fun e : Fin 1000000 => (dst e).toInt = (N.val : ℤ)),
    h ⟨min (src e).toInt.toNat (50000 - 1), by omega⟩ q * w e

def relu (x : EReal) : EReal := max x 0

-- The two-class softmax; the exponential and the quotient at the extended reals are parameters.
def softmax2 (ex : EReal → EReal) (dv : EReal → EReal → EReal) (l : Fin 2 → EReal) (k : Fin 2) : EReal :=
  let mx : EReal := max (l 0) (l 1)
  dv (ex (l k - mx)) (ex (l 0 - mx) + ex (l 1 - mx))

def logits (T : Fin 50000 → Fin 1024 → EReal) (nf : Fin 50000 → Fin 32 → EReal) (eh : Fin 1024 → Fin 32 → EReal)
    (Wn : Fin 32 → Fin 32 → EReal) (bg : Fin 32 → EReal) (Wc1 : Fin 32 → Fin 32 → EReal) (bc1 : Fin 32 → EReal)
    (Wc2 : Fin 32 → Fin 2 → EReal) (bc2 : Fin 2 → EReal) (n : Fin 50000) (k : Fin 2) : EReal :=
  let shared : Fin 50000 → Fin 32 → EReal := fun i q => relu ((mm nf Wn i q + mm T eh i q) + bg q)
  let cl : Fin 50000 → Fin 32 → EReal := fun i q => relu (lin shared Wc1 bc1 i q)
  lin cl Wc2 bc2 n k

def nodeFeatures (x : Fin 50000 → Fin 128 → EReal) (src dst : Fin 1000000 → BitVec 32) (w : Fin 1000000 → EReal)
    (W1 : Fin 128 → Fin 64 → EReal) (b1 : Fin 64 → EReal) (W2 : Fin 64 → Fin 32 → EReal) (b2 : Fin 32 → EReal)
    (n : Fin 50000) (q : Fin 32) : EReal :=
  let h1 : Fin 50000 → Fin 64 → EReal := fun i a => relu (agg src dst w (lin x W1 b1) i a)
  let h2 : Fin 50000 → Fin 32 → EReal := fun i a => relu (agg src dst w (lin h1 W2 b2) i a)
  agg src dst (fun _ => 1) h2 n q * ((1 / 1000000 : ℝ) : EReal)

end Cert.Hgnn

end
-- ==== Proof.R6Pay.lean ====
import proofs.«422453_j56642028700408_3_alg».proof.Proof.Gen.KernelIdeal.Skeleton
import proofs.«422453_j56642028700408_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.ValueIdx
open scoped BigOperators

namespace R6

/-- An M×K by K×N product into the zero accumulator, at an entry: the sum over the contracted index. -/
theorem mm_apply {M K N : ℕ} {φ₁ φ₂ : FTy} (D : DotDims ⟨2, ![M, K]⟩ ⟨2, ![K, N]⟩ ⟨2, ![M, N]⟩) (hD : D = .plain M K N)
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q) = ∑ a : Fin K, l (ix2 p a) * r (ix2 a q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

theorem zeroWord : (FloatOps.ofBits .f32 0x00000000#32 : Ideal .f32) = (0 : EReal) := Ideal.ofBits_zero_f32

theorem rowCol_apply (v : FVec Ideal S2000 .f32) (p : Fin 2000) (k : Fin 2) :
    broadcastTo S2000x2 (shapeCast S2000x1 v shapeCasts_S2000_S2000x1) broadcasts_S2000x1_S2000x2 (ix2 p k) = v (ix1 p) := by
  refine (broadcastTo_apply _ broadcasts_S2000x1_S2000x2 (ix2 p k) (ix2 p (0 : Fin 1)) fun ax => ?_).trans ?_
  · match ax with
    | ⟨0, _⟩ => rfl
    | ⟨1, _⟩ => rfl
  · exact shapeCast_apply v shapeCasts_S2000_S2000x1 _ _ (by
      rw [Shape.rowMajor_val_two, Shape.rowMajor_val_one]
      show p.val = p.val * 1 + 0
      omega)

theorem lift_row (p : Fin 2000) (k : Fin 2) : reduces_S2000x2_S2000.lift (ix1 p) k = ix2 p k := by
  funext c; apply Fin.ext
  show Shape.Reduces.liftVal reduces_S2000x2_S2000 (ix1 p) k.val c = (ix2 p k c).val
  unfold Shape.Reduces.liftVal
  match c with
  | ⟨0, _⟩ => rfl
  | ⟨1, _⟩ => rfl

theorem ofBits_negInf : Ideal.ofBits .f32 0xFF800000#32 = (⊥ : EReal) := by simp [Ideal.ofBits, Ideal.ieee]

theorem fold_max_two (b : EReal) (f : Fin 2 → EReal) : (Finset.univ : Finset (Fin 2)).fold max b f = max (f 0) (max (f 1) b) := by
  have hu : (Finset.univ : Finset (Fin 2)) = insert 0 {1} := by decide
  rw [hu, Finset.fold_insert (by decide), Finset.fold_singleton]

/-- A row's maximum folded from −∞ over its two entries is the larger of the two. -/
theorem rowMax_apply (x : FVec Ideal S2000x2 .f32) (hφ : FKind.Formats .f32) (hacc : (0xFF800000#32 : BitVec 32) = 0xFF800000#32) (p : Fin 2000) :
    multiReduction .maximumf [1] S2000 x 0xFF800000#32 reduces_S2000x2_S2000 hφ hacc (ix1 p) = max (x (ix2 p 0)) (x (ix2 p 1)) := by
  refine (Ideal.multiReduction_maximumf_single x 0xFF800000#32 reduces_S2000x2_S2000 hφ hacc (ix1 p)).trans ?_
  refine (fold_max_two (Ideal.ofBits .f32 0xFF800000#32) (fun k => x (reduces_S2000x2_S2000.lift (ix1 p) k))).trans ?_
  exact congrArg₂ max (congrArg x (lift_row p 0)) ((congrArg₂ max (congrArg x (lift_row p 1)) ofBits_negInf).trans (max_bot_right _))

theorem rowSum_apply (x : FVec Ideal S2000x2 .f32) (hφ : FKind.Formats .f32) (hacc : (0x00000000#32 : BitVec 32) = 0x00000000#32) (p : Fin 2000) :
    multiReduction .add [1] S2000 x 0x00000000#32 reduces_S2000x2_S2000 hφ hacc (ix1 p) = x (ix2 p 0) + x (ix2 p 1) := by
  refine (Ideal.multiReduction_add_single x 0x00000000#32 reduces_S2000x2_S2000 hφ hacc (ix1 p)).trans ?_
  refine (Fin.sum_univ_two (fun k : Fin 2 => x (reduces_S2000x2_S2000.lift (ix1 p) k))).trans ?_
  exact congrArg₂ (· + ·) (congrArg x (lift_row p 0)) (congrArg x (lift_row p 1))

theorem expv_apply {s : Shape} {φ : FTy} (a : FVec Ideal s φ) (i : s.Idx) : exp a i = Ideal.exp (a i) := rfl

theorem negInfWord : (FloatOps.ofBits .f32 0xFF800000#32 : Ideal .f32) = (⊥ : EReal) := ofBits_negInf

/-- The stored value at a row is the two-class softmax of the row's logits, given that the row maximum is their larger. -/
theorem softmaxBlk_apply (l : FVec Ideal S2000x2 .f32) (m : FVec Ideal S2000 .f32) (p : Fin 2000) (k : Fin 2)
    (hm : m (ix1 p) = max (l (ix2 p 0)) (l (ix2 p 1))) :
    k6_pay1 (F := Ideal) l m (k6_pay4 (F := Ideal)) (ix2 p k)
      = Cert.Hgnn.softmax2 Ideal.exp Ideal.div (fun k => l (ix2 p k)) k := by
  unfold k6_pay1 k6_pay4 Cert.Hgnn.softmax2
  simp only [divf_apply]
  refine congrArg₂ Ideal.div ?_ ?_
  · simp only [expv_apply, subf_apply, rowCol_apply, maximumf_apply, broadcast_apply, hm, negInfWord, max_bot_left]
  · refine (rowCol_apply _ p k).trans ((rowSum_apply _ _ _ p).trans ?_)
    simp only [expv_apply, subf_apply, rowCol_apply, maximumf_apply, broadcast_apply, hm, negInfWord, max_bot_left]

/-- The logits of row `i`, on any number of rows: only row `i` of the two row-blocked operands is read. -/
def logitsRows {n : Nat} (T : Fin n → Fin 1024 → EReal) (nf : Fin n → Fin 32 → EReal) (eh : Fin 1024 → Fin 32 → EReal)
    (Wn : Fin 32 → Fin 32 → EReal) (bg : Fin 32 → EReal) (Wc1 : Fin 32 → Fin 32 → EReal) (bc1 : Fin 32 → EReal)
    (Wc2 : Fin 32 → Fin 2 → EReal) (bc2 : Fin 2 → EReal) (i : Fin n) (k : Fin 2) : EReal :=
  Cert.Hgnn.lin (fun i q => Cert.Hgnn.relu (Cert.Hgnn.lin (fun i q => Cert.Hgnn.relu ((Cert.Hgnn.mm nf Wn i q + Cert.Hgnn.mm T eh i q) + bg q)) Wc1 bc1 i q)) Wc2 bc2 i k

/-- The block's stored value at a row, from the nine loaded blocks: the softmax of the row's logits, each product read as its sum and each bias at its column. -/
theorem outBlk_apply (x0 : FVec Ideal S2000x1024 .f32) (x2 : FVec Ideal S1024x32 .f32) (x1 : FVec Ideal S2000x32 .f32)
    (x3 : FVec Ideal S32x32 .f32) (x4 : FVec Ideal S1x32 .f32) (x5 : FVec Ideal S32x32 .f32) (x6 : FVec Ideal S1x32 .f32)
    (x7 : FVec Ideal S32x2 .f32) (x8 : FVec Ideal S1x2 .f32) (p : Fin 2000) (k : Fin 2) :
    k6_pay1 (F := Ideal) (k6_pay2 x0 x2 x1 x3 x4 x5 x6 x7 x8) (k6_pay3 x0 x2 x1 x3 x4 x5 x6 x7 x8) (k6_pay4 (F := Ideal)) (ix2 p k)
      = Cert.Hgnn.softmax2 Ideal.exp Ideal.div
          (logitsRows (fun i a => x0 (ix2 i a)) (fun i q => x1 (ix2 i q)) (fun a q => x2 (ix2 a q)) (fun a q => x3 (ix2 a q))
          (fun q => x4 (ix2 (0 : Fin 1) q)) (fun a q => x5 (ix2 a q)) (fun q => x6 (ix2 (0 : Fin 1) q)) (fun a q => x7 (ix2 a q))
          (fun q => x8 (ix2 (0 : Fin 1) q)) p) k := by
  refine (softmaxBlk_apply _ _ p k ?_).trans ?_
  · unfold k6_pay3
    exact rowMax_apply _ _ _ p
  · refine congrArg (fun l => Cert.Hgnn.softmax2 Ideal.exp Ideal.div l k) (funext fun k' => ?_)
    unfold k6_pay2 logitsRows Cert.Hgnn.lin Cert.Hgnn.mm Cert.Hgnn.relu
    simp only [addf_apply, maximumf_apply, broadcast_apply, truncf_apply, shapeCast_self, zeroWord, broadcastTo_1b_ab_apply,
      mm_apply dot_S2000x32_S32x2_S2000x2_1_0_0_1_n_n rfl, mm_apply dot_S2000x32_S32x32_S2000x32_1_0_0_1_n_n rfl,
      mm_apply dot_S2000x1024_S1024x32_S2000x32_1_0_0_1_n_n rfl]

theorem logitsRows_congr {n m : Nat} (T : Fin n → Fin 1024 → EReal) (T' : Fin m → Fin 1024 → EReal)
    (nf : Fin n → Fin 32 → EReal) (nf' : Fin m → Fin 32 → EReal) (eh : Fin 1024 → Fin 32 → EReal)
    (Wn : Fin 32 → Fin 32 → EReal) (bg : Fin 32 → EReal) (Wc1 : Fin 32 → Fin 32 → EReal) (bc1 : Fin 32 → EReal)
    (Wc2 : Fin 32 → Fin 2 → EReal) (bc2 : Fin 2 → EReal) (i : Fin n) (i' : Fin m)
    (hT : ∀ a, T i a = T' i' a) (hnf : ∀ q, nf i q = nf' i' q) (k : Fin 2) :
    logitsRows T nf eh Wn bg Wc1 bc1 Wc2 bc2 i k = logitsRows T' nf' eh Wn bg Wc1 bc1 Wc2 bc2 i' k := by
  unfold logitsRows Cert.Hgnn.lin Cert.Hgnn.mm
  simp only [hT, hnf]

end R6

end Cert.KernelIdeal.Hand

end
-- ==== Proof.R6Value.lean ====
import proofs.«422453_j56642028700408_3_alg».proof.Proof.R6Final
import proofs.«422453_j56642028700408_3_alg».proof.Proof.R6Pay
import proofs.«422453_j56642028700408_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open R6

variable (V : (c : Dev nD) → (b : Ref sig .tc) → Buf (Elt Ideal) ((c : Thread nD τ).loc b))

/-- The output array after the stage: row n is the two-class softmax of row n of the logits of the arrays the stage finds. -/
def final6 (c : Dev nD) : S50000x2.Idx → EReal := fun i =>
  Cert.Hgnn.softmax2 Ideal.exp Ideal.div (Cert.Hgnn.logits (fun i a => V c main_arg5 (ix2 i a)) (fun i q => V c main_v40 (ix2 i q)) (fun a q => V c main_v42 (ix2 a q))
      (fun a q => V c main_arg10 (ix2 a q)) (fun q => V c main_v43 (ix2 0 q)) (fun a q => V c main_arg13 (ix2 a q)) (fun q => V c main_v44 (ix2 0 q))
      (fun a q => V c main_arg15 (ix2 a q)) (fun q => V c main_v45 (ix2 0 q)) (i 0)) (i 1)

theorem hz6 : (![0, 0] : Fin 2 → Nat) = fun _ => 0 := funext fun a => by fin_cases a <;> rfl

theorem idx_facts6 : ∀ t : Fin cfg6.N,
    win6_9.index t (0 : Fin 2) = t.val ∧ win6_9.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

theorem lt25_6 (t : Fin cfg6.N) : t.val < 25 := lt_of_lt_of_eq t.isLt N_6

theorem iblk6_0_apply (c : Dev nD) (t : Fin cfg6.N) (i : Fin 2000) (a : Fin 1024) :
    iblk6 V c 0 t (ix2 i a) = V c main_arg5 (ix2 (⟨t.val * 2000 + i.val, by have := lt25_6 t; have := i.isLt; omega⟩ : Fin 50000) a) := by
  show V c main_arg5 (((cfg6.win 0).blk t).view.emb (ix2 i a)) = _
  refine congrArg (V c main_arg5) (funext fun ax => Fin.ext ?_)
  have hx := idx_facts6 t
  match ax with
  | ⟨0, _⟩ => show win6_0.index t (0 : Fin 2) * 2000 + 1 * i.val = t.val * 2000 + i.val; omega
  | ⟨1, _⟩ => show win6_0.index t (1 : Fin 2) * 1024 + 1 * a.val = a.val; omega

theorem iblk6_1_apply (c : Dev nD) (t : Fin cfg6.N) (i : Fin 2000) (a : Fin 32) :
    iblk6 V c 1 t (ix2 i a) = V c main_v40 (ix2 (⟨t.val * 2000 + i.val, by have := lt25_6 t; have := i.isLt; omega⟩ : Fin 50000) a) := by
  show V c main_v40 (((cfg6.win 1).blk t).view.emb (ix2 i a)) = _
  refine congrArg (V c main_v40) (funext fun ax => Fin.ext ?_)
  have hx := idx_facts6 t
  match ax with
  | ⟨0, _⟩ => show win6_1.index t (0 : Fin 2) * 2000 + 1 * i.val = t.val * 2000 + i.val; omega
  | ⟨1, _⟩ => show win6_1.index t (1 : Fin 2) * 32 + 1 * a.val = a.val; omega

theorem iblk6_2_apply (c : Dev nD) (t : Fin cfg6.N) (i : Fin 1024) (a : Fin 32) :
    iblk6 V c 2 t (ix2 i a) = V c main_v42 (ix2 i a) := by
  show V c main_v42 (((cfg6.win 2).blk t).view.emb (ix2 i a)) = _
  refine congrArg (V c main_v42) (funext fun ax => Fin.ext ?_)
  have hx := idx_facts6 t
  match ax with
  | ⟨0, _⟩ => show win6_2.index t (0 : Fin 2) * 1024 + 1 * i.val = i.val; omega
  | ⟨1, _⟩ => show win6_2.index t (1 : Fin 2) * 32 + 1 * a.val = a.val; omega

theorem iblk6_3_apply (c : Dev nD) (t : Fin cfg6.N) (i : Fin 32) (a : Fin 32) :
    iblk6 V c 3 t (ix2 i a) = V c main_arg10 (ix2 i a) := by
  show V c main_arg10 (((cfg6.win 3).blk t).view.emb (ix2 i a)) = _
  refine congrArg (V c main_arg10) (funext fun ax => Fin.ext ?_)
  have hx := idx_facts6 t
  match ax with
  | ⟨0, _⟩ => show win6_3.index t (0 : Fin 2) * 32 + 1 * i.val = i.val; omega
  | ⟨1, _⟩ => show win6_3.index t (1 : Fin 2) * 32 + 1 * a.val = a.val; omega

theorem iblk6_4_apply (c : Dev nD) (t : Fin cfg6.N) (i : Fin 1) (a : Fin 32) :
    iblk6 V c 4 t (ix2 i a) = V c main_v43 (ix2 i a) := by
  show V c main_v43 (((cfg6.win 4).blk t).view.emb (ix2 i a)) = _
  refine congrArg (V c main_v43) (funext fun ax => Fin.ext ?_)
  have hx := idx_facts6 t
  match ax with
  | ⟨0, _⟩ => show win6_4.index t (0 : Fin 2) * 1 + 1 * i.val = i.val; omega
  | ⟨1, _⟩ => show win6_4.index t (1 : Fin 2) * 32 + 1 * a.val = a.val; omega

theorem iblk6_5_apply (c : Dev nD) (t : Fin cfg6.N) (i : Fin 32) (a : Fin 32) :
    iblk6 V c 5 t (ix2 i a) = V c main_arg13 (ix2 i a) := by
  show V c main_arg13 (((cfg6.win 5).blk t).view.emb (ix2 i a)) = _
  refine congrArg (V c main_arg13) (funext fun ax => Fin.ext ?_)
  have hx := idx_facts6 t
  match ax with
  | ⟨0, _⟩ => show win6_5.index t (0 : Fin 2) * 32 + 1 * i.val = i.val; omega
  | ⟨1, _⟩ => show win6_5.index t (1 : Fin 2) * 32 + 1 * a.val = a.val; omega

theorem iblk6_6_apply (c : Dev nD) (t : Fin cfg6.N) (i : Fin 1) (a : Fin 32) :
    iblk6 V c 6 t (ix2 i a) = V c main_v44 (ix2 i a) := by
  show V c main_v44 (((cfg6.win 6).blk t).view.emb (ix2 i a)) = _
  refine congrArg (V c main_v44) (funext fun ax => Fin.ext ?_)
  have hx := idx_facts6 t
  match ax with
  | ⟨0, _⟩ => show win6_6.index t (0 : Fin 2) * 1 + 1 * i.val = i.val; omega
  | ⟨1, _⟩ => show win6_6.index t (1 : Fin 2) * 32 + 1 * a.val = a.val; omega

theorem iblk6_7_apply (c : Dev nD) (t : Fin cfg6.N) (i : Fin 32) (a : Fin 2) :
    iblk6 V c 7 t (ix2 i a) = V c main_arg15 (ix2 i a) := by
  show V c main_arg15 (((cfg6.win 7).blk t).view.emb (ix2 i a)) = _
  refine congrArg (V c main_arg15) (funext fun ax => Fin.ext ?_)
  have hx := idx_facts6 t
  match ax with
  | ⟨0, _⟩ => show win6_7.index t (0 : Fin 2) * 32 + 1 * i.val = i.val; omega
  | ⟨1, _⟩ => show win6_7.index t (1 : Fin 2) * 2 + 1 * a.val = a.val; omega

theorem iblk6_8_apply (c : Dev nD) (t : Fin cfg6.N) (i : Fin 1) (a : Fin 2) :
    iblk6 V c 8 t (ix2 i a) = V c main_v45 (ix2 i a) := by
  show V c main_v45 (((cfg6.win 8).blk t).view.emb (ix2 i a)) = _
  refine congrArg (V c main_v45) (funext fun ax => Fin.ext ?_)
  have hx := idx_facts6 t
  match ax with
  | ⟨0, _⟩ => show win6_8.index t (0 : Fin 2) * 1 + 1 * i.val = i.val; omega
  | ⟨1, _⟩ => show win6_8.index t (1 : Fin 2) * 2 + 1 * a.val = a.val; omega

theorem emb6_9 (t : Fin cfg6.N) (p : Fin 2000) (k : Fin 2) :
    ((cfg6.win 9).blk t).view.emb (ix2 p k) = ix2 (⟨t.val * 2000 + p.val, by have := lt25_6 t; have := p.isLt; omega⟩ : Fin 50000) k := by
  refine funext fun ax => Fin.ext ?_
  have hx := idx_facts6 t
  match ax with
  | ⟨0, _⟩ => show win6_9.index t (0 : Fin 2) * 2000 + 1 * p.val = t.val * 2000 + p.val; omega
  | ⟨1, _⟩ => show win6_9.index t (1 : Fin 2) * 2 + 1 * k.val = k.val; omega

theorem flushed6_eq (c : Dev nD) (t : Fin cfg6.N) :
    (dat6 (F := Ideal) V c).flushed 9 t = ((cfg6.win 9).blk t).view.read (Elt Ideal) (final6 V c) := by
  show (cfg6.win 9).cut (grid6.coords t) ((dat6 V c).after 9 t) = _
  rw [after6_9]
  unfold out6
  rw [View.canon_unit_zero hz6]
  simp only [logitsBlk6, rowMaxBlk6, View.ld_unit_zero (S := S2000x1024) hz6, View.ld_unit_zero (S := S2000x32) hz6, View.ld_unit_zero (S := S1024x32) hz6, View.ld_unit_zero (S := S32x32) hz6, View.ld_unit_zero (S := S1x32) hz6, View.ld_unit_zero (S := S32x2) hz6, View.ld_unit_zero (S := S1x2) hz6]
  funext j
  obtain ⟨p, k, rfl⟩ : ∃ (p : Fin 2000) (k : Fin 2), j = ix2 p k := ⟨j 0, j 1, eq_ix2 j⟩
  refine (outBlk_apply (iblk6 V c 0 t) (iblk6 V c 2 t) (iblk6 V c 1 t) (iblk6 V c 3 t) (iblk6 V c 4 t) (iblk6 V c 5 t) (iblk6 V c 6 t) (iblk6 V c 7 t) (iblk6 V c 8 t) p k).trans ?_
  show _ = final6 V c (((cfg6.win 9).blk t).view.emb (ix2 p k))
  rw [emb6_9]
  simp only [iblk6_2_apply V c t, iblk6_3_apply V c t, iblk6_4_apply V c t, iblk6_5_apply V c t, iblk6_6_apply V c t, iblk6_7_apply V c t, iblk6_8_apply V c t]
  refine congrArg (fun l => Cert.Hgnn.softmax2 Ideal.exp Ideal.div l k) (funext fun k' => ?_)
  exact logitsRows_congr _ _ _ _ _ _ _ _ _ _ _ p _ (fun a => iblk6_0_apply V c t p a) (fun q => iblk6_1_apply V c t p q) k'

theorem cover6_9 (i : S50000x2.Idx) : ∃ t : Fin cfg6.N, (cfg6.win 9).flush t = true ∧ i ∈ ((cfg6.win 9).blk t).view.set := by
  have hi0 : (i 0).val < 50000 := (i 0).isLt
  have hi1 : (i 1).val < 2 := (i 1).isLt
  have ht : (i 0).val / 2000 < cfg6.N := lt_of_lt_of_eq (by omega) N_6.symm
  refine ⟨⟨(i 0).val / 2000, ht⟩, flush6_9 _, ?_⟩
  show i ∈ ((View.whole main_v46).slice (win6_9.rect ⟨(i 0).val / 2000, ht⟩)).set
  rw [View.set_slice_whole, Rect.mem_set_unit]
  obtain ⟨e90, e91, -⟩ := idx_facts6 ⟨(i 0).val / 2000, ht⟩
  intro a
  match a with
  | ⟨0, _⟩ =>
    show win6_9.index ⟨(i 0).val / 2000, ht⟩ (0 : Fin 2) * 2000 ≤ (i 0).val ∧ (i 0).val < win6_9.index ⟨(i 0).val / 2000, ht⟩ (0 : Fin 2) * 2000 + 2000
    rw [e90]
    show (i 0).val / 2000 * 2000 ≤ (i 0).val ∧ (i 0).val < (i 0).val / 2000 * 2000 + 2000
    omega
  | ⟨1, _⟩ =>
    show win6_9.index ⟨(i 0).val / 2000, ht⟩ (1 : Fin 2) * 2 ≤ (i 1).val ∧ (i 1).val < win6_9.index ⟨(i 0).val / 2000, ht⟩ (1 : Fin 2) * 2 + 2
    omega

theorem val6 (c : Dev nD) (n : Fin 50000) (k : Fin 2) :
    ((dat6 (F := Ideal) V c).arrAt 9 cfg6.N) (ValueIdx.ix2 n k)
      = Cert.Hgnn.softmax2 Ideal.exp Ideal.div (Cert.Hgnn.logits (fun i a => V c main_arg5 (ix2 i a)) (fun i q => V c main_v40 (ix2 i q)) (fun a q => V c main_v42 (ix2 a q))
      (fun a q => V c main_arg10 (ix2 a q)) (fun q => V c main_v43 (ix2 0 q)) (fun a q => V c main_arg13 (ix2 a q)) (fun q => V c main_v44 (ix2 0 q))
      (fun a q => V c main_arg15 (ix2 a q)) (fun q => V c main_v45 (ix2 0 q)) n) k :=
  congrFun ((dat6 (F := Ideal) V c).arrAt_eq_of_cover 9 (final6 V c) (fun t _ => flushed6_eq V c t) (cover6_9)) (ix2 n k)

end Cert.KernelIdeal.Hand

end
-- ==== Proof.HostVals.lean ====
import proofs.«422453_j56642028700408_3_alg».proof.Proof.Chain
import proofs.«422453_j56642028700408_3_alg».proof.Proof.Spec
import proofs.«422453_j56642028700408_3_alg».proof.Proof.StageMath
import Idealize.ShloMosaic.Lib.StackMember
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Hgnn

namespace HostVals

section LayoutAt
variable {α : Type}

-- A reshape keeps the row-major position; a pad reads its operand inside and the padding value outside.
theorem padE_apply {so : Shape} (x : S1000000.Idx → α) (v : S_.Idx → α) (s : Fin 1000000 → α) (z : α)
    (hs : ∀ e, x (ix1 e) = s e) (hz : v ix0 = z) (hc : S1007616.ShapeCasts so) (j : so.Idx) (E : Fin 1007616)
    (hj : (S1007616.rowMajor (ix1 E)).val = (so.rowMajor j).val) :
    shapeCast so (pad S1007616 ![0] ![7616] ![0] x v pads_S1000000_S1007616_076160 h_S_) hc j
      = if h : E.val < 1000000 then s ⟨E.val, h⟩ else z := by
  rw [shapeCast_apply _ hc j (ix1 E) hj]
  by_cases h : E.val < 1000000
  · rw [dif_pos h]
    exact (pad_apply_of_inside ![0] ![7616] ![0] x v _ h_S_ (ix1 E) (ix1 ⟨E.val, h⟩) (fun a => match a with
      | ⟨0, _⟩ => by show E.val = 0 + E.val * (0 + 1); omega)).trans (hs _)
  · rw [dif_neg h, pad_apply_of_not_inside ![0] ![7616] ![0] x v _ h_S_ (ix1 E) (0 : Fin 1) (by
      show ¬(0 ≤ E.val ∧ (E.val - 0) % (0 + 1) = 0 ∧ (E.val - 0) / (0 + 1) < 1000000)
      omega)]
    exact (congrArg v (eq_ix0 _)).trans hz

theorem col (E : Fin 1007616) : (S1007616.rowMajor (ix1 E)).val = (S1007616x1.rowMajor (ix2 E (0 : Fin 1))).val := by
  rw [Shape.rowMajor_val_two, Shape.rowMajor_val_one]
  show E.val = E.val * 1 + 0
  omega
theorem row (E : Fin 1007616) : (S1007616.rowMajor (ix1 E)).val = (S1x1007616.rowMajor (ix2 (0 : Fin 1) E)).val := by
  rw [Shape.rowMajor_val_two, Shape.rowMajor_val_one]
  show E.val = 0 * 1007616 + E.val
  omega

-- The first 50,000 of 50,176 rows.
theorem toprows_apply {D : Nat} (x : (⟨2, ![50176, D]⟩ : Shape).Idx → α)
    (hs : (⟨2, ![50176, D]⟩ : Shape).Slices ![0, 0] ⟨2, ![50000, D]⟩) (i : Fin 50000) (q : Fin D) :
    extractStridedSlice ⟨2, ![50000, D]⟩ ![0, 0] x hs (ix2 i q) = x (ix2 ⟨i.val, by omega⟩ q) :=
  extractStridedSlice_apply ![0, 0] x hs (ix2 i q) (ix2 ⟨i.val, by omega⟩ q) (fun a => match a with
    | ⟨0, _⟩ => by show i.val = 0 + i.val; omega
    | ⟨1, _⟩ => by show q.val = 0 + q.val; omega)

-- Row r of the edge table, sliced out and flattened.
theorem edgerow_apply (r : Fin 2) (o : Nat) (ho : o = r.val) (a1 : S2x1000000.Idx → α) (hs : S2x1000000.Slices ![o, 0] S1x1000000)
    (e : Fin 1000000) :
    shapeCast S1000000 (extractStridedSlice S1x1000000 ![o, 0] a1 hs) shapeCasts_S1x1000000_S1000000 (ix1 e) = a1 (ix2 r e) := by
  subst ho
  rw [shapeCast_apply _ _ (ix1 e) (ix2 (0 : Fin 1) e) (by
    rw [Shape.rowMajor_val_two, Shape.rowMajor_val_one]
    show 0 * 1000000 + e.val = e.val
    omega)]
  exact extractStridedSlice_apply ![r.val, 0] a1 hs (ix2 (0 : Fin 1) e) (ix2 r e) (fun a => match a with
    | ⟨0, _⟩ => by show r.val = r.val + 0; omega
    | ⟨1, _⟩ => by show e.val = 0 + e.val; omega)

-- A bias vector laid along every row.
theorem biasrows_apply {n D : Nat} (b : (⟨1, ![D]⟩ : Shape).Idx → α)
    (h₁ : (⟨1, ![D]⟩ : Shape).BroadcastsInDim ⟨2, ![1, D]⟩ ![1])
    (h₂ : (⟨2, ![1, D]⟩ : Shape).BroadcastsInDim ⟨2, ![n, D]⟩ ![0, 1]) (i : Fin n) (q : Fin D) :
    broadcastInDim ⟨2, ![n, D]⟩ ![0, 1] h₂ (broadcastInDim ⟨2, ![1, D]⟩ ![1] h₁ b) (ix2 i q) = b (ix1 q) := by
  have hq := q.isLt
  rw [broadcastInDim_apply ![0, 1] h₂ _ (ix2 i q) (ix2 (0 : Fin 1) q) (fun a => match a with
    | ⟨0, _⟩ => by show 0 = if (1 : Nat) = 1 then 0 else i.val; rw [if_pos rfl]
    | ⟨1, _⟩ => by show q.val = if D = 1 then 0 else q.val; split <;> omega)]
  exact broadcastInDim_apply ![1] h₁ b (ix2 (0 : Fin 1) q) (ix1 q) (fun a => match a with
    | ⟨0, _⟩ => by show q.val = if D = 1 then 0 else q.val; split <;> omega)

theorem rowvec_apply {D : Nat} (b : (⟨1, ![D]⟩ : Shape).Idx → α) (hc : (⟨1, ![D]⟩ : Shape).ShapeCasts ⟨2, ![1, D]⟩)
    (q : Fin D) : shapeCast ⟨2, ![1, D]⟩ b hc (ix2 (0 : Fin 1) q) = b (ix1 q) :=
  shapeCast_apply b hc (ix2 (0 : Fin 1) q) (ix1 q) (by
    rw [Shape.rowMajor_val_two, Shape.rowMajor_val_one]
    show q.val = 0 * D + q.val
    omega)

end LayoutAt

-- Node rows padded below with the integer 0 converted, which is 0 at the extended reals.
theorem hpad_apply {D : Nat} (x : FVec Ideal ⟨2, ![50000, D]⟩ .f32)
    (hp : (⟨2, ![50000, D]⟩ : Shape).Pads ![0, 0] ![176, 0] ![0, 0] ⟨2, ![50176, D]⟩) (j : Fin 50176) (q : Fin D) :
    pad ⟨2, ![50176, D]⟩ ![0, 0] ![176, 0] ![0, 0] x (sitofp (F := Ideal) .f32 (constantI S_ 32 0#32)) hp h_S_ (ix2 j q)
      = padRows (fun i a => x (ix2 i a)) j q := by
  unfold padRows
  by_cases h : j.val < 50000
  · rw [dif_pos h]
    exact pad_apply_of_inside ![0, 0] ![176, 0] ![0, 0] x _ hp h_S_ (ix2 j q) (ix2 ⟨j.val, h⟩ q) (fun a => match a with
      | ⟨0, _⟩ => by show j.val = 0 + j.val * (0 + 1); omega
      | ⟨1, _⟩ => by show q.val = 0 + q.val * (0 + 1); omega)
  · rw [dif_neg h, pad_apply_of_not_inside ![0, 0] ![176, 0] ![0, 0] x _ hp h_S_ (ix2 j q) (0 : Fin 2) (by
      show ¬(0 ≤ j.val ∧ (j.val - 0) % (0 + 1) = 0 ∧ (j.val - 0) / (0 + 1) < 50000)
      omega)]
    exact sitofp_zero

-- A dense layer x · W + b: at the extended reals the product is the sum over the contracted index; the bias is laid along every row.
theorem lin_apply {n k d : Nat} (x : FVec Ideal ⟨2, ![n, k]⟩ .f32) (W : FVec Ideal ⟨2, ![k, d]⟩ .f32) (b : FVec Ideal ⟨1, ![d]⟩ .f32)
    (h₁ : (⟨1, ![d]⟩ : Shape).BroadcastsInDim ⟨2, ![1, d]⟩ ![1]) (h₂ : (⟨2, ![1, d]⟩ : Shape).BroadcastsInDim ⟨2, ![n, d]⟩ ![0, 1])
    (i : Fin n) (q : Fin d) :
    addf (Host.dotGeneral (F := Ideal) (DotDims.plain n k d) none x W)
        (broadcastInDim ⟨2, ![n, d]⟩ ![0, 1] h₂ (broadcastInDim ⟨2, ![1, d]⟩ ![1] h₁ b)) (ix2 i q)
      = lin (fun i a => x (ix2 i a)) (fun a q => W (ix2 a q)) (fun q => b (ix1 q)) i q := by
  rw [addf_apply, StackMember.dotGeneral_plain_apply, biasrows_apply]
  rfl

-- B agrees with A off the references in L: a stretch of operations, and a stage's result, change only what they write.
def Off (L : List (Ref sig .tc)) (A B : Valuation τ sig (Elt Ideal)) : Prop := ∀ r : Ref sig .tc, r ∉ L → B r = A r

theorem Off.trans {L₁ L₂ : List (Ref sig .tc)} {A B C : Valuation τ sig (Elt Ideal)} (h₁ : Off L₁ A B) (h₂ : Off L₂ B C) :
    Off (L₁ ++ L₂) A C := fun r hr =>
  (h₂ r fun h => hr (List.mem_append_right _ h)).trans (h₁ r fun h => hr (List.mem_append_left _ h))

theorem Off.after {L : List (Ref sig .tc)} (ops : List (HloOp τ sig (Elt Ideal))) (V : Valuation τ sig (Elt Ideal))
    (hW : ops.Forall fun op => op.writes ⊆ (L.map (Proc.devRef (τ := τ) .tc)).toFinset) : Off L V (StableHlo.after ops V) :=
  fun r hr => StableHlo.after_of_writes_sub ops V hW hr

theorem Off.update (V : Valuation τ sig (Elt Ideal)) (x : Ref sig .tc) (v : (x : DevRef τ sig).ty.Contents (Elt Ideal)) :
    Off [x] V (Function.update V x v) :=
  fun r hr => Function.update_of_ne (StableHlo.devRef_ne_of_ne (List.ne_of_not_mem_cons hr)) _ _

section Stages
variable (W : Valuation τ sig (Elt Ideal))

-- The stretches before a round's two stages, run as one.
abbrev run0 : Valuation τ sig (Elt Ideal) :=
  StableHlo.after hostOps0_7 <| StableHlo.after hostOps0_6 <| StableHlo.after hostOps0_5 <| StableHlo.after hostOps0_4 <| StableHlo.after hostOps0_3 <| StableHlo.after hostOps0_2 <| StableHlo.after hostOps0_1 <| StableHlo.after hostOps0 W
abbrev run2 : Valuation τ sig (Elt Ideal) :=
  StableHlo.after hostOps2_7 <| StableHlo.after hostOps2_6 <| StableHlo.after hostOps2_5 <| StableHlo.after hostOps2_4 <| StableHlo.after hostOps2_3 <| StableHlo.after hostOps2_2 <| StableHlo.after hostOps2_1 <| StableHlo.after hostOps2 W
abbrev run4 : Valuation τ sig (Elt Ideal) :=
  StableHlo.after hostOps4_5 <| StableHlo.after hostOps4_4 <| StableHlo.after hostOps4_3 <| StableHlo.after hostOps4_2 <| StableHlo.after hostOps4_1 <| StableHlo.after hostOps4 W

abbrev L0 : List (Ref sig .tc) := hostOps0_W ++ hostOps0_1_W ++ hostOps0_2_W ++ hostOps0_3_W ++ hostOps0_4_W ++ hostOps0_5_W ++ hostOps0_6_W ++ hostOps0_7_W
abbrev L2 : List (Ref sig .tc) := hostOps2_W ++ hostOps2_1_W ++ hostOps2_2_W ++ hostOps2_3_W ++ hostOps2_4_W ++ hostOps2_5_W ++ hostOps2_6_W ++ hostOps2_7_W
abbrev L4 : List (Ref sig .tc) := hostOps4_W ++ hostOps4_1_W ++ hostOps4_2_W ++ hostOps4_3_W ++ hostOps4_4_W ++ hostOps4_5_W

theorem off0 : Off L0 W (run0 W) :=
  (((((((Off.after _ _ hostOps0_writes).trans (.after _ _ hostOps0_1_writes)).trans (.after _ _ hostOps0_2_writes)).trans
    (.after _ _ hostOps0_3_writes)).trans (.after _ _ hostOps0_4_writes)).trans (.after _ _ hostOps0_5_writes)).trans
    (.after _ _ hostOps0_6_writes)).trans (.after _ _ hostOps0_7_writes)
theorem off2 : Off L2 W (run2 W) :=
  (((((((Off.after _ _ hostOps2_writes).trans (.after _ _ hostOps2_1_writes)).trans (.after _ _ hostOps2_2_writes)).trans
    (.after _ _ hostOps2_3_writes)).trans (.after _ _ hostOps2_4_writes)).trans (.after _ _ hostOps2_5_writes)).trans
    (.after _ _ hostOps2_6_writes)).trans (.after _ _ hostOps2_7_writes)
theorem off4 : Off L4 W (run4 W) :=
  (((((Off.after _ _ hostOps4_writes).trans (.after _ _ hostOps4_1_writes)).trans (.after _ _ hostOps4_2_writes)).trans
    (.after _ _ hostOps4_3_writes)).trans (.after _ _ hostOps4_4_writes)).trans (.after _ _ hostOps4_5_writes)

-- What the stretches before the first round leave, over the contents W before them: the two rows of the edge table, then the round's padded inputs.
theorem v1_0 (e : Fin 1000000) : (run0 W main_v1 : IVec S1000000 32) (ix1 e) = (W main_arg1 : IVec S2x1000000 32) (ix2 (0 : Fin 2) e) := by
  after_results
  exact edgerow_apply 0 0 rfl _ slices_S2x1000000_S1x1000000_0_0 e
theorem v3_0 (e : Fin 1000000) : (run0 W main_v3 : IVec S1000000 32) (ix1 e) = (W main_arg1 : IVec S2x1000000 32) (ix2 (1 : Fin 2) e) := by
  after_results
  exact edgerow_apply 1 1 rfl _ slices_S2x1000000_S1x1000000_1_0 e
theorem src0 (E : Fin 1007616) :
    (run0 W main_v9 : IVec S1007616x1 32) (ix2 E (0 : Fin 1)) = padW (fun e => (W main_arg1 : IVec S2x1000000 32) (ix2 (0 : Fin 2) e)) E := by
  after_results
  exact padE_apply _ _ _ _ (fun e => edgerow_apply 0 0 rfl _ slices_S2x1000000_S1x1000000_0_0 e) rfl shapeCasts_S1007616_S1007616x1 _ E (col E)
theorem dst0 (E : Fin 1007616) :
    (run0 W main_v11 : IVec S1x1007616 32) (ix2 (0 : Fin 1) E) = padW (fun e => (W main_arg1 : IVec S2x1000000 32) (ix2 (1 : Fin 2) e)) E := by
  after_results
  exact padE_apply _ _ _ _ (fun e => edgerow_apply 1 1 rfl _ slices_S2x1000000_S1x1000000_1_0 e) rfl shapeCasts_S1007616_S1x1007616 _ E (row E)
theorem w0 (E : Fin 1007616) : (run0 W main_v13 : FVec Ideal S1007616x1 .f32) (ix2 E (0 : Fin 1))
    = (if h : E.val < 1000000 then (W main_arg2 : FVec Ideal S1000000 .f32) (ix1 ⟨E.val, h⟩) else 0 : EReal) := by
  after_results
  exact padE_apply _ _ _ _ (fun _ => rfl) Ideal.ofBits_zero_f32 shapeCasts_S1007616_S1007616x1 _ E (col E)
theorem h0 (j : Fin 50176) (q : Fin 64) : (run0 W main_v14 : FVec Ideal S50176x64 .f32) (ix2 j q)
    = padRows (lin (fun i a => (W main_arg0 : FVec Ideal S50000x128 .f32) (ix2 i a)) (fun a q => (W main_arg6 : FVec Ideal S128x64 .f32) (ix2 a q)) (fun q => (W main_arg7 : FVec Ideal S64 .f32) (ix1 q))) j q := by
  after_results
  exact (hpad_apply _ pads_S50000x64_S50176x64_01760_000 j q).trans
    (congrArg (padRows · j q) (funext fun i => funext fun a => lin_apply _ _ _ bcast_S64_S1x64_1 bcast_S1x64_S50000x64_0_1 i a))

-- The same before the second round: the edge rows s and d, the weights w and the first round's rows R come from before.
theorem src2 (s : Fin 1000000 → BitVec 32) (hs : ∀ e, (W main_v1 : IVec S1000000 32) (ix1 e) = s e) (E : Fin 1007616) :
    (run2 W main_v23 : IVec S1007616x1 32) (ix2 E (0 : Fin 1)) = padW s E := by
  after_results
  exact padE_apply _ _ _ _ hs rfl shapeCasts_S1007616_S1007616x1 _ E (col E)
theorem dst2 (d : Fin 1000000 → BitVec 32) (hd : ∀ e, (W main_v3 : IVec S1000000 32) (ix1 e) = d e) (E : Fin 1007616) :
    (run2 W main_v25 : IVec S1x1007616 32) (ix2 (0 : Fin 1) E) = padW d E := by
  after_results
  exact padE_apply _ _ _ _ hd rfl shapeCasts_S1007616_S1x1007616 _ E (row E)
theorem w2 (w : FVec Ideal S1000000 .f32) (hw : W main_arg2 = w) (E : Fin 1007616) :
    (run2 W main_v27 : FVec Ideal S1007616x1 .f32) (ix2 E (0 : Fin 1)) = (if h : E.val < 1000000 then w (ix1 ⟨E.val, h⟩) else 0 : EReal) := by
  subst hw
  after_results
  exact padE_apply _ _ _ _ (fun _ => rfl) Ideal.ofBits_zero_f32 shapeCasts_S1007616_S1007616x1 _ E (col E)
theorem h2 (R : FVec Ideal S50176x64 .f32) (hR : W main_v16 = R) (W2 : FVec Ideal S64x32 .f32) (hW2 : W main_arg8 = W2)
    (b2 : FVec Ideal S32 .f32) (hb2 : W main_arg9 = b2) (j : Fin 50176) (q : Fin 32) :
    (run2 W main_v28 : FVec Ideal S50176x32 .f32) (ix2 j q)
      = padRows (lin (fun i a => R (ix2 ⟨i.val, by omega⟩ a)) (fun a q => W2 (ix2 a q)) (fun q => b2 (ix1 q))) j q := by
  subst hR hW2 hb2
  after_results
  refine (hpad_apply _ pads_S50000x32_S50176x32_01760_000 j q).trans (congrArg (padRows · j q) (funext fun i => funext fun a => ?_))
  refine (lin_apply _ _ _ bcast_S32_S1x32_1 bcast_S1x32_S50000x32_0_1 i a).trans ?_
  exact congrArg (fun x : Fin 50000 → Fin 64 → EReal => lin x _ _ i a)
    (funext fun i' => funext fun a' => toprows_apply _ slices_S50176x64_S50000x64_0_0 i' a')

-- The same before the third round, where every edge weighs 1.
theorem src4 (s : Fin 1000000 → BitVec 32) (hs : ∀ e, (W main_v1 : IVec S1000000 32) (ix1 e) = s e) (E : Fin 1007616) :
    (run4 W main_v33 : IVec S1007616x1 32) (ix2 E (0 : Fin 1)) = padW s E := by
  after_results
  exact padE_apply _ _ _ _ hs rfl shapeCasts_S1007616_S1007616x1 _ E (col E)
theorem dst4 (d : Fin 1000000 → BitVec 32) (hd : ∀ e, (W main_v3 : IVec S1000000 32) (ix1 e) = d e) (E : Fin 1007616) :
    (run4 W main_v35 : IVec S1x1007616 32) (ix2 (0 : Fin 1) E) = padW d E := by
  after_results
  exact padE_apply _ _ _ _ hd rfl shapeCasts_S1007616_S1x1007616 _ E (row E)
theorem w4 (E : Fin 1007616) : (run4 W main_v36 : FVec Ideal S1007616x1 .f32) (ix2 E (0 : Fin 1)) = (1 : EReal) := by
  after_results
  exact Ideal.ofBits_one_f32
theorem h4 (R : FVec Ideal S50176x32 .f32) (hR : W main_v30 = R) (j : Fin 50176) (q : Fin 32) :
    (run4 W main_v37 : FVec Ideal S50176x32 .f32) (ix2 j q) = padRows (fun i a => R (ix2 ⟨i.val, by omega⟩ a)) j q := by
  subst hR
  after_results
  exact (hpad_apply _ pads_S50000x32_S50176x32_01760_000 j q).trans
    (congrArg (padRows · j q) (funext fun i => funext fun a => toprows_apply _ slices_S50176x32_S50000x32_0_0 i a))

-- The operands of the last stage.
theorem nf6 (R : FVec Ideal S50176x32 .f32) (hR : W main_v39 = R) (i : Fin 50000) (q : Fin 32) :
    (StableHlo.after hostOps6 W main_v40 : FVec Ideal S50000x32 .f32) (ix2 i q) = R (ix2 ⟨i.val, by omega⟩ q) := by
  subst hR
  after_results
  exact toprows_apply _ slices_S50176x32_S50000x32_0_0 i q
theorem eh6 (A : FVec Ideal S1024x1024 .f32) (hA : W main_arg4 = A) (Fe : FVec Ideal S1024x64 .f32) (hFe : W main_arg3 = Fe)
    (We : FVec Ideal S64x32 .f32) (hWe : W main_arg11 = We) (a : Fin 1024) (q : Fin 32) :
    (StableHlo.after hostOps6 W main_v42 : FVec Ideal S1024x32 .f32) (ix2 a q)
      = mm (fun i a => A (ix2 i a)) (mm (fun i a => Fe (ix2 i a)) (fun a q => We (ix2 a q))) a q := by
  subst hA hFe hWe
  after_results
  refine (StackMember.dotGeneral_plain_apply none _ _ a q).trans ?_
  exact congrArg (fun M : Fin 1024 → Fin 32 → EReal => mm (fun i a => (W main_arg4 : FVec Ideal S1024x1024 .f32) (ix2 i a)) M a q)
    (funext fun a' => funext fun q' => StackMember.dotGeneral_plain_apply none _ _ a' q')
theorem bg6 (b : FVec Ideal S32 .f32) (hb : W main_arg12 = b) (q : Fin 32) :
    (StableHlo.after hostOps6 W main_v43 : FVec Ideal S1x32 .f32) (ix2 (0 : Fin 1) q) = b (ix1 q) := by
  subst hb
  after_results
  exact rowvec_apply _ shapeCasts_S32_S1x32 q
theorem bc16 (b : FVec Ideal S32 .f32) (hb : W main_arg14 = b) (q : Fin 32) :
    (StableHlo.after hostOps6 W main_v44 : FVec Ideal S1x32 .f32) (ix2 (0 : Fin 1) q) = b (ix1 q) := by
  subst hb
  after_results
  exact rowvec_apply _ shapeCasts_S32_S1x32 q
theorem bc26 (b : FVec Ideal S2 .f32) (hb : W main_arg16 = b) (q : Fin 2) :
    (StableHlo.after hostOps6 W main_v45 : FVec Ideal S1x2 .f32) (ix2 (0 : Fin 1) q) = b (ix1 q) := by
  subst hb
  after_results
  exact rowvec_apply _ shapeCasts_S2_S1x2 q

end Stages

variable (m : (ℓ : Loc nD τ sig) → Buf (Elt Ideal) ℓ)

-- The stages' results in between; an argument is never written, and the two edge rows only by the first stretch.
abbrev LB : List (Ref sig .tc) := [main_v15] ++ [main_v16]
abbrev LD : List (Ref sig .tc) := [main_v29] ++ [main_v30]
abbrev LF : List (Ref sig .tc) := [main_v38] ++ [main_v39]

theorem offB (c : Dev nD) : Off LB (V8 m c) (P10 m c) := (Off.update _ _ _).trans (.update _ _ _)
theorem offD (c : Dev nD) : Off LD (P18 m c) (P20 m c) := (Off.update _ _ _).trans (.update _ _ _)
theorem offF (c : Dev nD) : Off LF (P26 m c) (P28 m c) := (Off.update _ _ _).trans (.update _ _ _)
theorem offBD (c : Dev nD) : Off (LB ++ L2 ++ LD) (V8 m c) (P20 m c) := ((offB m c).trans (off2 _)).trans (offD m c)
theorem arg10 (c : Dev nD) (r : Ref sig .tc) (h : r ∉ L0 ++ LB) : P10 m c r = m ((c : Thread nD τ).loc r) :=
  ((off0 _).trans (offB m c)) r h
theorem arg28 (c : Dev nD) (r : Ref sig .tc) (h : r ∉ L0 ++ LB ++ L2 ++ LD ++ L4 ++ LF) : P28 m c r = m ((c : Thread nD τ).loc r) :=
  ((((((off0 _).trans (offB m c)).trans (off2 _)).trans (offD m c)).trans (off4 _)).trans (offF m c)) r h
theorem arg29 (c : Dev nD) (r : Ref sig .tc) (h : r ∉ L0 ++ LB ++ L2 ++ LD ++ L4 ++ LF ++ hostOps6_W) :
    P29 m c r = m ((c : Thread nD τ).loc r) :=
  (((((((off0 _).trans (offB m c)).trans (off2 _)).trans (offD m c)).trans (off4 _)).trans (offF m c)).trans
    (.after _ _ hostOps6_writes)) r h

end HostVals

open HostVals

variable (m : (ℓ : Loc nD τ sig) → Buf (Elt Ideal) ℓ)

section Inputs

theorem in0_src (c : Dev nD) (E : Fin 1007616) :
    (E0 m c main_v9 : IVec S1007616x1 32) (ix2 E (0 : Fin 1)) = padW (fun e => (m ((c : Thread nD τ).loc main_arg1) : IVec S2x1000000 32) (ix2 (0 : Fin 2) e)) E := src0 _ E
theorem in1_dst (c : Dev nD) (E : Fin 1007616) :
    (E1 m c main_v11 : IVec S1x1007616 32) (ix2 (0 : Fin 1) E) = padW (fun e => (m ((c : Thread nD τ).loc main_arg1) : IVec S2x1000000 32) (ix2 (1 : Fin 2) e)) E :=
  (congrFun (Off.update _ _ _ main_v11 (by decide)) _).trans (dst0 _ E)
theorem in0_w (c : Dev nD) (E : Fin 1007616) :
    (E0 m c main_v13 : FVec Ideal S1007616x1 .f32) (ix2 E (0 : Fin 1))
      = (if h : E.val < 1000000 then (m ((c : Thread nD τ).loc main_arg2) : FVec Ideal S1000000 .f32) (ix1 ⟨E.val, h⟩) else 0 : EReal) := w0 _ E
theorem in0_h (c : Dev nD) (j : Fin 50176) (q : Fin 64) :
    (E0 m c main_v14 : FVec Ideal S50176x64 .f32) (ix2 j q)
      = padRows (lin (fun i a => (m ((c : Thread nD τ).loc main_arg0) : FVec Ideal S50000x128 .f32) (ix2 i a)) (fun a q => (m ((c : Thread nD τ).loc main_arg6) : FVec Ideal S128x64 .f32) (ix2 a q)) (fun q => (m ((c : Thread nD τ).loc main_arg7) : FVec Ideal S64 .f32) (ix1 q))) j q := h0 _ j q
theorem in1_msg (c : Dev nD) : E1 m c main_v15 = res0 m c := Function.update_self _ _ _

theorem in2_src (c : Dev nD) (E : Fin 1007616) :
    (E2 m c main_v23 : IVec S1007616x1 32) (ix2 E (0 : Fin 1)) = padW (fun e => (m ((c : Thread nD τ).loc main_arg1) : IVec S2x1000000 32) (ix2 (0 : Fin 2) e)) E :=
  src2 _ _ (fun e => (congrFun (offB m c main_v1 (by decide)) _).trans (v1_0 _ e)) E
theorem in3_dst (c : Dev nD) (E : Fin 1007616) :
    (E3 m c main_v25 : IVec S1x1007616 32) (ix2 (0 : Fin 1) E) = padW (fun e => (m ((c : Thread nD τ).loc main_arg1) : IVec S2x1000000 32) (ix2 (1 : Fin 2) e)) E :=
  (congrFun (Off.update _ _ _ main_v25 (by decide)) _).trans
    (dst2 _ _ (fun e => (congrFun (offB m c main_v3 (by decide)) _).trans (v3_0 _ e)) E)
theorem in2_w (c : Dev nD) (E : Fin 1007616) :
    (E2 m c main_v27 : FVec Ideal S1007616x1 .f32) (ix2 E (0 : Fin 1))
      = (if h : E.val < 1000000 then (m ((c : Thread nD τ).loc main_arg2) : FVec Ideal S1000000 .f32) (ix1 ⟨E.val, h⟩) else 0 : EReal) := w2 _ _ (arg10 m c main_arg2 (by decide)) E
theorem in2_h (c : Dev nD) (j : Fin 50176) (q : Fin 32) :
    (E2 m c main_v28 : FVec Ideal S50176x32 .f32) (ix2 j q)
      = padRows (lin (fun i a => (res1 m c : FVec Ideal S50176x64 .f32) (ix2 ⟨i.val, by omega⟩ a)) (fun a q => (m ((c : Thread nD τ).loc main_arg8) : FVec Ideal S64x32 .f32) (ix2 a q))
          (fun q => (m ((c : Thread nD τ).loc main_arg9) : FVec Ideal S32 .f32) (ix1 q))) j q :=
  h2 _ _ (Function.update_self _ _ _) _ (arg10 m c main_arg8 (by decide)) _ (arg10 m c main_arg9 (by decide)) j q
theorem in3_msg (c : Dev nD) : E3 m c main_v29 = res2 m c := Function.update_self _ _ _

theorem in4_src (c : Dev nD) (E : Fin 1007616) :
    (E4 m c main_v33 : IVec S1007616x1 32) (ix2 E (0 : Fin 1)) = padW (fun e => (m ((c : Thread nD τ).loc main_arg1) : IVec S2x1000000 32) (ix2 (0 : Fin 2) e)) E :=
  src4 _ _ (fun e => (congrFun (offBD m c main_v1 (by decide)) _).trans (v1_0 _ e)) E
theorem in5_dst (c : Dev nD) (E : Fin 1007616) :
    (E5 m c main_v35 : IVec S1x1007616 32) (ix2 (0 : Fin 1) E) = padW (fun e => (m ((c : Thread nD τ).loc main_arg1) : IVec S2x1000000 32) (ix2 (1 : Fin 2) e)) E :=
  (congrFun (Off.update _ _ _ main_v35 (by decide)) _).trans
    (dst4 _ _ (fun e => (congrFun (offBD m c main_v3 (by decide)) _).trans (v3_0 _ e)) E)
theorem in4_w (c : Dev nD) (E : Fin 1007616) :
    (E4 m c main_v36 : FVec Ideal S1007616x1 .f32) (ix2 E (0 : Fin 1)) = (1 : EReal) := w4 _ E
theorem in4_h (c : Dev nD) (j : Fin 50176) (q : Fin 32) :
    (E4 m c main_v37 : FVec Ideal S50176x32 .f32) (ix2 j q)
      = padRows (fun i a => (res3 m c : FVec Ideal S50176x32 .f32) (ix2 ⟨i.val, by omega⟩ a)) j q := h4 _ _ (Function.update_self _ _ _) j q
theorem in5_msg (c : Dev nD) : E5 m c main_v38 = res4 m c := Function.update_self _ _ _

theorem in6_T (c : Dev nD) : E6 m c main_arg5 = (m ((c : Thread nD τ).loc main_arg5) : FVec Ideal S50000x1024 .f32) := arg29 m c main_arg5 (by decide)
theorem in6_nf (c : Dev nD) (i : Fin 50000) (q : Fin 32) :
    (E6 m c main_v40 : FVec Ideal S50000x32 .f32) (ix2 i q) = (res5 m c : FVec Ideal S50176x32 .f32) (ix2 ⟨i.val, by omega⟩ q) := nf6 _ _ (Function.update_self _ _ _) i q
theorem in6_eh (c : Dev nD) (a : Fin 1024) (q : Fin 32) :
    (E6 m c main_v42 : FVec Ideal S1024x32 .f32) (ix2 a q)
      = mm (fun i a => (m ((c : Thread nD τ).loc main_arg4) : FVec Ideal S1024x1024 .f32) (ix2 i a)) (mm (fun i a => (m ((c : Thread nD τ).loc main_arg3) : FVec Ideal S1024x64 .f32) (ix2 i a)) (fun a q => (m ((c : Thread nD τ).loc main_arg11) : FVec Ideal S64x32 .f32) (ix2 a q))) a q :=
  eh6 _ _ (arg28 m c main_arg4 (by decide)) _ (arg28 m c main_arg3 (by decide)) _ (arg28 m c main_arg11 (by decide)) a q
theorem in6_Wn (c : Dev nD) : E6 m c main_arg10 = (m ((c : Thread nD τ).loc main_arg10) : FVec Ideal S32x32 .f32) := arg29 m c main_arg10 (by decide)
theorem in6_bg (c : Dev nD) (q : Fin 32) :
    (E6 m c main_v43 : FVec Ideal S1x32 .f32) (ix2 (0 : Fin 1) q) = (m ((c : Thread nD τ).loc main_arg12) : FVec Ideal S32 .f32) (ix1 q) := bg6 _ _ (arg28 m c main_arg12 (by decide)) q
theorem in6_Wc1 (c : Dev nD) : E6 m c main_arg13 = (m ((c : Thread nD τ).loc main_arg13) : FVec Ideal S32x32 .f32) := arg29 m c main_arg13 (by decide)
theorem in6_bc1 (c : Dev nD) (q : Fin 32) :
    (E6 m c main_v44 : FVec Ideal S1x32 .f32) (ix2 (0 : Fin 1) q) = (m ((c : Thread nD τ).loc main_arg14) : FVec Ideal S32 .f32) (ix1 q) := bc16 _ _ (arg28 m c main_arg14 (by decide)) q
theorem in6_Wc2 (c : Dev nD) : E6 m c main_arg15 = (m ((c : Thread nD τ).loc main_arg15) : FVec Ideal S32x2 .f32) := arg29 m c main_arg15 (by decide)
theorem in6_bc2 (c : Dev nD) (q : Fin 2) :
    (E6 m c main_v45 : FVec Ideal S1x2 .f32) (ix2 (0 : Fin 1) q) = (m ((c : Thread nD τ).loc main_arg16) : FVec Ideal S2 .f32) (ix1 q) := bc26 _ _ (arg28 m c main_arg16 (by decide)) q

end Inputs

end Cert.KernelIdeal.Hand

end
-- ==== Proof.KernelValue.lean ====
import proofs.«422453_j56642028700408_3_alg».proof.Proof.Chain
import proofs.«422453_j56642028700408_3_alg».proof.Proof.R0Value
import proofs.«422453_j56642028700408_3_alg».proof.Proof.R1Value
import proofs.«422453_j56642028700408_3_alg».proof.Proof.R2Value
import proofs.«422453_j56642028700408_3_alg».proof.Proof.R3Value
import proofs.«422453_j56642028700408_3_alg».proof.Proof.R4Value
import proofs.«422453_j56642028700408_3_alg».proof.Proof.R5Value
import proofs.«422453_j56642028700408_3_alg».proof.Proof.R6Value
import proofs.«422453_j56642028700408_3_alg».proof.Proof.HostVals
import proofs.«422453_j56642028700408_3_alg».proof.Proof.Spec
import proofs.«422453_j56642028700408_3_alg».proof.Proof.StageMath

set_option maxRecDepth 16384

noncomputable section

namespace Cert.KernelIdeal.Hand

open Cert.KernelIdeal Idealize.ShloMosaic Idealize.ShloMosaic.TcCoe Idealize.SL.Sem Idealize.ShloMosaic.ValueIdx Cert.Hgnn

namespace KV

section Compose
variable (m : (ℓ : Loc nD τ sig) → Buf (Elt Ideal) ℓ) (c : Dev nD)

abbrev aSrc : Fin 1000000 → BitVec 32 := fun e => m ((c : Thread nD τ).loc main_arg1) (ix2 0 e)
abbrev aDst : Fin 1000000 → BitVec 32 := fun e => m ((c : Thread nD τ).loc main_arg1) (ix2 1 e)
abbrev aW : Fin 1000000 → EReal := fun e => m ((c : Thread nD τ).loc main_arg2) (ix1 e)
abbrev aX : Fin 50000 → Fin 128 → EReal := fun i a => m ((c : Thread nD τ).loc main_arg0) (ix2 i a)
abbrev aW1 : Fin 128 → Fin 64 → EReal := fun a q => m ((c : Thread nD τ).loc main_arg6) (ix2 a q)
abbrev ab1 : Fin 64 → EReal := fun q => m ((c : Thread nD τ).loc main_arg7) (ix1 q)
abbrev aW2 : Fin 64 → Fin 32 → EReal := fun a q => m ((c : Thread nD τ).loc main_arg8) (ix2 a q)
abbrev ab2 : Fin 32 → EReal := fun q => m ((c : Thread nD τ).loc main_arg9) (ix1 q)

abbrev wpad (w : Fin 1000000 → EReal) : Fin 1007616 → EReal := fun E => if h : E.val < 1000000 then w ⟨E.val, h⟩ else 0

-- The padded one-hot round is the specification's round at a real node row when the padded weights restrict to the edge weights.
theorem round_eq {D : Nat} (src dst : Fin 1000000 → BitVec 32) (w : Fin 1000000 → EReal) (wp : Fin 1007616 → EReal)
    (hw : ∀ e : Fin 1000000, wp ⟨e.val, by omega⟩ = w e) (h : Fin 50000 → Fin D → EReal)
    (hsrc : ∀ e, 0 ≤ (src e).toInt ∧ (src e).toInt < 50000) (N : Fin 50000) (q : Fin D) :
    scatterK (padW dst) (gatherK (padW src) wp (padRows h)) ⟨N.val, by omega⟩ q = agg src dst w h N q := by
  rw [stage_eq src dst wp h hsrc N q]
  unfold agg
  exact Finset.sum_congr rfl fun e _ => by rw [hw e]

theorem msg1_eq : (fun (E : Fin 1007616) (q : Fin 64) => E1 m c main_v15 (ix2 E q))
    = gatherK (padW (aSrc m c)) (wpad (aW m c)) (padRows (lin (aX m c) (aW1 m c) (ab1 m c))) := by
  funext E q
  rw [in1_msg]
  refine (val0 (E0 m) c E q).trans ?_
  rw [show (fun E => E0 m c main_v9 (ix2 E 0)) = padW (aSrc m c) from funext (in0_src m c),
    show (fun E => E0 m c main_v13 (ix2 E 0)) = wpad (aW m c) from funext (in0_w m c),
    show (fun j q => E0 m c main_v14 (ix2 j q)) = padRows (lin (aX m c) (aW1 m c) (ab1 m c)) from
      funext fun j => funext (in0_h m c j)]

theorem h1_eq (hsrc : ∀ e, 0 ≤ (aSrc m c e).toInt ∧ (aSrc m c e).toInt < 50000) (i : Fin 50000) (a : Fin 64) :
    res1 m c (ix2 (⟨i.val, by omega⟩ : Fin 50176) a)
      = relu (agg (aSrc m c) (aDst m c) (aW m c) (lin (aX m c) (aW1 m c) (ab1 m c)) i a) := by
  refine (val1 (E1 m) c _ a).trans ?_
  rw [msg1_eq, show (fun E => E1 m c main_v11 (ix2 0 E)) = padW (aDst m c) from funext (in1_dst m c),
    round_eq (aSrc m c) (aDst m c) (aW m c) (wpad (aW m c)) (fun e => dif_pos e.isLt) _ hsrc i a]
  rfl

abbrev H1 : Fin 50000 → Fin 64 → EReal :=
  fun i a => relu (agg (aSrc m c) (aDst m c) (aW m c) (lin (aX m c) (aW1 m c) (ab1 m c)) i a)

theorem msg2_eq (hsrc : ∀ e, 0 ≤ (aSrc m c e).toInt ∧ (aSrc m c e).toInt < 50000) :
    (fun (E : Fin 1007616) (q : Fin 32) => E3 m c main_v29 (ix2 E q))
      = gatherK (padW (aSrc m c)) (wpad (aW m c)) (padRows (lin (H1 m c) (aW2 m c) (ab2 m c))) := by
  funext E q
  rw [in3_msg]
  refine (val2 (E2 m) c E q).trans ?_
  have eh : (fun (j : Fin 50176) (q : Fin 32) => E2 m c main_v28 (ix2 j q)) = padRows (lin (H1 m c) (aW2 m c) (ab2 m c)) :=
    funext fun j => funext fun q => (in2_h m c j q).trans
      (congrArg (fun h : Fin 50000 → Fin 64 → EReal => padRows (lin h (aW2 m c) (ab2 m c)) j q)
        (funext fun i => funext fun a => h1_eq m c hsrc i a))
  rw [show (fun E => E2 m c main_v23 (ix2 E 0)) = padW (aSrc m c) from funext (in2_src m c),
    show (fun E => E2 m c main_v27 (ix2 E 0)) = wpad (aW m c) from funext (in2_w m c), eh]

theorem h2_eq (hsrc : ∀ e, 0 ≤ (aSrc m c e).toInt ∧ (aSrc m c e).toInt < 50000) (i : Fin 50000) (a : Fin 32) :
    res3 m c (ix2 (⟨i.val, by omega⟩ : Fin 50176) a)
      = relu (agg (aSrc m c) (aDst m c) (aW m c) (lin (H1 m c) (aW2 m c) (ab2 m c)) i a) := by
  refine (val3 (E3 m) c _ a).trans ?_
  rw [msg2_eq m c hsrc, show (fun E => E3 m c main_v25 (ix2 0 E)) = padW (aDst m c) from funext (in3_dst m c),
    round_eq (aSrc m c) (aDst m c) (aW m c) (wpad (aW m c)) (fun e => dif_pos e.isLt) _ hsrc i a]
  rfl

abbrev H2 : Fin 50000 → Fin 32 → EReal :=
  fun i a => relu (agg (aSrc m c) (aDst m c) (aW m c) (lin (H1 m c) (aW2 m c) (ab2 m c)) i a)

theorem msg3_eq (hsrc : ∀ e, 0 ≤ (aSrc m c e).toInt ∧ (aSrc m c e).toInt < 50000) :
    (fun (E : Fin 1007616) (q : Fin 32) => E5 m c main_v38 (ix2 E q))
      = gatherK (padW (aSrc m c)) (fun _ => 1) (padRows (H2 m c)) := by
  funext E q
  rw [in5_msg]
  refine (val4 (E4 m) c E q).trans ?_
  have eh : (fun (j : Fin 50176) (q : Fin 32) => E4 m c main_v37 (ix2 j q)) = padRows (H2 m c) :=
    funext fun j => funext fun q => (in4_h m c j q).trans
      (congrArg (fun h : Fin 50000 → Fin 32 → EReal => padRows h j q) (funext fun i => funext fun a => h2_eq m c hsrc i a))
  rw [show (fun E => E4 m c main_v33 (ix2 E 0)) = padW (aSrc m c) from funext (in4_src m c),
    show (fun E => E4 m c main_v36 (ix2 E 0)) = (fun _ => (1 : EReal)) from funext (in4_w m c), eh]

theorem nf_eq (hsrc : ∀ e, 0 ≤ (aSrc m c e).toInt ∧ (aSrc m c e).toInt < 50000) (i : Fin 50000) (q : Fin 32) :
    res5 m c (ix2 (⟨i.val, by omega⟩ : Fin 50176) q)
      = nodeFeatures (aX m c) (aSrc m c) (aDst m c) (aW m c) (aW1 m c) (ab1 m c) (aW2 m c) (ab2 m c) i q := by
  refine (val5 (E5 m) c _ q).trans ?_
  rw [msg3_eq m c hsrc, show (fun E => E5 m c main_v35 (ix2 0 E)) = padW (aDst m c) from funext (in5_dst m c),
    round_eq (aSrc m c) (aDst m c) (fun _ => 1) (fun _ => 1) (fun _ => rfl) _ hsrc i q]
  rfl

end Compose

end KV

open KV in
-- Three rounds compose to the node features; the last stage is the classifier and the row softmax of the prepared operands.
theorem kernel_eq_spec (m : (ℓ : Loc nD τ sig) → Buf (Elt Ideal) ℓ) (c : Dev nD)
    (hsrc : ∀ e : Fin 1000000, 0 ≤ (m ((c : Thread nD τ).loc main_arg1) (ix2 (0 : Fin 2) e)).toInt ∧ (m ((c : Thread nD τ).loc main_arg1) (ix2 (0 : Fin 2) e)).toInt < 50000)
    (n : Fin 50000) (k : Fin 2) :
    (res6 m c) (ix2 n k)
      = softmax2 Ideal.exp Ideal.div (logits (fun i a => m ((c : Thread nD τ).loc main_arg5) (ix2 i a))
          (nodeFeatures (fun i a => m ((c : Thread nD τ).loc main_arg0) (ix2 i a)) (fun e => m ((c : Thread nD τ).loc main_arg1) (ix2 0 e)) (fun e => m ((c : Thread nD τ).loc main_arg1) (ix2 1 e))
            (fun e => m ((c : Thread nD τ).loc main_arg2) (ix1 e)) (fun a q => m ((c : Thread nD τ).loc main_arg6) (ix2 a q)) (fun q => m ((c : Thread nD τ).loc main_arg7) (ix1 q))
            (fun a q => m ((c : Thread nD τ).loc main_arg8) (ix2 a q)) (fun q => m ((c : Thread nD τ).loc main_arg9) (ix1 q)))
          (mm (fun i a => m ((c : Thread nD τ).loc main_arg4) (ix2 i a)) (mm (fun i a => m ((c : Thread nD τ).loc main_arg3) (ix2 i a)) (fun a q => m ((c : Thread nD τ).loc main_arg11) (ix2 a q))))
          (fun a q => m ((c : Thread nD τ).loc main_arg10) (ix2 a q)) (fun q => m ((c : Thread nD τ).loc main_arg12) (ix1 q)) (fun a q => m ((c : Thread nD τ).loc main_arg13) (ix2 a q))
          (fun q => m ((c : Thread nD τ).loc main_arg14) (ix1 q)) (fun a q => m ((c : Thread nD τ).loc main_arg15) (ix2 a q)) (fun q => m ((c : Thread nD τ).loc main_arg16) (ix1 q)) n) k := by
  refine (val6 (E6 m) c n k).trans ?_
  rw [in6_T, in6_Wn, in6_Wc1, in6_Wc2]
  have eNF : (fun (i : Fin 50000) (q : Fin 32) => E6 m c main_v40 (ix2 i q))
      = nodeFeatures (aX m c) (aSrc m c) (aDst m c) (aW m c) (aW1 m c) (ab1 m c) (aW2 m c) (ab2 m c) :=
    funext fun i => funext fun q => (in6_nf m c i q).trans (nf_eq m c hsrc i q)
  rw [eNF, funext fun a => funext fun q => in6_eh m c a q, funext (in6_bg m c), funext (in6_bc1 m c), funext (in6_bc2 m c)]

end Cert.KernelIdeal.Hand

end
-- ==== Proof.LibRowGatherScatter.lean ====
import Idealize.ShloMosaic.PureOps.Ideal
import Idealize.ShloMosaic.Lib.ValueIdx

noncomputable section

namespace Cert.Gcn

open Idealize.ShloMosaic Idealize.ShloMosaic.ValueIdx

-- Row e of the result is the table's row at the start word s of e, read signed and clamped: the row axis is start-indexed and collapsed, the column axis is the one offset axis.
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N)
    (s : BitVec w) (hs : idx (ix2 e (0 : Fin 1)) = s) :
    Host.gather d x idx (ix2 e q) = x (ix2 ⟨min s.toInt.toNat (N - 1), by omega⟩ q) := by
  subst hs
  unfold Host.gather
  congr 1
  funext a
  apply Fin.ext
  have hb : ∀ a : Fin 2, a ∉ d.operandBatchingDims := fun a => by rw [hob]; exact List.not_mem_nil
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

-- With index words s, an update lands at (i, q) exactly when its row's word reads i and its column is q.
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (s : Fin E → BitVec w) (hs : ∀ e, idx (ix2 e (0 : Fin 1)) = s e) (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (s e).toInt = (i.val : ℤ)), upd (ix2 e q) := by
  obtain rfl : (fun e => idx (ix2 e (0 : Fin 1))) = s := funext hs
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.RefValue.lean ====
import proofs.«422453_j56642028700408_3_alg».proof.Proof.Gen.ReferenceIdeal.Read
import proofs.«422453_j56642028700408_3_alg».proof.Proof.Spec
import proofs.«422453_j56642028700408_3_alg».proof.Proof.LibRowGatherScatter
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Hgnn

abbrev RArr (s : Shape) : Type := (⟨s, .f32⟩ : BufTy).Contents (Elt Ideal)
abbrev WArr (s : Shape) : Type := (⟨s, .i32⟩ : BufTy).Contents (Elt Ideal)

abbrev mat {n k : Nat} (a : RArr ⟨2, ![n, k]⟩) : Fin n → Fin k → EReal := fun i j => a (ix2 i j)
abbrev vec {n : Nat} (a : RArr ⟨1, ![n]⟩) : Fin n → EReal := fun i => a (ix1 i)
abbrev wrow {n : Nat} (a : WArr ⟨2, ![2, n]⟩) (r : Fin 2) : Fin n → BitVec 32 := fun e => a (ix2 r e)

theorem idx2_eq {n0 n1 : Nat} (j : (⟨2, ![n0, n1]⟩ : Shape).Idx) (a : Fin n0) (b : Fin n1) (h0 : (j 0).val = a.val)
    (h1 : (j 1).val = b.val) : j = ix2 a b :=
  Shape.idx_ext₂ h0 h1

theorem idx1_eq {n : Nat} (j : (⟨1, ![n]⟩ : Shape).Idx) (a : Fin n) (h0 : (j 0).val = a.val) : j = ix1 a := by
  funext c; match c with | ⟨0, _⟩ => exact Fin.ext h0

-- A sum of products whose factors are read through index maps onto (i, c) and (c, q) is the matrix product at (i, q).
theorem mm_read {n k d : Nat} {A : RArr ⟨2, ![n, k]⟩} {B : RArr ⟨2, ![k, d]⟩} {x : Fin n → Fin k → EReal}
    {W : Fin k → Fin d → EReal} (hA : ∀ i a, A (ix2 i a) = x i a) (hB : ∀ a q, B (ix2 a q) = W a q) (i : Fin n) (q : Fin d)
    {l : Fin k → (⟨2, ![n, k]⟩ : Shape).Idx} {r : Fin k → (⟨2, ![k, d]⟩ : Shape).Idx}
    (hl : ∀ c, l c = ix2 i c) (hr : ∀ c, r c = ix2 c q) : ∑ c, A (l c) * B (r c) = mm x W i q :=
  Finset.sum_congr rfl fun c _ => by rw [hl, hr, hA, hB]

theorem ofBits_edges : Ideal.ofBits .f32 0x49742400#32 = ((1000000 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

-- A word that reads non-negative is not below zero, so the wrap of negative source words never fires.
theorem slt_zero_of_nonneg (x : BitVec 32) (h : 0 ≤ x.toInt) : IntOp.cmpi .slt x 0#32 = 0#1 := by
  have hs : x.slt 0#32 = false := by
    rw [BitVec.slt_eq_decide]
    exact decide_eq_false (by simpa using h)
  show BitVec.ofBool (x.slt 0#32) = 0#1
  rw [hs]; rfl

variable (a0 : RArr S50000x128) (a1 : WArr S2x1000000) (a2 : RArr S1000000) (a3 : RArr S1024x64) (a4 : RArr S1024x1024)
  (a5 : RArr S50000x1024) (a6 : RArr S128x64) (a7 : RArr S64) (a8 : RArr S64x32) (a9 : RArr S32) (a10 : RArr S32x32)
  (a11 : RArr S64x32) (a12 : RArr S32) (a13 : RArr S32x32) (a14 : RArr S32) (a15 : RArr S32x2) (a16 : RArr S2)

theorem src_apply (e : Fin 1000000) : val_main_v1 (F := Ideal) a1 (ix1 e) = wrow a1 0 e := by
  rw [val_main_v1_apply, val_main_v0_apply]
  exact congrArg a1 (idx2_eq _ _ _ rfl (Nat.mod_eq_of_lt e.isLt))

theorem dst_apply (e : Fin 1000000) : val_main_v3 (F := Ideal) a1 (ix1 e) = wrow a1 1 e := by
  rw [val_main_v3_apply, val_main_v2_apply]
  exact congrArg a1 (idx2_eq _ _ _ rfl (Nat.mod_eq_of_lt e.isLt))

theorem wrapped_apply (e : Fin 1000000) (h : 0 ≤ (wrow a1 0 e).toInt) :
    val_main_v12 (F := Ideal) a1 (ix1 e) = wrow a1 0 e := by
  rw [val_main_v12_apply, val_main_v9_apply, val_main_v8_apply, val_main_c_apply, src_apply,
    slt_zero_of_nonneg _ h, select_zero]

theorem srccol_apply (e : Fin 1000000) (h : 0 ≤ (wrow a1 0 e).toInt) :
    val_main_v13 (F := Ideal) a1 (ix2 e (0 : Fin 1)) = wrow a1 0 e := by
  rw [val_main_v13_apply, idx1_eq (idx_main_v13 (ix2 e (0 : Fin 1))) e rfl]
  exact wrapped_apply a1 e h

theorem dstcol_apply (e : Fin 1000000) : val_main_v19 (F := Ideal) a1 (ix2 e (0 : Fin 1)) = wrow a1 1 e := by
  rw [val_main_v19_apply, idx1_eq (idx_main_v19 (ix2 e (0 : Fin 1))) e rfl]
  exact dst_apply a1 e

theorem lin1_apply (i : Fin 50000) (q : Fin 64) :
    val_main_v7 (F := Ideal) a0 a6 a7 (ix2 i q) = lin (mat a0) (mat a6) (vec a7) i q := by
  rw [val_main_v7_apply, val_main_v4_apply, val_main_v6_apply, val_main_v5_apply, Ideal.addf_def]
  exact congrArg₂ (· + ·) (mm_read (fun _ _ => rfl) (fun _ _ => rfl) i q (fun k => idx2_eq _ i k rfl rfl) (fun k => idx2_eq _ k q rfl rfl))
    (congrArg a7 (idx1_eq _ q rfl))

-- A round: project, take the rows at the source words, weigh, add into the rows at the destination words, rectify.
theorem h1_apply (hsrc : ∀ e : Fin 1000000, 0 ≤ (wrow a1 0 e).toInt) (n : Fin 50000) (q : Fin 64) :
    val_main_v21 (F := Ideal) a0 a1 a2 a6 a7 (ix2 n q)
      = relu (agg (wrow a1 0) (wrow a1 1) (vec a2) (lin (mat a0) (mat a6) (vec a7)) n q) := by
  rw [val_main_v21_apply, val_main_call0_v0_apply, val_main_call0_cst_apply, Ideal.maximumf_def, Ideal.ofBits_def,
    Ideal.ofBits_zero_f32]
  unfold val_main_v20
  rw [Cert.Gcn.scatterAdd_rows scatter_S50000x64_S1000000x1_S1000000x64_1_0_0_1 rfl rfl rfl rfl _ _ _ _ (dstcol_apply a1),
    val_main_v18_apply, val_main_cst_apply, Ideal.ofBits_def, Ideal.ofBits_zero_f32, zero_add]
  refine congrArg (max · 0) (Finset.sum_congr rfl fun e _ => ?_)
  rw [val_main_v17_apply, val_main_v16_apply, val_main_v15_apply, Ideal.mulf_def]
  unfold val_main_v14
  rw [Cert.Gcn.gather_rows gather_S50000x64_S1000000x1_S1000000x64_1_0_n_n_0_1_164 rfl rfl rfl rfl rfl _ _ e q (by decide) _
    (srccol_apply a1 e (hsrc e)), lin1_apply]
  exact congrArg (_ * ·) (congrArg a2 (idx1_eq _ e rfl))

abbrev H1 : Fin 50000 → Fin 64 → EReal :=
  fun i a => relu (agg (wrow a1 0) (wrow a1 1) (vec a2) (lin (mat a0) (mat a6) (vec a7)) i a)

theorem lin2_apply (hsrc : ∀ e : Fin 1000000, 0 ≤ (wrow a1 0 e).toInt) (i : Fin 50000) (q : Fin 32) :
    val_main_v25 (F := Ideal) a0 a1 a2 a6 a7 a8 a9 (ix2 i q) = lin (H1 a0 a1 a2 a6 a7) (mat a8) (vec a9) i q := by
  rw [val_main_v25_apply, val_main_v22_apply, val_main_v24_apply, val_main_v23_apply, Ideal.addf_def]
  exact congrArg₂ (· + ·) (mm_read (h1_apply a0 a1 a2 a6 a7 hsrc) (fun _ _ => rfl) i q (fun k => idx2_eq _ i k rfl rfl) (fun k => idx2_eq _ k q rfl rfl))
    (congrArg a9 (idx1_eq _ q rfl))

theorem h2_apply (hsrc : ∀ e : Fin 1000000, 0 ≤ (wrow a1 0 e).toInt) (n : Fin 50000) (q : Fin 32) :
    val_main_v39 (F := Ideal) a0 a1 a2 a6 a7 a8 a9 (ix2 n q)
      = relu (agg (wrow a1 0) (wrow a1 1) (vec a2) (lin (H1 a0 a1 a2 a6 a7) (mat a8) (vec a9)) n q) := by
  rw [val_main_v39_apply, val_main_call1_v0_apply, val_main_call1_cst_apply, Ideal.maximumf_def, Ideal.ofBits_def,
    Ideal.ofBits_zero_f32]
  unfold val_main_v38
  rw [Cert.Gcn.scatterAdd_rows scatter_S50000x32_S1000000x1_S1000000x32_1_0_0_1 rfl rfl rfl rfl _
      (val_main_v37 (F := Ideal) a1) _ _ (dstcol_apply a1),
    val_main_v36_apply, val_main_cst_3_apply, Ideal.ofBits_def, Ideal.ofBits_zero_f32, zero_add]
  refine congrArg (max · 0) (Finset.sum_congr rfl fun e _ => ?_)
  rw [val_main_v35_apply, val_main_v34_apply, val_main_v33_apply, Ideal.mulf_def,
    idx1_eq (idx_main_v33 (idx_main_v34 (ix2 e q))) e rfl]
  unfold val_main_v32
  rw [Cert.Gcn.gather_rows gather_S50000x32_S1000000x1_S1000000x32_1_0_n_n_0_1_132 rfl rfl rfl rfl rfl _
    (val_main_v31 (F := Ideal) a1) e q (by decide) _ (srccol_apply a1 e (hsrc e)), lin2_apply a0 a1 a2 a6 a7 a8 a9 hsrc]

abbrev H2 : Fin 50000 → Fin 32 → EReal :=
  fun i a => relu (agg (wrow a1 0) (wrow a1 1) (vec a2) (lin (H1 a0 a1 a2 a6 a7) (mat a8) (vec a9)) i a)

theorem agg3_apply (hsrc : ∀ e : Fin 1000000, 0 ≤ (wrow a1 0 e).toInt) (n : Fin 50000) (q : Fin 32) :
    val_main_v49 (F := Ideal) a0 a1 a2 a6 a7 a8 a9 (ix2 n q)
      = agg (wrow a1 0) (wrow a1 1) (fun _ => 1) (H2 a0 a1 a2 a6 a7 a8 a9) n q := by
  unfold val_main_v49
  rw [Cert.Gcn.scatterAdd_rows scatter_S50000x32_S1000000x1_S1000000x32_1_0_0_1 rfl rfl rfl rfl _
      (val_main_v48 (F := Ideal) a1) _ _ (dstcol_apply a1),
    val_main_v47_apply, val_main_cst_6_apply, Ideal.ofBits_def, Ideal.ofBits_zero_f32, zero_add]
  refine Finset.sum_congr rfl fun e _ => ?_
  unfold val_main_v46
  rw [Cert.Gcn.gather_rows gather_S50000x32_S1000000x1_S1000000x32_1_0_n_n_0_1_132 rfl rfl rfl rfl rfl _
    (val_main_v45 (F := Ideal) a1) e q (by decide) _ (srccol_apply a1 e (hsrc e)), h2_apply a0 a1 a2 a6 a7 a8 a9 hsrc]
  exact (mul_one _).symm

-- The quotient by the number of edges is the product with its reciprocal on every extended real.
theorem nf_apply (hsrc : ∀ e : Fin 1000000, 0 ≤ (wrow a1 0 e).toInt) (n : Fin 50000) (q : Fin 32) :
    val_main_v51 (F := Ideal) a0 a1 a2 a6 a7 a8 a9 (ix2 n q)
      = nodeFeatures (mat a0) (wrow a1 0) (wrow a1 1) (vec a2) (mat a6) (vec a7) (mat a8) (vec a9) n q := by
  rw [val_main_v51_apply, val_main_v50_apply, val_main_cst_7_apply, agg3_apply a0 a1 a2 a6 a7 a8 a9 hsrc n q,
    Ideal.hostDivf_def, Ideal.ofBits_def, ofBits_edges, Ideal.div_coe (by norm_num : (1000000 : ℝ) ≠ 0)]
  rfl

theorem few_apply (p : Fin 1024) (q : Fin 32) :
    val_main_v52 (F := Ideal) a3 a11 (ix2 p q) = mm (mat a3) (mat a11) p q := by
  rw [val_main_v52_apply]
  exact mm_read (fun _ _ => rfl) (fun _ _ => rfl) p q (fun k => idx2_eq _ p k rfl rfl) (fun k => idx2_eq _ k q rfl rfl)

theorem eh_apply (p : Fin 1024) (q : Fin 32) :
    val_main_v53 (F := Ideal) a3 a4 a11 (ix2 p q) = mm (mat a4) (mm (mat a3) (mat a11)) p q := by
  rw [val_main_v53_apply]
  exact mm_read (fun _ _ => rfl) (few_apply a3 a11) p q (fun k => idx2_eq _ p k rfl rfl) (fun k => idx2_eq _ k q rfl rfl)

abbrev NF : Fin 50000 → Fin 32 → EReal :=
  nodeFeatures (mat a0) (wrow a1 0) (wrow a1 1) (vec a2) (mat a6) (vec a7) (mat a8) (vec a9)
abbrev EH : Fin 1024 → Fin 32 → EReal := mm (mat a4) (mm (mat a3) (mat a11))

theorem nfwn_apply (hsrc : ∀ e : Fin 1000000, 0 ≤ (wrow a1 0 e).toInt) (i : Fin 50000) (q : Fin 32) :
    val_main_v54 (F := Ideal) a0 a1 a2 a6 a7 a8 a9 a10 (ix2 i q) = mm (NF a0 a1 a2 a6 a7 a8 a9) (mat a10) i q := by
  rw [val_main_v54_apply]
  exact mm_read (nf_apply a0 a1 a2 a6 a7 a8 a9 hsrc) (fun _ _ => rfl) i q (fun k => idx2_eq _ i k rfl rfl) (fun k => idx2_eq _ k q rfl rfl)

theorem teh_apply (i : Fin 50000) (q : Fin 32) :
    val_main_v55 (F := Ideal) a3 a4 a5 a11 (ix2 i q) = mm (mat a5) (EH a3 a4 a11) i q := by
  rw [val_main_v55_apply]
  exact mm_read (fun _ _ => rfl) (eh_apply a3 a4 a11) i q (fun k => idx2_eq _ i k rfl rfl) (fun k => idx2_eq _ k q rfl rfl)

abbrev SH : Fin 50000 → Fin 32 → EReal :=
  fun i q => relu ((mm (NF a0 a1 a2 a6 a7 a8 a9) (mat a10) i q + mm (mat a5) (EH a3 a4 a11) i q) + vec a12 q)

theorem shared_apply (hsrc : ∀ e : Fin 1000000, 0 ≤ (wrow a1 0 e).toInt) (i : Fin 50000) (q : Fin 32) :
    val_main_v60 (F := Ideal) a0 a1 a2 a3 a4 a5 a6 a7 a8 a9 a10 a11 a12 (ix2 i q)
      = SH a0 a1 a2 a3 a4 a5 a6 a7 a8 a9 a10 a11 a12 i q := by
  rw [val_main_v60_apply, val_main_v59_apply, val_main_v56_apply, val_main_v58_apply, val_main_v57_apply,
    val_main_call2_v0_apply, val_main_call2_cst_apply, nfwn_apply a0 a1 a2 a6 a7 a8 a9 a10 hsrc i q, teh_apply a3 a4 a5 a11 i q,
    Ideal.maximumf_def, Ideal.addf_def, Ideal.addf_def, Ideal.ofBits_def, Ideal.ofBits_zero_f32,
    idx1_eq (idx_main_v57 (idx_main_v58 (ix2 i q))) q rfl]
  rfl

abbrev CL : Fin 50000 → Fin 32 → EReal :=
  fun i q => relu (lin (SH a0 a1 a2 a3 a4 a5 a6 a7 a8 a9 a10 a11 a12) (mat a13) (vec a14) i q)

theorem cl_apply (hsrc : ∀ e : Fin 1000000, 0 ≤ (wrow a1 0 e).toInt) (i : Fin 50000) (q : Fin 32) :
    val_main_v65 (F := Ideal) a0 a1 a2 a3 a4 a5 a6 a7 a8 a9 a10 a11 a12 a13 a14 (ix2 i q)
      = CL a0 a1 a2 a3 a4 a5 a6 a7 a8 a9 a10 a11 a12 a13 a14 i q := by
  rw [val_main_v65_apply, val_main_v64_apply, val_main_v61_apply, val_main_v63_apply, val_main_v62_apply,
    val_main_call3_v0_apply, val_main_call3_cst_apply, Ideal.maximumf_def, Ideal.addf_def, Ideal.ofBits_def,
    Ideal.ofBits_zero_f32]
  exact congrArg (max · 0) (congrArg₂ (· + ·) (mm_read (shared_apply a0 a1 a2 a3 a4 a5 a6 a7 a8 a9 a10 a11 a12 hsrc)
    (fun _ _ => rfl) i q (fun k => idx2_eq _ i k rfl rfl) (fun k => idx2_eq _ k q rfl rfl)) (congrArg a14 (idx1_eq _ q rfl)))

theorem logits_apply (hsrc : ∀ e : Fin 1000000, 0 ≤ (wrow a1 0 e).toInt) (n : Fin 50000) (k : Fin 2) :
    val_main_v69 (F := Ideal) a0 a1 a2 a3 a4 a5 a6 a7 a8 a9 a10 a11 a12 a13 a14 a15 a16 (ix2 n k)
      = logits (mat a5) (NF a0 a1 a2 a6 a7 a8 a9) (EH a3 a4 a11) (mat a10) (vec a12) (mat a13) (vec a14) (mat a15) (vec a16) n k := by
  rw [val_main_v69_apply, val_main_v66_apply, val_main_v68_apply, val_main_v67_apply, Ideal.addf_def]
  exact congrArg₂ (· + ·) (mm_read (cl_apply a0 a1 a2 a3 a4 a5 a6 a7 a8 a9 a10 a11 a12 a13 a14 hsrc) (fun _ _ => rfl) n k
    (fun j => idx2_eq _ n j rfl rfl) (fun j => idx2_eq _ j k rfl rfl)) (congrArg a16 (idx1_eq _ k rfl))

-- Folding the maximum from −∞ over the two classes leaves the larger of the row's two entries.
theorem hostMax_classes (x : S50000x2.Idx → EReal) (n : Fin 50000) :
    Host.reduce (FloatOps.maximumf (F := Ideal) (φ := .f32)) x (val_main_cst_8 (F := Ideal)) reducesTo_S50000x2_S50000_d1 h_S_ (ix1 n)
      = max (x (ix2 n 0)) (x (ix2 n 1)) := by
  have h : S50000x2.Reduces [1] S50000 := by decide
  have hl : ∀ k : Fin 2, h.lift (ix1 n) k = ix2 n k := fun k => by
    funext c; apply Fin.ext; fin_cases c <;> rfl
  rw [Host.reduce_eq_fold_single (FloatOps.maximumf (F := Ideal) (φ := .f32)) x _ reducesTo_S50000x2_S50000_d1 h h_S_]
  show Finset.fold (FloatOps.maximumf (F := Ideal) (φ := .f32)) (val_main_cst_8 (F := Ideal) (Shape.Idx.first h_S_)) (fun k : Fin 2 => x (h.lift (ix1 n) k))
    (Finset.univ : Finset (Fin 2)) = _
  have hu : (Finset.univ : Finset (Fin 2)) = insert 0 {1} := by decide
  rw [hu, Finset.fold_insert (by decide), Finset.fold_singleton, hl, hl, val_main_cst_8_apply, Ideal.ofBits_def, ofBits_negInf,
    Ideal.maximumf_def, Ideal.maximumf_def, max_bot_right]

-- Whatever the row of logits l is, the result row is its two-class softmax.
theorem rowmax_apply (n : Fin 50000) {l : Fin 2 → EReal} (hl : ∀ j, val_main_v69 (F := Ideal) a0 a1 a2 a3 a4 a5 a6 a7 a8 a9 a10 a11 a12 a13 a14 a15 a16 (ix2 n j) = l j) :
    val_main_v72 (F := Ideal) a0 a1 a2 a3 a4 a5 a6 a7 a8 a9 a10 a11 a12 a13 a14 a15 a16 (ix1 n) = max (l 0) (l 1) := by
  rw [val_main_v72_apply, val_main_v71_apply, val_main_cst_9_apply, Ideal.ofBits_def, ofBits_negInf, Ideal.maximumf_def,
    max_bot_left]
  unfold val_main_v70
  exact (hostMax_classes _ n).trans (congrArg₂ max (hl 0) (hl 1))

theorem expo_apply (n : Fin 50000) {l : Fin 2 → EReal} (hl : ∀ j, val_main_v69 (F := Ideal) a0 a1 a2 a3 a4 a5 a6 a7 a8 a9 a10 a11 a12 a13 a14 a15 a16 (ix2 n j) = l j) (k : Fin 2) :
    val_main_v76 (F := Ideal) a0 a1 a2 a3 a4 a5 a6 a7 a8 a9 a10 a11 a12 a13 a14 a15 a16 (ix2 n k) = Ideal.exp (l k - max (l 0) (l 1)) := by
  rw [val_main_v76_apply, val_main_v75_apply, val_main_v74_apply, val_main_v73_apply,
    idx1_eq (idx_main_v73 (idx_main_v74 (ix2 n k))) n rfl, rowmax_apply (hl := hl), hl, Ideal.hostUnary_exp_def, Ideal.subf_def]

theorem out_apply (n : Fin 50000) {l : Fin 2 → EReal} (hl : ∀ j, val_main_v69 (F := Ideal) a0 a1 a2 a3 a4 a5 a6 a7 a8 a9 a10 a11 a12 a13 a14 a15 a16 (ix2 n j) = l j) (k : Fin 2) :
    val_main_v80 (F := Ideal) a0 a1 a2 a3 a4 a5 a6 a7 a8 a9 a10 a11 a12 a13 a14 a15 a16 (ix2 n k) = softmax2 Ideal.exp Ideal.div l k := by
  rw [val_main_v80_apply, val_main_v79_apply, val_main_v78_apply, idx1_eq (idx_main_v78 (idx_main_v79 (ix2 n k))) n rfl,
    val_main_v77_apply, val_main_cst_10_apply, Ideal.ofBits_def, Ideal.ofBits_zero_f32, zero_add, Fin.sum_univ_two,
    idx2_eq (idx_main_v77 (ix1 n) 0) n 0 rfl rfl, idx2_eq (idx_main_v77 (ix1 n) 1) n 1 rfl rfl, expo_apply (hl := hl),
    expo_apply (hl := hl), expo_apply (hl := hl), Ideal.hostDivf_def]
  rfl

open Idealize.ShloMosaic.TcCoe Idealize.SL.Sem in
theorem ref_run_eq_spec (m : (ℓ : Loc nD τ sig) → Buf (Elt Ideal) ℓ) (c : Dev nD)
    (hsrc : ∀ e : Fin 1000000,
      0 ≤ ((m ((c.tc : Thread nD τ).loc main_arg1) : WArr S2x1000000) (ix2 (0 : Fin 2) e)).toInt
        ∧ ((m ((c.tc : Thread nD τ).loc main_arg1) : WArr S2x1000000) (ix2 (0 : Fin 2) e)).toInt < 50000)
    (n : Fin 50000) (k : Fin 2) :
    (Cert.ReferenceIdeal.Value.res_main_v80 m c : RArr S50000x2) (ix2 n k)
      = softmax2 Ideal.exp Ideal.div (logits (mat (m ((c.tc : Thread nD τ).loc main_arg5)))
          (nodeFeatures (mat (m ((c.tc : Thread nD τ).loc main_arg0))) (wrow (m ((c.tc : Thread nD τ).loc main_arg1)) 0)
            (wrow (m ((c.tc : Thread nD τ).loc main_arg1)) 1) (vec (m ((c.tc : Thread nD τ).loc main_arg2)))
            (mat (m ((c.tc : Thread nD τ).loc main_arg6))) (vec (m ((c.tc : Thread nD τ).loc main_arg7)))
            (mat (m ((c.tc : Thread nD τ).loc main_arg8))) (vec (m ((c.tc : Thread nD τ).loc main_arg9))))
          (mm (mat (m ((c.tc : Thread nD τ).loc main_arg4)))
            (mm (mat (m ((c.tc : Thread nD τ).loc main_arg3))) (mat (m ((c.tc : Thread nD τ).loc main_arg11)))))
          (mat (m ((c.tc : Thread nD τ).loc main_arg10))) (vec (m ((c.tc : Thread nD τ).loc main_arg12)))
          (mat (m ((c.tc : Thread nD τ).loc main_arg13))) (vec (m ((c.tc : Thread nD τ).loc main_arg14)))
          (mat (m ((c.tc : Thread nD τ).loc main_arg15))) (vec (m ((c.tc : Thread nD τ).loc main_arg16))) n) k := by
  rw [val_main_v80_eq m c]
  exact out_apply _ _ _ _ _ _ _ _ _ _ _ _ _ _ _ _ _ n
    (fun j => logits_apply _ _ _ _ _ _ _ _ _ _ _ _ _ _ _ _ _ (fun e => (hsrc e).1) n j) k

end Cert.ReferenceIdeal.RefValue

end
-- ==== Proof.PreRange.lean ====
import proofs.«422453_j56642028700408_3_alg».proof.Defs
import Idealize.ShloMosaic.Lib.StableHlo.Predicate
import Idealize.ShloMosaic.Lib.ReduceAll
import Idealize.ShloMosaic.Lib.ValueIdx

noncomputable section

namespace Cert.Hgnn.Pre

open Idealize.ShloMosaic Idealize.SL.Sem Idealize.ShloMosaic.ValueIdx
open Cert.Pre_finite_inputs

local instance : Subsingleton S_.Idx := ⟨fun a b => funext fun d => d.elim0⟩

-- Entry (0, e) of the table and entry e of its flattened row 0 have the same row-major position.
theorem row0_read (a1 : IVec S2x1000000 32) (hs : S2x1000000.Slices ![0, 0] S1x1000000)
    (hc : S1x1000000.ShapeCasts S1000000) (e : Fin 1000000) :
    shapeCast S1000000 (extractStridedSlice S1x1000000 ![0, 0] a1 hs) hc (ix1 e) = a1 (ix2 (0 : Fin 2) e) := by
  unfold shapeCast
  rw [show Shape.reshapeEquiv hc (ix1 e) = (ix2 (0 : Fin 1) e : S1x1000000.Idx) from
    Shape.reshapeEquiv_eq_of_rowMajor hc (by
      rw [Shape.rowMajor_val_two, Shape.rowMajor_val_one]
      exact (Nat.zero_mul _).symm ▸ Nat.zero_add _)]
  exact congrArg a1 (funext fun a => match a with
    | ⟨0, _⟩ => Fin.ext rfl
    | ⟨1, _⟩ => Fin.ext (Nat.zero_add _))

-- A signed comparison against a literal is the inequality of the signed readings.
theorem word_range {x w z b : BitVec 32} (hx : x = w) (hz : z = 0#32) (hb : b = 50000#32)
    (h0 : IntOp.cmpi .sge x z = 1#1) (h1 : IntOp.cmpi .slt x b = 1#1) : 0 ≤ w.toInt ∧ w.toInt < 50000 := by
  subst hx hz hb
  rw [IntOp.cmpi_sge] at h0
  rw [IntOp.cmpi_slt] at h1
  exact ⟨h0, h1⟩

variable [Cert.Pre_finite_inputs.Facts]

-- A one-bit conjunction is 1 only when both operands are, and an and-reduction that is 1 met a 1 at every index.
theorem part5_dec (v78 : IVec S_ 1) (v82 : IVec S1000000 1) (v84 v85 : IVec S1000000 32)
    (h : fn_part5 (F := Ideal) v78 v82 v84 v85 ix0 = 1#1) (i : S1000000.Idx) :
    v82 i = 1#1 ∧ IntOp.cmpi .slt (v84 i) (v85 i) = 1#1 :=
  IntOp.andi_eq_one.1 (Host.reduce_andi_all (andi v82 (cmpi .slt v84 v85)) _ _ _ _ (IntOp.andi_eq_one.1 h).2 i)

-- Every link of the chain ends in the call of the next, so the chain at 1 is its last link at 1: both tests of row 0.
theorem src_range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : Fin 1000000,
      0 ≤ ((m ((c.tc : Thread Cert.KernelIdeal.nD Cert.KernelIdeal.τ).loc Cert.KernelIdeal.main_arg1) : IVec S2x1000000 32) (ix2 (0 : Fin 2) e)).toInt
      ∧ ((m ((c.tc : Thread Cert.KernelIdeal.nD Cert.KernelIdeal.τ).loc Cert.KernelIdeal.main_arg1) : IVec S2x1000000 32) (ix2 (0 : Fin 2) e)).toInt < 50000 := fun e => by
  have h := congrFun (hpre c) ix0
  unfold Cert.Pre_finite_inputs.fn fn_part1 fn_part2 fn_part3 fn_part4 at h
  obtain ⟨h0, h1⟩ := part5_dec _ _ _ _ h (ix1 e)
  exact word_range (row0_read _ _ _ e) (StableHlo.Predicate.bcast_scalar Facts.bcast_S_S1000000 Facts.h_S_ _ _)
    (StableHlo.Predicate.bcast_scalar Facts.bcast_S_S1000000 Facts.h_S_ _ _) h0 h1

end Cert.Hgnn.Pre

end
-- ==== Proof.lean ====
import proofs.«422453_j56642028700408_3_alg».proof.Defs
import proofs.«422453_j56642028700408_3_alg».proof.Proof.Gen.Kernel
import proofs.«422453_j56642028700408_3_alg».proof.Proof.Gen.KernelIdeal
import proofs.«422453_j56642028700408_3_alg».proof.Proof.Gen.ReferenceIdeal
import proofs.«422453_j56642028700408_3_alg».proof.Proof.Gen.Pre_finite_inputs
import proofs.«422453_j56642028700408_3_alg».proof.Proof.Gen.ReferenceIdeal.Run
import proofs.«422453_j56642028700408_3_alg».proof.Proof.Run
import proofs.«422453_j56642028700408_3_alg».proof.Proof.Bits.Run
import proofs.«422453_j56642028700408_3_alg».proof.Proof.KernelValue
import proofs.«422453_j56642028700408_3_alg».proof.Proof.RefValue
import proofs.«422453_j56642028700408_3_alg».proof.Proof.PreRange
import Idealize.ShloMosaic.Adequacy
import Idealize.ShloMosaic.Init

noncomputable section

namespace Cert.Proof

open Idealize.ShloMosaic Idealize.ShloMosaic.TcCoe Idealize.SL.Sem

section Claims
variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the last scatter stage's scale is the rational 1/1000000. -/
theorem preserves : Cert.preserves_Kernel_KernelIdeal :=
  IdealRules.named_const.statement Cert.KernelIdeal.κ "inv_1000000" .f32 0x358637BD#32 ((1 / 1000000 : ℝ) : EReal) rfl

/-- Both programs end at the specification `Cert.Hgnn`, index by index, once every source index lies inside the node table. -/
theorem algebraic : Cert.algebraic_KernelIdeal_ReferenceIdeal := by
  intro m ρ m' ρ' hpre hagree
  refine ⟨fun c => Cert.KernelIdeal.Hand.res6 (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hs := Cert.Hgnn.Pre.src_range_of_pre m hpre c
  obtain ⟨a0, a1, a2, a3, a4, a5, a6, a7, a8, a9, a10, a11, a12, a13, a14, a15, a16⟩ := hagree c
  funext i
  obtain ⟨n, k, rfl⟩ : ∃ (n : Fin 50000) (k : Fin 2), i = ValueIdx.ix2 n k := ⟨i 0, i 1, ValueIdx.eq_ix2 i⟩
  show Cert.ReferenceIdeal.Value.res_main_v80 m' c (ValueIdx.ix2 n k) = Cert.KernelIdeal.Hand.res6 (F := Ideal) m c (ValueIdx.ix2 n k)
  rw [Cert.ReferenceIdeal.RefValue.ref_run_eq_spec m' c (by rw [a1]; exact hs) n k,
    Cert.KernelIdeal.Hand.kernel_eq_spec m c hs n k, a0, a1, a2, a3, a4, a5, a6, a7, a8, a9, a10, a11, a12, a13, a14, a15, a16]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
